-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v142)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v142) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S96x64 .f32) (main_arg10 : FVec F S64 .f32) (main_v33 : IVec S_ 1) : IVec S_ 1 :=
  let main_v34 : FVec F S96x64 .f32 := Host.absf main_arg9
  let main_cst_12 : FVec F S_ .f32 := constant S_ .f32 0x7F800000#32
  let main_v35 : FVec F S96x64 .f32 := broadcastInDim S96x64 ![] bcast_S_S96x64 main_cst_12
  let main_v36 : IVec S96x64 1 := cmpf .olt main_v34 main_v35
  let main_c_13 : IVec S_ 1 := constantI S_ 1 1#1
  let main_v37 : IVec S_ 1 := (fun x v => Host.reduce IntOp.andi x v reducesTo_S96x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S96 .f32) (main_arg7 : FVec F S96x96 .f32) (main_arg8 : FVec F S96 .f32) (main_arg9 : FVec F S96x64 .f32) (main_arg10 : FVec F S64 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x96 .f32) (main_arg4 : FVec F S96 .f32) (main_arg5 : FVec F S96x96 .f32) (main_arg6 : FVec F S96 .f32) (main_arg7 : FVec F S96x96 .f32) (main_arg8 : FVec F S96 .f32) (main_arg9 : FVec F S96x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg3
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg5
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S10000x128 : Shape := ⟨2, ![10000, 128]⟩
abbrev S10000x96 : Shape := ⟨2, ![10000, 96]⟩
abbrev S850000x96 : Shape := ⟨2, ![850000, 96]⟩
abbrev S1x96 : Shape := ⟨2, ![1, 96]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S50000x1 : Shape := ⟨2, ![50000, 1]⟩
abbrev S64x64 : Shape := ⟨2, ![64, 64]⟩
abbrev S10000x1 : Shape := ⟨2, ![10000, 1]⟩
abbrev S64x65 : Shape := ⟨2, ![64, 65]⟩
abbrev S10000x65 : Shape := ⟨2, ![10000, 65]⟩
abbrev S64x1 : Shape := ⟨2, ![64, 1]⟩

abbrev nBuf : Space → Nat
  | .hbm => 189
  | .vmem => 46
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S96x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S50000x96, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x96, .f32⟩
  | 64 => ⟨S850000x1, .f32⟩
  | 65 => ⟨S850000x96, .f32⟩
  | 66 => ⟨S850000x96, .f32⟩
  | 67 => ⟨S_, .f32⟩
  | 68 => ⟨S50000x96, .f32⟩
  | 69 => ⟨S850000x1, .i32⟩
  | 70 => ⟨S50000x96, .f32⟩
  | 71 => ⟨S1x96, .f32⟩
  | 72 => ⟨S50000x96, .f32⟩
  | 73 => ⟨S50000x96, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S850000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x96, .f32⟩
  | 102 => ⟨S850000x1, .f32⟩
  | 103 => ⟨S850000x96, .f32⟩
  | 104 => ⟨S850000x96, .f32⟩
  | 105 => ⟨S_, .f32⟩
  | 106 => ⟨S50000x96, .f32⟩
  | 107 => ⟨S850000x1, .i32⟩
  | 108 => ⟨S50000x96, .f32⟩
  | 109 => ⟨S1x96, .f32⟩
  | 110 => ⟨S50000x96, .f32⟩
  | 111 => ⟨S50000x96, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000, .f32⟩
  | 2 => ⟨S850000, .f32⟩
  | 3 => ⟨S_, .i32⟩
  | 4 => ⟨S850000, .i32⟩
  | 5 => ⟨S850000, .i1⟩
  | 6 => ⟨S_, .i32⟩
  | 7 => ⟨S850000, .i32⟩
  | 8 => ⟨S850000, .i32⟩
  | 9 => ⟨S850000, .i32⟩
  | 10 => ⟨S850000x1, .i32⟩
  | 11 => ⟨S850000x96, .f32⟩
  | 12 => ⟨S850000x1, .f32⟩
  | 13 => ⟨S850000x96, .f32⟩
  | 14 => ⟨S850000x96, .f32⟩
  | 15 => ⟨S_, .f32⟩
  | 16 => ⟨S50000x96, .f32⟩
  | 17 => ⟨S850000x1, .i32⟩
  | 18 => ⟨S50000x96, .f32⟩
  | 19 => ⟨S1x96, .f32⟩
  | 20 => ⟨S50000x96, .f32⟩
  | 21 => ⟨S50000x64, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000x64, .f32⟩
  | 50 => ⟨S850000x1, .f32⟩
  | 51 => ⟨S850000x64, .f32⟩
  | 52 => ⟨S850000x64, .f32⟩
  | 53 => ⟨S_, .f32⟩
  | 54 => ⟨S50000x64, .f32⟩
  | 55 => ⟨S850000x1, .i32⟩
  | 56 => ⟨S50000x64, .f32⟩
  | 57 => ⟨S1x64, .f32⟩
  | 58 => ⟨S50000x64, .f32⟩
  | 59 => ⟨S50000x1, .i32⟩
  | 60 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x96, .f32⟩
  | .local _ .vmem, ⟨3, _⟩ => ⟨S10000x96, .f32⟩
  | .local _ .vmem, ⟨4, _⟩ => ⟨S10000x96, .f32⟩
  | .local _ .vmem, ⟨5, _⟩ => ⟨S10000x96, .f32⟩
  | .local _ .vmem, ⟨6, _⟩ => ⟨S10000x96, .f32⟩
  | .local _ .vmem, ⟨7, _⟩ => ⟨S1x96, .f32⟩
  | .local _ .vmem, ⟨8, _⟩ => ⟨S10000x96, .f32⟩
  | .local _ .vmem, ⟨9, _⟩ => ⟨S10000x96, .f32⟩
  | .local _ .vmem, ⟨10, _⟩ => ⟨S10000x96, .f32⟩
  | .local _ .vmem, ⟨11, _⟩ => ⟨S10000x96, .f32⟩
  | .local _ .vmem, ⟨12, _⟩ => ⟨S96x96, .f32⟩
  | .local _ .vmem, ⟨13, _⟩ => ⟨S10000x96, .f32⟩
  | .local _ .vmem, ⟨14, _⟩ => ⟨S10000x96, .f32⟩
  | .local _ .vmem, ⟨15, _⟩ => ⟨S10000x96, .f32⟩
  | .local _ .vmem, ⟨16, _⟩ => ⟨S10000x96, .f32⟩
  | .local _ .vmem, ⟨17, _⟩ => ⟨S1x96, .f32⟩
  | .local _ .vmem, ⟨18, _⟩ => ⟨S10000x96, .f32⟩
  | .local _ .vmem, ⟨19, _⟩ => ⟨S10000x96, .f32⟩
  | .local _ .vmem, ⟨20, _⟩ => ⟨S10000x96, .f32⟩
  | .local _ .vmem, ⟨21, _⟩ => ⟨S10000x96, .f32⟩
  | .local _ .vmem, ⟨22, _⟩ => ⟨S96x96, .f32⟩
  | .local _ .vmem, ⟨23, _⟩ => ⟨S10000x96, .f32⟩
  | .local _ .vmem, ⟨24, _⟩ => ⟨S10000x96, .f32⟩
  | .local _ .vmem, ⟨25, _⟩ => ⟨S10000x96, .f32⟩
  | .local _ .vmem, ⟨26, _⟩ => ⟨S10000x96, .f32⟩
  | .local _ .vmem, ⟨27, _⟩ => ⟨S1x96, .f32⟩
  | .local _ .vmem, ⟨28, _⟩ => ⟨S10000x96, .f32⟩
  | .local _ .vmem, ⟨29, _⟩ => ⟨S10000x96, .f32⟩
  | .local _ .vmem, ⟨30, _⟩ => ⟨S10000x96, .f32⟩
  | .local _ .vmem, ⟨31, _⟩ => ⟨S10000x96, .f32⟩
  | .local _ .vmem, ⟨32, _⟩ => ⟨S96x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x1, .i32⟩
  | .local _ .vmem, ⟨43, _⟩ => ⟨S10000x1, .i32⟩
  | .local _ .vmem, ⟨44, _⟩ => ⟨S64x64, .f32⟩
  | .local _ .vmem, ⟨45, _⟩ => ⟨S64x65, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_v56 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_19 : Ref sig .tc := ⟨.hbm, 121, rfl⟩
abbrev main_v87 : Ref sig .tc := ⟨.hbm, 122, rfl⟩
abbrev main_v88 : Ref sig .tc := ⟨.hbm, 123, rfl⟩
abbrev main_c_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_c_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_24 : Ref sig .tc := ⟨.hbm, 150, rfl⟩
abbrev main_v111 : Ref sig .tc := ⟨.hbm, 151, rfl⟩
abbrev main_v112 : Ref sig .tc := ⟨.hbm, 152, rfl⟩
abbrev main_c_25 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_26 : Ref sig .tc := ⟨.hbm, 159, rfl⟩
abbrev main_v118 : Ref sig .tc := ⟨.hbm, 160, rfl⟩
abbrev main_v119 : Ref sig .tc := ⟨.hbm, 161, rfl⟩
abbrev main_c_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_c_28 : Ref sig .tc := ⟨.hbm, 169, rfl⟩
abbrev main_v126 : Ref sig .tc := ⟨.hbm, 170, rfl⟩
abbrev main_v127 : Ref sig .tc := ⟨.hbm, 171, rfl⟩
abbrev main_c_29 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_30 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![5], ![false]⟩

def k8_cond2 (i : grid8.Coords) : BitVec 1 :=
  let arg0 : BitVec 32 := BitVec.ofNat 32 (i 0).val
  let c4_i32 : BitVec 32 := 4#32
  let v22 : BitVec 1 := Scalar.cmpi .eq arg0 c4_i32
  let v23 : BitVec 32 := Scalar.extui v22
  let c0_i32_9 : BitVec 32 := 0#32
  let v24 : BitVec 1 := Scalar.cmpi .ne v23 c0_i32_9
  v24

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S10000x96_S10000x96_0_0 : ∀ a, (![0, 0] : Fin 2 → Nat) a + S10000x96.size a ≤ S10000x96.size a
  h_S10000x96 : 0 < S10000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S10000x96_S10000x96 : S10000x96.ShapeCasts S10000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S10000x96 : S1x96.Broadcasts S10000x96
  inb_S96x96_S96x96_0_0 : ∀ a, (![0, 0] : Fin 2 → Nat) a + S96x96.size a ≤ S96x96.size a
  h_S96x96 : 0 < S96x96.numel
  inb_S96x64_S96x64_0_0 : ∀ a, (![0, 0] : Fin 2 → Nat) a + S96x64.size a ≤ S96x64.size a
  h_S96x64 : 0 < S96x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S50000_S50000x1 : S50000.ShapeCasts S50000x1
  inb_S64x65_S64x65_0_0 : ∀ a, (![0, 0] : Fin 2 → Nat) a + S64x65.size a ≤ S64x65.size a
  h_S64x65 : 0 < S64x65.numel
  shapeCasts_S64x65_S64x65 : S64x65.ShapeCasts S64x65
  iota_S10000x64_d1_w32 : S10000x64.Iotas .tc 32 [1]
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  natLt_1_32 : 1 < 32
  concatenates_S10000x64_S10000x1_S10000x65_d1 : Shape.Concatenates [S10000x64, S10000x1] S10000x65 1
  inb_S64x65_S64x64_0_0 : ∀ a, (![0, 0] : Fin 2 → Nat) a + S64x64.size a ≤ S64x65.size a
  h_S64x64 : 0 < S64x64.numel
  inb_S64x65_S64x1_0_64 : ∀ a, (![0, 64] : Fin 2 → Nat) a + S64x1.size a ≤ S64x65.size a
  h_S64x1 : 0 < S64x1.numel
  broadcasts_S64x1_S64x64 : S64x1.Broadcasts S64x64
  inb_S64x64_S64x64_0_0 : ∀ a, (![0, 0] : Fin 2 → Nat) a + S64x64.size a ≤ S64x64.size a
  scatter_S50000_S850000x1_S850000_n_0_0_1_wf : ScatterDims.WF S50000 S850000x1 S850000 [] [0] [0] 1
  dot_S10000x128_S128x96_S10000x96_1_0_0_1_n_n_wf : DotDims.WF S10000x128 S128x96 S10000x96 [1] [0] [0] [1] [] []
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S10000x96_S96x96_S10000x96_1_0_0_1_n_n_wf : DotDims.WF S10000x96 S96x96 S10000x96 [1] [0] [0] [1] [] []
  dot_S10000x96_S96x64_S10000x64_1_0_0_1_n_n_wf : DotDims.WF S10000x96 S96x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S10000x65_S64x65_0_0_1_1_n_n_wf : DotDims.WF S10000x64 S10000x65 S64x65 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S50000x96.size a
  hwx0_2 : ∀ i : grid0.Coords, EltTy.bits .f32 = 32 ∨ (Rect.block (s := S50000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x96.size a ≤ S50000x96.size a
  hwx1_0 : ∀ i : grid1.Coords, EltTy.bits .f32 = 32 ∨ (Rect.block (s := S50000x96) S10000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x96.size a ≤ S50000x96.size a
  hwx1_2 : ∀ i : grid1.Coords, EltTy.bits .f32 = 32 ∨ (Rect.block (s := S50000x96) S10000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x96.size a ≤ S50000x96.size a
  hwx2_0 : ∀ i : grid2.Coords, EltTy.bits .f32 = 32 ∨ (Rect.block (s := S50000x96) S10000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x96.size a ≤ S50000x96.size a
  hwx2_2 : ∀ i : grid2.Coords, EltTy.bits .f32 = 32 ∨ (Rect.block (s := S50000x96) S10000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x96.size a ≤ S50000x96.size a
  hwx3_0 : ∀ i : grid3.Coords, EltTy.bits .f32 = 32 ∨ (Rect.block (s := S50000x96) S10000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x96.size a ≤ S50000x96.size a
  hwx3_2 : ∀ i : grid3.Coords, EltTy.bits .f32 = 32 ∨ (Rect.block (s := S50000x96) S10000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x96.size a ≤ S50000x96.size a
  hwx4_0 : ∀ i : grid4.Coords, EltTy.bits .f32 = 32 ∨ (Rect.block (s := S50000x96) S10000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x96.size a ≤ S50000x96.size a
  hwx4_2 : ∀ i : grid4.Coords, EltTy.bits .f32 = 32 ∨ (Rect.block (s := S50000x96) S10000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x96.size a ≤ S50000x96.size a
  hwx5_0 : ∀ i : grid5.Coords, EltTy.bits .f32 = 32 ∨ (Rect.block (s := S50000x96) S10000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x96.size a ≤ S50000x96.size a
  hwx5_2 : ∀ i : grid5.Coords, EltTy.bits .f32 = 32 ∨ (Rect.block (s := S50000x96) S10000x96.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x96.size a ≤ S50000x96.size a
  hwx6_0 : ∀ i : grid6.Coords, EltTy.bits .f32 = 32 ∨ (Rect.block (s := S50000x96) S10000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x64.size a ≤ S96x64.size a
  hwx6_1 : ∀ i : grid6.Coords, EltTy.bits .f32 = 32 ∨ (Rect.block (s := S96x64) S96x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S50000x64.size a
  hwx7_2 : ∀ i : grid7.Coords, EltTy.bits .f32 = 32 ∨ (Rect.block (s := S50000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x1.size a ≤ S50000x1.size a
  hwx8_1 : ∀ i : grid8.Coords, EltTy.bits .i32 = 32 ∨ (Rect.block (s := S50000x1) S10000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x128_S128x96_S10000x96_1_0_0_1_n_n : DotDims S10000x128 S128x96 S10000x96 where
  lhsContracting := [1]
  rhsContracting := [0]
  lhsNonContracting := [0]
  rhsNonContracting := [1]
  lhsBatch := []
  rhsBatch := []
  wf := dot_S10000x128_S128x96_S10000x96_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S10000x96_S96x96_S10000x96_1_0_0_1_n_n : DotDims S10000x96 S96x96 S10000x96 where
  lhsContracting := [1]
  rhsContracting := [0]
  lhsNonContracting := [0]
  rhsNonContracting := [1]
  lhsBatch := []
  rhsBatch := []
  wf := dot_S10000x96_S96x96_S10000x96_1_0_0_1_n_n_wf
def dot_S10000x96_S96x64_S10000x64_1_0_0_1_n_n : DotDims S10000x96 S96x64 S10000x64 where
  lhsContracting := [1]
  rhsContracting := [0]
  lhsNonContracting := [0]
  rhsNonContracting := [1]
  lhsBatch := []
  rhsBatch := []
  wf := dot_S10000x96_S96x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S10000x65_S64x65_0_0_1_1_n_n : DotDims S10000x64 S10000x65 S64x65 where
  lhsContracting := [0]
  rhsContracting := [0]
  lhsNonContracting := [1]
  rhsNonContracting := [1]
  lhsBatch := []
  rhsBatch := []
  wf := dot_S10000x64_S10000x65_S64x65_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S10000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S10000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S10000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v79) S10000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v107) S10000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v108) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v109) S10000x96.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v109) S10000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S96x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v138) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v139) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v140) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v140) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v141) S10000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v142) S64x64.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S96x96 : Shape := ⟨2, ![96, 96]⟩
abbrev S96x64 : Shape := ⟨2, ![96, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S64x64 : Shape := ⟨2, ![64, 64]⟩
abbrev S64x1 : Shape := ⟨2, ![64, 1]⟩

abbrev nBuf : Space → Nat
  | .hbm => 216
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S96x64, .f32⟩
  | 10 => ⟨S64, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S50000x96, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x96, .f32⟩
  | 64 => ⟨S850000x1, .f32⟩
  | 65 => ⟨S850000x96, .f32⟩
  | 66 => ⟨S850000x96, .f32⟩
  | 67 => ⟨S_, .f32⟩
  | 68 => ⟨S50000x96, .f32⟩
  | 69 => ⟨S850000x1, .i32⟩
  | 70 => ⟨S50000x96, .f32⟩
  | 71 => ⟨S1x96, .f32⟩
  | 72 => ⟨S50000x96, .f32⟩
  | 73 => ⟨S50000x96, .f32⟩
  | 74 => ⟨S_, .f32⟩
  | 75 => ⟨S50000x96, .f32⟩
  | 76 => ⟨S50000x96, .f32⟩
  | 77 => ⟨S50000x96, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x96, .f32⟩
  | 106 => ⟨S850000x1, .f32⟩
  | 107 => ⟨S850000x96, .f32⟩
  | 108 => ⟨S850000x96, .f32⟩
  | 109 => ⟨S_, .f32⟩
  | 110 => ⟨S50000x96, .f32⟩
  | 111 => ⟨S850000x1, .i32⟩
  | 112 => ⟨S50000x96, .f32⟩
  | 113 => ⟨S1x96, .f32⟩
  | 114 => ⟨S50000x96, .f32⟩
  | 115 => ⟨S50000x96, .f32⟩
  | 116 => ⟨S_, .f32⟩
  | 117 => ⟨S50000x96, .f32⟩
  | 118 => ⟨S50000x96, .f32⟩
  | 119 => ⟨S50000x96, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000, .f32⟩
  | 10 => ⟨S850000, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x96, .f32⟩
  | 20 => ⟨S850000x1, .f32⟩
  | 21 => ⟨S850000x96, .f32⟩
  | 22 => ⟨S850000x96, .f32⟩
  | 23 => ⟨S_, .f32⟩
  | 24 => ⟨S50000x96, .f32⟩
  | 25 => ⟨S850000x1, .i32⟩
  | 26 => ⟨S50000x96, .f32⟩
  | 27 => ⟨S1x96, .f32⟩
  | 28 => ⟨S50000x96, .f32⟩
  | 29 => ⟨S50000x96, .f32⟩
  | 30 => ⟨S_, .f32⟩
  | 31 => ⟨S50000x96, .f32⟩
  | 32 => ⟨S50000x96, .f32⟩
  | 33 => ⟨S50000x64, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .f32⟩
  | 62 => ⟨S850000x1, .f32⟩
  | 63 => ⟨S850000x64, .f32⟩
  | 64 => ⟨S850000x64, .f32⟩
  | 65 => ⟨S_, .f32⟩
  | 66 => ⟨S50000x64, .f32⟩
  | 67 => ⟨S850000x1, .i32⟩
  | 68 => ⟨S50000x64, .f32⟩
  | 69 => ⟨S1x64, .f32⟩
  | 70 => ⟨S50000x64, .f32⟩
  | 71 => ⟨S50000x64, .f32⟩
  | 72 => ⟨S_, .f32⟩
  | 73 => ⟨S50000, .f32⟩
  | 74 => ⟨S_, .f32⟩
  | 75 => ⟨S64, .f32⟩
  | 76 => ⟨S50000x1, .i32⟩
  | 77 => ⟨S64, .f32⟩
  | 78 => ⟨S_, .f32⟩
  | 79 => ⟨S64x64, .f32⟩
  | 80 => ⟨S50000x1, .i32⟩
  | 81 => ⟨S64x64, .f32⟩
  | 82 => ⟨S_, .f32⟩
  | 83 => ⟨S64, .f32⟩
  | 84 => ⟨S64, .f32⟩
  | 85 => ⟨S64x1, .f32⟩
  | 86 => ⟨S64x64, .f32⟩
  | 87 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_cst : Ref sig .tc := ⟨.hbm, 116, rfl⟩
abbrev main_call2_v0 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call3_cst : Ref sig .tc := ⟨.hbm, 158, rfl⟩
abbrev main_call3_v0 : Ref sig .tc := ⟨.hbm, 159, rfl⟩
abbrev main_v115 : Ref sig .tc := ⟨.hbm, 160, rfl⟩
abbrev main_v116 : Ref sig .tc := ⟨.hbm, 161, rfl⟩
abbrev main_c_24 : Ref sig .tc := ⟨.hbm, 162, rfl⟩
abbrev main_v117 : Ref sig .tc := ⟨.hbm, 163, rfl⟩
abbrev main_v118 : Ref sig .tc := ⟨.hbm, 164, rfl⟩
abbrev main_c_25 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_26 : Ref sig .tc := ⟨.hbm, 171, rfl⟩
abbrev main_v124 : Ref sig .tc := ⟨.hbm, 172, rfl⟩
abbrev main_v125 : Ref sig .tc := ⟨.hbm, 173, rfl⟩
abbrev main_c_27 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_c_28 : Ref sig .tc := ⟨.hbm, 181, rfl⟩
abbrev main_v132 : Ref sig .tc := ⟨.hbm, 182, rfl⟩
abbrev main_v133 : Ref sig .tc := ⟨.hbm, 183, rfl⟩
abbrev main_c_29 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_30 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_31 : Ref sig .tc := ⟨.hbm, 200, rfl⟩
abbrev main_v148 : Ref sig .tc := ⟨.hbm, 201, rfl⟩
abbrev main_cst_32 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_33 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_34 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S850000x1_S850000_n_0_0_1_wf : ScatterDims.WF S50000 S850000x1 S850000 [] [0] [0] 1
  dot_S50000x128_S128x96_S50000x96_1_0_0_1_n_n_wf : DotDims.WF S50000x128 S128x96 S50000x96 [1] [0] [0] [1] [] []
  gather_S50000_S850000x1_S850000_n_0_n_n_0_1_1_wf : GatherDims.WF S50000 S850000x1 S850000 [] [0] [] [0] [] 1 ![1]
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf

class Facts : Prop extends Facts₀ where

variable [Facts]
-- ==== Proof.RefRead.lean ====
import proofs.«400805_j35450660061449_1_alg».proof.Proof.RefRun

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-! The reference, one operation a definition: each is a function of the arguments of @main it depends on. -/

def val_main_v0 : (⟨S50000, .i32⟩ : BufTy).Contents (Elt F) :=
  iotaInDim S50000 32 0

def val_main_v1 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v2 (x1 : (⟨S2x800000, .i32⟩ : BufTy).Contents (Elt F)) : (⟨S800000, .i32⟩ : BufTy).Contents (Elt F) :=
  shapeCast _ (val_main_v1 (F := F) x1) shapeCasts_S1x800000_S800000

def val_main_v3 (x1 : (⟨S2x800000, .i32⟩ : BufTy).Contents (Elt F)) : (⟨S850000, .i32⟩ : BufTy).Contents (Elt F) :=
  concatenate S850000 0 [⟨S800000, (val_main_v2 (F := F) x1)⟩, ⟨S50000, (val_main_v0 (F := F))⟩] concatenates_S800000_S50000_S850000_d0

def val_main_v4 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v5 (x1 : (⟨S2x800000, .i32⟩ : BufTy).Contents (Elt F)) : (⟨S800000, .i32⟩ : BufTy).Contents (Elt F) :=
  shapeCast _ (val_main_v4 (F := F) x1) shapeCasts_S1x800000_S800000

def val_main_v6 (x1 : (⟨S2x800000, .i32⟩ : BufTy).Contents (Elt F)) : (⟨S850000, .i32⟩ : BufTy).Contents (Elt F) :=
  concatenate S850000 0 [⟨S800000, (val_main_v5 (F := F) x1)⟩, ⟨S50000, (val_main_v0 (F := F))⟩] concatenates_S800000_S50000_S850000_d0

def val_main_cst : (⟨S_, .f32⟩ : BufTy).Contents (Elt F) :=
  constant S_ .f32 0x3F800000#32

def val_main_v7 : (⟨S850000, .f32⟩ : BufTy).Contents (Elt F) :=
  broadcastInDim S850000 ![] bcast_S_S850000 (val_main_cst (F := F))

def val_main_cst_0 : (⟨S_, .f32⟩ : BufTy).Contents (Elt F) :=
  constant S_ .f32 0x00000000#32

def val_main_v8 : (⟨S50000, .f32⟩ : BufTy).Contents (Elt F) :=
  broadcastInDim S50000 ![] bcast_S_S50000 (val_main_cst_0 (F := F))

def val_main_v9 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v10 (x1 : (⟨S2x800000, .i32⟩ : BufTy).Contents (Elt F)) : (⟨S50000, .f32⟩ : BufTy).Contents (Elt F) :=
  Host.scatterAdd scatter_S50000_S850000x1_S850000_n_0_0_1 (val_main_v8 (F := F)) (val_main_v9 (F := F) x1) (val_main_v7 (F := F))

def val_main_cst_1 : (⟨S_, .f32⟩ : BufTy).Contents (Elt F) :=
  constant S_ .f32 0x00000000#32

def val_main_v11 : (⟨S50000, .f32⟩ : BufTy).Contents (Elt F) :=
  broadcastInDim S50000 ![] bcast_S_S50000 (val_main_cst_1 (F := F))

def val_main_v12 (x1 : (⟨S2x800000, .i32⟩ : BufTy).Contents (Elt F)) : (⟨S50000, .i1⟩ : BufTy).Contents (Elt F) :=
  cmpf .ogt (val_main_v10 (F := F) x1) (val_main_v11 (F := F))

def val_main_cst_2 : (⟨S_, .f32⟩ : BufTy).Contents (Elt F) :=
  constant S_ .f32 0x2B8CBCCC#32

def val_main_v13 : (⟨S50000, .f32⟩ : BufTy).Contents (Elt F) :=
  broadcastInDim S50000 ![] bcast_S_S50000 (val_main_cst_2 (F := F))

def val_main_v14 (x1 : (⟨S2x800000, .i32⟩ : BufTy).Contents (Elt F)) : (⟨S50000, .f32⟩ : BufTy).Contents (Elt F) :=
  maximumf (val_main_v10 (F := F) x1) (val_main_v13 (F := F))

def val_main_v15 (x1 : (⟨S2x800000, .i32⟩ : BufTy).Contents (Elt F)) : (⟨S50000, .f32⟩ : BufTy).Contents (Elt F) :=
  Host.rsqrt (val_main_v14 (F := F) x1)

def val_main_cst_3 : (⟨S_, .f32⟩ : BufTy).Contents (Elt F) :=
  constant S_ .f32 0x00000000#32

def val_main_call0_v0 : (⟨S_, .f32⟩ : BufTy).Contents (Elt F) :=
  id (val_main_cst_3 (F := F))

def val_main_call0_v1 : (⟨S50000, .f32⟩ : BufTy).Contents (Elt F) :=
  broadcastInDim S50000 ![] bcast_S_S50000 (val_main_call0_v0 (F := F))

def val_main_v16 (x1 : (⟨S2x800000, .i32⟩ : BufTy).Contents (Elt F)) : (⟨S50000, .f32⟩ : BufTy).Contents (Elt F) :=
  select (val_main_v12 (F := F) x1) (val_main_v15 (F := F) x1) (val_main_call0_v1 (F := F))

def val_main_v17 (x0 : (⟨S50000x128, .f32⟩ : BufTy).Contents (Elt F)) (x3 : (⟨S128x96, .f32⟩ : BufTy).Contents (Elt F)) : (⟨S50000x96, .f32⟩ : BufTy).Contents (Elt F) :=
  Host.dotGeneral dot_S50000x128_S128x96_S50000x96_1_0_0_1_n_n none (x0) (x3)

def val_main_c : (⟨S_, .i32⟩ : BufTy).Contents (Elt F) :=
  constantI S_ 32 0#32

def val_main_v18 : (⟨S850000, .i32⟩ : BufTy).Contents (Elt F) :=
  broadcastInDim S850000 ![] bcast_S_S850000 (val_main_c (F := F))

def val_main_v19 (x1 : (⟨S2x800000, .i32⟩ : BufTy).Contents (Elt F)) : (⟨S850000, .i1⟩ : BufTy).Contents (Elt F) :=
  cmpi .slt (val_main_v3 (F := F) x1) (val_main_v18 (F := F))

def val_main_c_4 : (⟨S_, .i32⟩ : BufTy).Contents (Elt F) :=
  constantI S_ 32 50000#32

def val_main_v20 : (⟨S850000, .i32⟩ : BufTy).Contents (Elt F) :=
  broadcastInDim S850000 ![] bcast_S_S850000 (val_main_c_4 (F := F))

def val_main_v21 (x1 : (⟨S2x800000, .i32⟩ : BufTy).Contents (Elt F)) : (⟨S850000, .i32⟩ : BufTy).Contents (Elt F) :=
  addi (val_main_v3 (F := F) x1) (val_main_v20 (F := F))

def val_main_v22 (x1 : (⟨S2x800000, .i32⟩ : BufTy).Contents (Elt F)) : (⟨S850000, .i32⟩ : BufTy).Contents (Elt F) :=
  select (val_main_v19 (F := F) x1) (val_main_v21 (F := F) x1) (val_main_v3 (F := F) x1)

def val_main_v23 (x1 : (⟨S2x800000, .i32⟩ : BufTy).Contents (Elt F)) : (⟨S850000x1, .i32⟩ : BufTy).Contents (Elt F) :=
  broadcastInDim S850000x1 ![0] bcast_S850000_S850000x1_0 (val_main_v22 (F := F) x1)

def val_main_v24 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v23 (F := F) x1)

def val_main_c_5 : (⟨S_, .i32⟩ : BufTy).Contents (Elt F) :=
  constantI S_ 32 0#32

def val_main_v25 : (⟨S850000, .i32⟩ : BufTy).Contents (Elt F) :=
  broadcastInDim S850000 ![] bcast_S_S850000 (val_main_c_5 (F := F))

def val_main_v26 (x1 : (⟨S2x800000, .i32⟩ : BufTy).Contents (Elt F)) : (⟨S850000, .i1⟩ : BufTy).Contents (Elt F) :=
  cmpi .slt (val_main_v6 (F := F) x1) (val_main_v25 (F := F))

def val_main_c_6 : (⟨S_, .i32⟩ : BufTy).Contents (Elt F) :=
  constantI S_ 32 50000#32

def val_main_v27 : (⟨S850000, .i32⟩ : BufTy).Contents (Elt F) :=
  broadcastInDim S850000 ![] bcast_S_S850000 (val_main_c_6 (F := F))

def val_main_v28 (x1 : (⟨S2x800000, .i32⟩ : BufTy).Contents (Elt F)) : (⟨S850000, .i32⟩ : BufTy).Contents (Elt F) :=
  addi (val_main_v6 (F := F) x1) (val_main_v27 (F := F))

def val_main_v29 (x1 : (⟨S2x800000, .i32⟩ : BufTy).Contents (Elt F)) : (⟨S850000, .i32⟩ : BufTy).Contents (Elt F) :=
  select (val_main_v26 (F := F) x1) (val_main_v28 (F := F) x1) (val_main_v6 (F := F) x1)

def val_main_v30 (x1 : (⟨S2x800000, .i32⟩ : BufTy).Contents (Elt F)) : (⟨S850000x1, .i32⟩ : BufTy).Contents (Elt F) :=
  broadcastInDim S850000x1 ![0] bcast_S850000_S850000x1_0 (val_main_v29 (F := F) x1)

def val_main_v31 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v30 (F := F) x1)

def val_main_v32 (x1 : (⟨S2x800000, .i32⟩ : BufTy).Contents (Elt F)) : (⟨S850000, .f32⟩ : BufTy).Contents (Elt F) :=
  mulf (val_main_v24 (F := F) x1) (val_main_v31 (F := F) x1)

def val_main_c_7 : (⟨S_, .i32⟩ : BufTy).Contents (Elt F) :=
  constantI S_ 32 0#32

def val_main_v33 : (⟨S850000, .i32⟩ : BufTy).Contents (Elt F) :=
  broadcastInDim S850000 ![] bcast_S_S850000 (val_main_c_7 (F := F))

def val_main_v34 (x1 : (⟨S2x800000, .i32⟩ : BufTy).Contents (Elt F)) : (⟨S850000, .i1⟩ : BufTy).Contents (Elt F) :=
  cmpi .slt (val_main_v3 (F := F) x1) (val_main_v33 (F := F))

def val_main_c_8 : (⟨S_, .i32⟩ : BufTy).Contents (Elt F) :=
  constantI S_ 32 50000#32

def val_main_v35 : (⟨S850000, .i32⟩ : BufTy).Contents (Elt F) :=
  broadcastInDim S850000 ![] bcast_S_S850000 (val_main_c_8 (F := F))

def val_main_v36 (x1 : (⟨S2x800000, .i32⟩ : BufTy).Contents (Elt F)) : (⟨S850000, .i32⟩ : BufTy).Contents (Elt F) :=
  addi (val_main_v3 (F := F) x1) (val_main_v35 (F := F))

def val_main_v37 (x1 : (⟨S2x800000, .i32⟩ : BufTy).Contents (Elt F)) : (⟨S850000, .i32⟩ : BufTy).Contents (Elt F) :=
  select (val_main_v34 (F := F) x1) (val_main_v36 (F := F) x1) (val_main_v3 (F := F) x1)

def val_main_v38 (x1 : (⟨S2x800000, .i32⟩ : BufTy).Contents (Elt F)) : (⟨S850000x1, .i32⟩ : BufTy).Contents (Elt F) :=
  broadcastInDim S850000x1 ![0] bcast_S850000_S850000x1_0 (val_main_v37 (F := F) x1)

def val_main_v39 (x0 : (⟨S50000x128, .f32⟩ : BufTy).Contents (Elt F)) (x1 : (⟨S2x800000, .i32⟩ : BufTy).Contents (Elt F)) (x3 : (⟨S128x96, .f32⟩ : BufTy).Contents (Elt F)) : (⟨S850000x96, .f32⟩ : BufTy).Contents (Elt F) :=
  Host.gather gather_S50000x96_S850000x1_S850000x96_1_0_n_n_0_1_196 (val_main_v17 (F := F) x0 x3) (val_main_v38 (F := F) x1)

def val_main_v40 (x1 : (⟨S2x800000, .i32⟩ : BufTy).Contents (Elt F)) : (⟨S850000x1, .f32⟩ : BufTy).Contents (Elt F) :=
  broadcastInDim S850000x1 ![0] bcast_S850000_S850000x1_0 (val_main_v32 (F := F) x1)

def val_main_v41 (x1 : (⟨S2x800000, .i32⟩ : BufTy).Contents (Elt F)) : (⟨S850000x96, .f32⟩ : BufTy).Contents (Elt F) :=
  broadcastInDim S850000x96 ![0, 1] bcast_S850000x1_S850000x96_0_1 (val_main_v40 (F := F) x1)

def val_main_v42 (x0 : (⟨S50000x128, .f32⟩ : BufTy).Contents (Elt F)) (x1 : (⟨S2x800000, .i32⟩ : BufTy).Contents (Elt F)) (x3 : (⟨S128x96, .f32⟩ : BufTy).Contents (Elt F)) : (⟨S850000x96, .f32⟩ : BufTy).Contents (Elt F) :=
  mulf (val_main_v39 (F := F) x0 x1 x3) (val_main_v41 (F := F) x1)

def val_main_cst_9 : (⟨S_, .f32⟩ : BufTy).Contents (Elt F) :=
  constant S_ .f32 0x00000000#32

def val_main_v43 : (⟨S50000x96, .f32⟩ : BufTy).Contents (Elt F) :=
  broadcastInDim S50000x96 ![] bcast_S_S50000x96 (val_main_cst_9 (F := F))

def val_main_v44 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v45 (x0 : (⟨S50000x128, .f32⟩ : BufTy).Contents (Elt F)) (x1 : (⟨S2x800000, .i32⟩ : BufTy).Contents (Elt F)) (x3 : (⟨S128x96, .f32⟩ : BufTy).Contents (Elt F)) : (⟨S50000x96, .f32⟩ : BufTy).Contents (Elt F) :=
  Host.scatterAdd scatter_S50000x96_S850000x1_S850000x96_1_0_0_1 (val_main_v43 (F := F)) (val_main_v44 (F := F) x1) (val_main_v42 (F := F) x0 x1 x3)

def val_main_v46 (x4 : (⟨S96, .f32⟩ : BufTy).Contents (Elt F)) : (⟨S1x96, .f32⟩ : BufTy).Contents (Elt F) :=
  broadcastInDim S1x96 ![1] bcast_S96_S1x96_1 (x4)

def val_main_v47 (x4 : (⟨S96, .f32⟩ : BufTy).Contents (Elt F)) : (⟨S50000x96, .f32⟩ : BufTy).Contents (Elt F) :=
  broadcastInDim S50000x96 ![0, 1] bcast_S1x96_S50000x96_0_1 (val_main_v46 (F := F) x4)

def val_main_v48 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) : (⟨S50000x96, .f32⟩ : BufTy).Contents (Elt F) :=
  addf (val_main_v45 (F := F) x0 x1 x3) (val_main_v47 (F := F) x4)

def val_main_call1_cst : (⟨S_, .f32⟩ : BufTy).Contents (Elt F) :=
  constant S_ .f32 0x00000000#32

def val_main_call1_v0 : (⟨S50000x96, .f32⟩ : BufTy).Contents (Elt F) :=
  broadcastInDim S50000x96 ![] bcast_S_S50000x96 (val_main_call1_cst (F := F))

def val_main_v49 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) : (⟨S50000x96, .f32⟩ : BufTy).Contents (Elt F) :=
  maximumf (val_main_v48 (F := F) x0 x1 x3 x4) (val_main_call1_v0 (F := F))

def val_main_v50 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) : (⟨S50000x96, .f32⟩ : BufTy).Contents (Elt F) :=
  Host.dotGeneral dot_S50000x96_S96x96_S50000x96_1_0_0_1_n_n none (val_main_v49 (F := F) x0 x1 x3 x4) (x5)

def val_main_c_10 : (⟨S_, .i32⟩ : BufTy).Contents (Elt F) :=
  constantI S_ 32 0#32

def val_main_v51 : (⟨S850000, .i32⟩ : BufTy).Contents (Elt F) :=
  broadcastInDim S850000 ![] bcast_S_S850000 (val_main_c_10 (F := F))

def val_main_v52 (x1 : (⟨S2x800000, .i32⟩ : BufTy).Contents (Elt F)) : (⟨S850000, .i1⟩ : BufTy).Contents (Elt F) :=
  cmpi .slt (val_main_v3 (F := F) x1) (val_main_v51 (F := F))

def val_main_c_11 : (⟨S_, .i32⟩ : BufTy).Contents (Elt F) :=
  constantI S_ 32 50000#32

def val_main_v53 : (⟨S850000, .i32⟩ : BufTy).Contents (Elt F) :=
  broadcastInDim S850000 ![] bcast_S_S850000 (val_main_c_11 (F := F))

def val_main_v54 (x1 : (⟨S2x800000, .i32⟩ : BufTy).Contents (Elt F)) : (⟨S850000, .i32⟩ : BufTy).Contents (Elt F) :=
  addi (val_main_v3 (F := F) x1) (val_main_v53 (F := F))

def val_main_v55 (x1 : (⟨S2x800000, .i32⟩ : BufTy).Contents (Elt F)) : (⟨S850000, .i32⟩ : BufTy).Contents (Elt F) :=
  select (val_main_v52 (F := F) x1) (val_main_v54 (F := F) x1) (val_main_v3 (F := F) x1)

def val_main_v56 (x1 : (⟨S2x800000, .i32⟩ : BufTy).Contents (Elt F)) : (⟨S850000x1, .i32⟩ : BufTy).Contents (Elt F) :=
  broadcastInDim S850000x1 ![0] bcast_S850000_S850000x1_0 (val_main_v55 (F := F) x1)

def val_main_v57 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v56 (F := F) x1)

def val_main_c_12 : (⟨S_, .i32⟩ : BufTy).Contents (Elt F) :=
  constantI S_ 32 0#32

def val_main_v58 : (⟨S850000, .i32⟩ : BufTy).Contents (Elt F) :=
  broadcastInDim S850000 ![] bcast_S_S850000 (val_main_c_12 (F := F))

def val_main_v59 (x1 : (⟨S2x800000, .i32⟩ : BufTy).Contents (Elt F)) : (⟨S850000, .i1⟩ : BufTy).Contents (Elt F) :=
  cmpi .slt (val_main_v6 (F := F) x1) (val_main_v58 (F := F))

def val_main_c_13 : (⟨S_, .i32⟩ : BufTy).Contents (Elt F) :=
  constantI S_ 32 50000#32

def val_main_v60 : (⟨S850000, .i32⟩ : BufTy).Contents (Elt F) :=
  broadcastInDim S850000 ![] bcast_S_S850000 (val_main_c_13 (F := F))

def val_main_v61 (x1 : (⟨S2x800000, .i32⟩ : BufTy).Contents (Elt F)) : (⟨S850000, .i32⟩ : BufTy).Contents (Elt F) :=
  addi (val_main_v6 (F := F) x1) (val_main_v60 (F := F))

def val_main_v62 (x1 : (⟨S2x800000, .i32⟩ : BufTy).Contents (Elt F)) : (⟨S850000, .i32⟩ : BufTy).Contents (Elt F) :=
  select (val_main_v59 (F := F) x1) (val_main_v61 (F := F) x1) (val_main_v6 (F := F) x1)

def val_main_v63 (x1 : (⟨S2x800000, .i32⟩ : BufTy).Contents (Elt F)) : (⟨S850000x1, .i32⟩ : BufTy).Contents (Elt F) :=
  broadcastInDim S850000x1 ![0] bcast_S850000_S850000x1_0 (val_main_v62 (F := F) x1)

def val_main_v64 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v63 (F := F) x1)

def val_main_v65 (x1 : (⟨S2x800000, .i32⟩ : BufTy).Contents (Elt F)) : (⟨S850000, .f32⟩ : BufTy).Contents (Elt F) :=
  mulf (val_main_v57 (F := F) x1) (val_main_v64 (F := F) x1)

def val_main_c_14 : (⟨S_, .i32⟩ : BufTy).Contents (Elt F) :=
  constantI S_ 32 0#32

def val_main_v66 : (⟨S850000, .i32⟩ : BufTy).Contents (Elt F) :=
  broadcastInDim S850000 ![] bcast_S_S850000 (val_main_c_14 (F := F))

def val_main_v67 (x1 : (⟨S2x800000, .i32⟩ : BufTy).Contents (Elt F)) : (⟨S850000, .i1⟩ : BufTy).Contents (Elt F) :=
  cmpi .slt (val_main_v3 (F := F) x1) (val_main_v66 (F := F))

def val_main_c_15 : (⟨S_, .i32⟩ : BufTy).Contents (Elt F) :=
  constantI S_ 32 50000#32

def val_main_v68 : (⟨S850000, .i32⟩ : BufTy).Contents (Elt F) :=
  broadcastInDim S850000 ![] bcast_S_S850000 (val_main_c_15 (F := F))

def val_main_v69 (x1 : (⟨S2x800000, .i32⟩ : BufTy).Contents (Elt F)) : (⟨S850000, .i32⟩ : BufTy).Contents (Elt F) :=
  addi (val_main_v3 (F := F) x1) (val_main_v68 (F := F))

def val_main_v70 (x1 : (⟨S2x800000, .i32⟩ : BufTy).Contents (Elt F)) : (⟨S850000, .i32⟩ : BufTy).Contents (Elt F) :=
  select (val_main_v67 (F := F) x1) (val_main_v69 (F := F) x1) (val_main_v3 (F := F) x1)

def val_main_v71 (x1 : (⟨S2x800000, .i32⟩ : BufTy).Contents (Elt F)) : (⟨S850000x1, .i32⟩ : BufTy).Contents (Elt F) :=
  broadcastInDim S850000x1 ![0] bcast_S850000_S850000x1_0 (val_main_v70 (F := F) x1)

def val_main_v72 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) : (⟨S850000x96, .f32⟩ : BufTy).Contents (Elt F) :=
  Host.gather gather_S50000x96_S850000x1_S850000x96_1_0_n_n_0_1_196 (val_main_v50 (F := F) x0 x1 x3 x4 x5) (val_main_v71 (F := F) x1)

def val_main_v73 (x1 : (⟨S2x800000, .i32⟩ : BufTy).Contents (Elt F)) : (⟨S850000x1, .f32⟩ : BufTy).Contents (Elt F) :=
  broadcastInDim S850000x1 ![0] bcast_S850000_S850000x1_0 (val_main_v65 (F := F) x1)

def val_main_v74 (x1 : (⟨S2x800000, .i32⟩ : BufTy).Contents (Elt F)) : (⟨S850000x96, .f32⟩ : BufTy).Contents (Elt F) :=
  broadcastInDim S850000x96 ![0, 1] bcast_S850000x1_S850000x96_0_1 (val_main_v73 (F := F) x1)

def val_main_v75 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) : (⟨S850000x96, .f32⟩ : BufTy).Contents (Elt F) :=
  mulf (val_main_v72 (F := F) x0 x1 x3 x4 x5) (val_main_v74 (F := F) x1)

def val_main_cst_16 : (⟨S_, .f32⟩ : BufTy).Contents (Elt F) :=
  constant S_ .f32 0x00000000#32

def val_main_v76 : (⟨S50000x96, .f32⟩ : BufTy).Contents (Elt F) :=
  broadcastInDim S50000x96 ![] bcast_S_S50000x96 (val_main_cst_16 (F := F))

def val_main_v77 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v78 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) : (⟨S50000x96, .f32⟩ : BufTy).Contents (Elt F) :=
  Host.scatterAdd scatter_S50000x96_S850000x1_S850000x96_1_0_0_1 (val_main_v76 (F := F)) (val_main_v77 (F := F) x1) (val_main_v75 (F := F) x0 x1 x3 x4 x5)

def val_main_v79 (x6 : (⟨S96, .f32⟩ : BufTy).Contents (Elt F)) : (⟨S1x96, .f32⟩ : BufTy).Contents (Elt F) :=
  broadcastInDim S1x96 ![1] bcast_S96_S1x96_1 (x6)

def val_main_v80 (x6 : (⟨S96, .f32⟩ : BufTy).Contents (Elt F)) : (⟨S50000x96, .f32⟩ : BufTy).Contents (Elt F) :=
  broadcastInDim S50000x96 ![0, 1] bcast_S1x96_S50000x96_0_1 (val_main_v79 (F := F) x6)

def val_main_v81 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) : (⟨S50000x96, .f32⟩ : BufTy).Contents (Elt F) :=
  addf (val_main_v78 (F := F) x0 x1 x3 x4 x5) (val_main_v80 (F := F) x6)

def val_main_call2_cst : (⟨S_, .f32⟩ : BufTy).Contents (Elt F) :=
  constant S_ .f32 0x00000000#32

def val_main_call2_v0 : (⟨S50000x96, .f32⟩ : BufTy).Contents (Elt F) :=
  broadcastInDim S50000x96 ![] bcast_S_S50000x96 (val_main_call2_cst (F := F))

def val_main_v82 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) : (⟨S50000x96, .f32⟩ : BufTy).Contents (Elt F) :=
  maximumf (val_main_v81 (F := F) x0 x1 x3 x4 x5 x6) (val_main_call2_v0 (F := F))

def val_main_v83 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) : (⟨S50000x96, .f32⟩ : BufTy).Contents (Elt F) :=
  Host.dotGeneral dot_S50000x96_S96x96_S50000x96_1_0_0_1_n_n none (val_main_v82 (F := F) x0 x1 x3 x4 x5 x6) (x7)

def val_main_c_17 : (⟨S_, .i32⟩ : BufTy).Contents (Elt F) :=
  constantI S_ 32 0#32

def val_main_v84 : (⟨S850000, .i32⟩ : BufTy).Contents (Elt F) :=
  broadcastInDim S850000 ![] bcast_S_S850000 (val_main_c_17 (F := F))

def val_main_v85 (x1 : (⟨S2x800000, .i32⟩ : BufTy).Contents (Elt F)) : (⟨S850000, .i1⟩ : BufTy).Contents (Elt F) :=
  cmpi .slt (val_main_v3 (F := F) x1) (val_main_v84 (F := F))

def val_main_c_18 : (⟨S_, .i32⟩ : BufTy).Contents (Elt F) :=
  constantI S_ 32 50000#32

def val_main_v86 : (⟨S850000, .i32⟩ : BufTy).Contents (Elt F) :=
  broadcastInDim S850000 ![] bcast_S_S850000 (val_main_c_18 (F := F))

def val_main_v87 (x1 : (⟨S2x800000, .i32⟩ : BufTy).Contents (Elt F)) : (⟨S850000, .i32⟩ : BufTy).Contents (Elt F) :=
  addi (val_main_v3 (F := F) x1) (val_main_v86 (F := F))

def val_main_v88 (x1 : (⟨S2x800000, .i32⟩ : BufTy).Contents (Elt F)) : (⟨S850000, .i32⟩ : BufTy).Contents (Elt F) :=
  select (val_main_v85 (F := F) x1) (val_main_v87 (F := F) x1) (val_main_v3 (F := F) x1)

def val_main_v89 (x1 : (⟨S2x800000, .i32⟩ : BufTy).Contents (Elt F)) : (⟨S850000x1, .i32⟩ : BufTy).Contents (Elt F) :=
  broadcastInDim S850000x1 ![0] bcast_S850000_S850000x1_0 (val_main_v88 (F := F) x1)

def val_main_v90 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v89 (F := F) x1)

def val_main_c_19 : (⟨S_, .i32⟩ : BufTy).Contents (Elt F) :=
  constantI S_ 32 0#32

def val_main_v91 : (⟨S850000, .i32⟩ : BufTy).Contents (Elt F) :=
  broadcastInDim S850000 ![] bcast_S_S850000 (val_main_c_19 (F := F))

def val_main_v92 (x1 : (⟨S2x800000, .i32⟩ : BufTy).Contents (Elt F)) : (⟨S850000, .i1⟩ : BufTy).Contents (Elt F) :=
  cmpi .slt (val_main_v6 (F := F) x1) (val_main_v91 (F := F))

def val_main_c_20 : (⟨S_, .i32⟩ : BufTy).Contents (Elt F) :=
  constantI S_ 32 50000#32

def val_main_v93 : (⟨S850000, .i32⟩ : BufTy).Contents (Elt F) :=
  broadcastInDim S850000 ![] bcast_S_S850000 (val_main_c_20 (F := F))

def val_main_v94 (x1 : (⟨S2x800000, .i32⟩ : BufTy).Contents (Elt F)) : (⟨S850000, .i32⟩ : BufTy).Contents (Elt F) :=
  addi (val_main_v6 (F := F) x1) (val_main_v93 (F := F))

def val_main_v95 (x1 : (⟨S2x800000, .i32⟩ : BufTy).Contents (Elt F)) : (⟨S850000, .i32⟩ : BufTy).Contents (Elt F) :=
  select (val_main_v92 (F := F) x1) (val_main_v94 (F := F) x1) (val_main_v6 (F := F) x1)

def val_main_v96 (x1 : (⟨S2x800000, .i32⟩ : BufTy).Contents (Elt F)) : (⟨S850000x1, .i32⟩ : BufTy).Contents (Elt F) :=
  broadcastInDim S850000x1 ![0] bcast_S850000_S850000x1_0 (val_main_v95 (F := F) x1)

def val_main_v97 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v96 (F := F) x1)

def val_main_v98 (x1 : (⟨S2x800000, .i32⟩ : BufTy).Contents (Elt F)) : (⟨S850000, .f32⟩ : BufTy).Contents (Elt F) :=
  mulf (val_main_v90 (F := F) x1) (val_main_v97 (F := F) x1)

def val_main_c_21 : (⟨S_, .i32⟩ : BufTy).Contents (Elt F) :=
  constantI S_ 32 0#32

def val_main_v99 : (⟨S850000, .i32⟩ : BufTy).Contents (Elt F) :=
  broadcastInDim S850000 ![] bcast_S_S850000 (val_main_c_21 (F := F))

def val_main_v100 (x1 : (⟨S2x800000, .i32⟩ : BufTy).Contents (Elt F)) : (⟨S850000, .i1⟩ : BufTy).Contents (Elt F) :=
  cmpi .slt (val_main_v3 (F := F) x1) (val_main_v99 (F := F))

def val_main_c_22 : (⟨S_, .i32⟩ : BufTy).Contents (Elt F) :=
  constantI S_ 32 50000#32

def val_main_v101 : (⟨S850000, .i32⟩ : BufTy).Contents (Elt F) :=
  broadcastInDim S850000 ![] bcast_S_S850000 (val_main_c_22 (F := F))

def val_main_v102 (x1 : (⟨S2x800000, .i32⟩ : BufTy).Contents (Elt F)) : (⟨S850000, .i32⟩ : BufTy).Contents (Elt F) :=
  addi (val_main_v3 (F := F) x1) (val_main_v101 (F := F))

def val_main_v103 (x1 : (⟨S2x800000, .i32⟩ : BufTy).Contents (Elt F)) : (⟨S850000, .i32⟩ : BufTy).Contents (Elt F) :=
  select (val_main_v100 (F := F) x1) (val_main_v102 (F := F) x1) (val_main_v3 (F := F) x1)

def val_main_v104 (x1 : (⟨S2x800000, .i32⟩ : BufTy).Contents (Elt F)) : (⟨S850000x1, .i32⟩ : BufTy).Contents (Elt F) :=
  broadcastInDim S850000x1 ![0] bcast_S850000_S850000x1_0 (val_main_v103 (F := F) x1)

def val_main_v105 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) : (⟨S850000x96, .f32⟩ : BufTy).Contents (Elt F) :=
  Host.gather gather_S50000x96_S850000x1_S850000x96_1_0_n_n_0_1_196 (val_main_v83 (F := F) x0 x1 x3 x4 x5 x6 x7) (val_main_v104 (F := F) x1)

def val_main_v106 (x1 : (⟨S2x800000, .i32⟩ : BufTy).Contents (Elt F)) : (⟨S850000x1, .f32⟩ : BufTy).Contents (Elt F) :=
  broadcastInDim S850000x1 ![0] bcast_S850000_S850000x1_0 (val_main_v98 (F := F) x1)

def val_main_v107 (x1 : (⟨S2x800000, .i32⟩ : BufTy).Contents (Elt F)) : (⟨S850000x96, .f32⟩ : BufTy).Contents (Elt F) :=
  broadcastInDim S850000x96 ![0, 1] bcast_S850000x1_S850000x96_0_1 (val_main_v106 (F := F) x1)

def val_main_v108 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) : (⟨S850000x96, .f32⟩ : BufTy).Contents (Elt F) :=
  mulf (val_main_v105 (F := F) x0 x1 x3 x4 x5 x6 x7) (val_main_v107 (F := F) x1)

def val_main_cst_23 : (⟨S_, .f32⟩ : BufTy).Contents (Elt F) :=
  constant S_ .f32 0x00000000#32

def val_main_v109 : (⟨S50000x96, .f32⟩ : BufTy).Contents (Elt F) :=
  broadcastInDim S50000x96 ![] bcast_S_S50000x96 (val_main_cst_23 (F := F))

def val_main_v110 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v111 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) : (⟨S50000x96, .f32⟩ : BufTy).Contents (Elt F) :=
  Host.scatterAdd scatter_S50000x96_S850000x1_S850000x96_1_0_0_1 (val_main_v109 (F := F)) (val_main_v110 (F := F) x1) (val_main_v108 (F := F) x0 x1 x3 x4 x5 x6 x7)

def val_main_v112 (x8 : (⟨S96, .f32⟩ : BufTy).Contents (Elt F)) : (⟨S1x96, .f32⟩ : BufTy).Contents (Elt F) :=
  broadcastInDim S1x96 ![1] bcast_S96_S1x96_1 (x8)

def val_main_v113 (x8 : (⟨S96, .f32⟩ : BufTy).Contents (Elt F)) : (⟨S50000x96, .f32⟩ : BufTy).Contents (Elt F) :=
  broadcastInDim S50000x96 ![0, 1] bcast_S1x96_S50000x96_0_1 (val_main_v112 (F := F) x8)

def val_main_v114 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) : (⟨S50000x96, .f32⟩ : BufTy).Contents (Elt F) :=
  addf (val_main_v111 (F := F) x0 x1 x3 x4 x5 x6 x7) (val_main_v113 (F := F) x8)

def val_main_call3_cst : (⟨S_, .f32⟩ : BufTy).Contents (Elt F) :=
  constant S_ .f32 0x00000000#32

def val_main_call3_v0 : (⟨S50000x96, .f32⟩ : BufTy).Contents (Elt F) :=
  broadcastInDim S50000x96 ![] bcast_S_S50000x96 (val_main_call3_cst (F := F))

def val_main_v115 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) : (⟨S50000x96, .f32⟩ : BufTy).Contents (Elt F) :=
  maximumf (val_main_v114 (F := F) x0 x1 x3 x4 x5 x6 x7 x8) (val_main_call3_v0 (F := F))

def val_main_v116 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) : (⟨S50000x64, .f32⟩ : BufTy).Contents (Elt F) :=
  Host.dotGeneral dot_S50000x96_S96x64_S50000x64_1_0_0_1_n_n none (val_main_v115 (F := F) x0 x1 x3 x4 x5 x6 x7 x8) (x9)

def val_main_c_24 : (⟨S_, .i32⟩ : BufTy).Contents (Elt F) :=
  constantI S_ 32 0#32

def val_main_v117 : (⟨S850000, .i32⟩ : BufTy).Contents (Elt F) :=
  broadcastInDim S850000 ![] bcast_S_S850000 (val_main_c_24 (F := F))

def val_main_v118 (x1 : (⟨S2x800000, .i32⟩ : BufTy).Contents (Elt F)) : (⟨S850000, .i1⟩ : BufTy).Contents (Elt F) :=
  cmpi .slt (val_main_v3 (F := F) x1) (val_main_v117 (F := F))

def val_main_c_25 : (⟨S_, .i32⟩ : BufTy).Contents (Elt F) :=
  constantI S_ 32 50000#32

def val_main_v119 : (⟨S850000, .i32⟩ : BufTy).Contents (Elt F) :=
  broadcastInDim S850000 ![] bcast_S_S850000 (val_main_c_25 (F := F))

def val_main_v120 (x1 : (⟨S2x800000, .i32⟩ : BufTy).Contents (Elt F)) : (⟨S850000, .i32⟩ : BufTy).Contents (Elt F) :=
  addi (val_main_v3 (F := F) x1) (val_main_v119 (F := F))

def val_main_v121 (x1 : (⟨S2x800000, .i32⟩ : BufTy).Contents (Elt F)) : (⟨S850000, .i32⟩ : BufTy).Contents (Elt F) :=
  select (val_main_v118 (F := F) x1) (val_main_v120 (F := F) x1) (val_main_v3 (F := F) x1)

def val_main_v122 (x1 : (⟨S2x800000, .i32⟩ : BufTy).Contents (Elt F)) : (⟨S850000x1, .i32⟩ : BufTy).Contents (Elt F) :=
  broadcastInDim S850000x1 ![0] bcast_S850000_S850000x1_0 (val_main_v121 (F := F) x1)

def val_main_v123 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v122 (F := F) x1)

def val_main_c_26 : (⟨S_, .i32⟩ : BufTy).Contents (Elt F) :=
  constantI S_ 32 0#32

def val_main_v124 : (⟨S850000, .i32⟩ : BufTy).Contents (Elt F) :=
  broadcastInDim S850000 ![] bcast_S_S850000 (val_main_c_26 (F := F))

def val_main_v125 (x1 : (⟨S2x800000, .i32⟩ : BufTy).Contents (Elt F)) : (⟨S850000, .i1⟩ : BufTy).Contents (Elt F) :=
  cmpi .slt (val_main_v6 (F := F) x1) (val_main_v124 (F := F))

def val_main_c_27 : (⟨S_, .i32⟩ : BufTy).Contents (Elt F) :=
  constantI S_ 32 50000#32

def val_main_v126 : (⟨S850000, .i32⟩ : BufTy).Contents (Elt F) :=
  broadcastInDim S850000 ![] bcast_S_S850000 (val_main_c_27 (F := F))

def val_main_v127 (x1 : (⟨S2x800000, .i32⟩ : BufTy).Contents (Elt F)) : (⟨S850000, .i32⟩ : BufTy).Contents (Elt F) :=
  addi (val_main_v6 (F := F) x1) (val_main_v126 (F := F))

def val_main_v128 (x1 : (⟨S2x800000, .i32⟩ : BufTy).Contents (Elt F)) : (⟨S850000, .i32⟩ : BufTy).Contents (Elt F) :=
  select (val_main_v125 (F := F) x1) (val_main_v127 (F := F) x1) (val_main_v6 (F := F) x1)

def val_main_v129 (x1 : (⟨S2x800000, .i32⟩ : BufTy).Contents (Elt F)) : (⟨S850000x1, .i32⟩ : BufTy).Contents (Elt F) :=
  broadcastInDim S850000x1 ![0] bcast_S850000_S850000x1_0 (val_main_v128 (F := F) x1)

def val_main_v130 (x1 : (⟨S2x800000, .i32⟩ : BufTy).Contents (Elt F)) : (⟨S850000, .f32⟩ : BufTy).Contents (Elt F) :=
  Host.gather gather_S50000_S850000x1_S850000_n_0_n_n_0_1_1 (val_main_v16 (F := F) x1) (val_main_v129 (F := F) x1)

def val_main_v131 (x1 : (⟨S2x800000, .i32⟩ : BufTy).Contents (Elt F)) : (⟨S850000, .f32⟩ : BufTy).Contents (Elt F) :=
  mulf (val_main_v123 (F := F) x1) (val_main_v130 (F := F) x1)

def val_main_c_28 : (⟨S_, .i32⟩ : BufTy).Contents (Elt F) :=
  constantI S_ 32 0#32

def val_main_v132 : (⟨S850000, .i32⟩ : BufTy).Contents (Elt F) :=
  broadcastInDim S850000 ![] bcast_S_S850000 (val_main_c_28 (F := F))

def val_main_v133 (x1 : (⟨S2x800000, .i32⟩ : BufTy).Contents (Elt F)) : (⟨S850000, .i1⟩ : BufTy).Contents (Elt F) :=
  cmpi .slt (val_main_v3 (F := F) x1) (val_main_v132 (F := F))

def val_main_c_29 : (⟨S_, .i32⟩ : BufTy).Contents (Elt F) :=
  constantI S_ 32 50000#32

def val_main_v134 : (⟨S850000, .i32⟩ : BufTy).Contents (Elt F) :=
  broadcastInDim S850000 ![] bcast_S_S850000 (val_main_c_29 (F := F))

def val_main_v135 (x1 : (⟨S2x800000, .i32⟩ : BufTy).Contents (Elt F)) : (⟨S850000, .i32⟩ : BufTy).Contents (Elt F) :=
  addi (val_main_v3 (F := F) x1) (val_main_v134 (F := F))

def val_main_v136 (x1 : (⟨S2x800000, .i32⟩ : BufTy).Contents (Elt F)) : (⟨S850000, .i32⟩ : BufTy).Contents (Elt F) :=
  select (val_main_v133 (F := F) x1) (val_main_v135 (F := F) x1) (val_main_v3 (F := F) x1)

def val_main_v137 (x1 : (⟨S2x800000, .i32⟩ : BufTy).Contents (Elt F)) : (⟨S850000x1, .i32⟩ : BufTy).Contents (Elt F) :=
  broadcastInDim S850000x1 ![0] bcast_S850000_S850000x1_0 (val_main_v136 (F := F) x1)

def val_main_v138 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) : (⟨S850000x64, .f32⟩ : BufTy).Contents (Elt F) :=
  Host.gather gather_S50000x64_S850000x1_S850000x64_1_0_n_n_0_1_164 (val_main_v116 (F := F) x0 x1 x3 x4 x5 x6 x7 x8 x9) (val_main_v137 (F := F) x1)

def val_main_v139 (x1 : (⟨S2x800000, .i32⟩ : BufTy).Contents (Elt F)) : (⟨S850000x1, .f32⟩ : BufTy).Contents (Elt F) :=
  broadcastInDim S850000x1 ![0] bcast_S850000_S850000x1_0 (val_main_v131 (F := F) x1)

def val_main_v140 (x1 : (⟨S2x800000, .i32⟩ : BufTy).Contents (Elt F)) : (⟨S850000x64, .f32⟩ : BufTy).Contents (Elt F) :=
  broadcastInDim S850000x64 ![0, 1] bcast_S850000x1_S850000x64_0_1 (val_main_v139 (F := F) x1)

def val_main_v141 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) : (⟨S850000x64, .f32⟩ : BufTy).Contents (Elt F) :=
  mulf (val_main_v138 (F := F) x0 x1 x3 x4 x5 x6 x7 x8 x9) (val_main_v140 (F := F) x1)

def val_main_cst_30 : (⟨S_, .f32⟩ : BufTy).Contents (Elt F) :=
  constant S_ .f32 0x00000000#32

def val_main_v142 : (⟨S50000x64, .f32⟩ : BufTy).Contents (Elt F) :=
  broadcastInDim S50000x64 ![] bcast_S_S50000x64 (val_main_cst_30 (F := F))

def val_main_v143 (x1 : (⟨S2x800000, .i32⟩ : BufTy).Contents (Elt F)) : (⟨S850000x1, .i32⟩ : BufTy).Contents (Elt F) :=
  broadcastInDim S850000x1 ![0] bcast_S850000_S850000x1_0 (val_main_v6 (F := F) x1)

def val_main_v144 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) : (⟨S50000x64, .f32⟩ : BufTy).Contents (Elt F) :=
  Host.scatterAdd scatter_S50000x64_S850000x1_S850000x64_1_0_0_1 (val_main_v142 (F := F)) (val_main_v143 (F := F) x1) (val_main_v141 (F := F) x0 x1 x3 x4 x5 x6 x7 x8 x9)

def val_main_v145 (x10 : (⟨S64, .f32⟩ : BufTy).Contents (Elt F)) : (⟨S1x64, .f32⟩ : BufTy).Contents (Elt F) :=
  broadcastInDim S1x64 ![1] bcast_S64_S1x64_1 (x10)

def val_main_v146 (x10 : (⟨S64, .f32⟩ : BufTy).Contents (Elt F)) : (⟨S50000x64, .f32⟩ : BufTy).Contents (Elt F) :=
  broadcastInDim S50000x64 ![0, 1] bcast_S1x64_S50000x64_0_1 (val_main_v145 (F := F) x10)

def val_main_v147 (x0 : (⟨S50000x128, .f32⟩ : BufTy).Contents (Elt F)) (x1 : (⟨S2x800000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) (x10 : (⟨S64, .f32⟩ : BufTy).Contents (Elt F)) : (⟨S50000x64, .f32⟩ : BufTy).Contents (Elt F) :=
  addf (val_main_v144 (F := F) x0 x1 x3 x4 x5 x6 x7 x8 x9) (val_main_v146 (F := F) x10)

def val_main_cst_31 : (⟨S_, .f32⟩ : BufTy).Contents (Elt F) :=
  constant S_ .f32 0x3F800000#32

def val_main_v148 : (⟨S50000, .f32⟩ : BufTy).Contents (Elt F) :=
  broadcastInDim S50000 ![] bcast_S_S50000 (val_main_cst_31 (F := F))

def val_main_cst_32 : (⟨S_, .f32⟩ : BufTy).Contents (Elt F) :=
  constant S_ .f32 0x00000000#32

def val_main_v149 : (⟨S64, .f32⟩ : BufTy).Contents (Elt F) :=
  broadcastInDim S64 ![] bcast_S_S64 (val_main_cst_32 (F := F))

def val_main_v150 (x2 : (⟨S50000, .i32⟩ : BufTy).Contents (Elt F)) : (⟨S50000x1, .i32⟩ : BufTy).Contents (Elt F) :=
  broadcastInDim S50000x1 ![0] bcast_S50000_S50000x1_0 (x2)

def val_main_v151 (x2 : (⟨S50000, .i32⟩ : BufTy).Contents (Elt F)) : (⟨S64, .f32⟩ : BufTy).Contents (Elt F) :=
  Host.scatterAdd scatter_S64_S50000x1_S50000_n_0_0_1 (val_main_v149 (F := F)) (val_main_v150 (F := F) x2) (val_main_v148 (F := F))

def val_main_cst_33 : (⟨S_, .f32⟩ : BufTy).Contents (Elt F) :=
  constant S_ .f32 0x00000000#32

def val_main_v152 : (⟨S64x64, .f32⟩ : BufTy).Contents (Elt F) :=
  broadcastInDim S64x64 ![] bcast_S_S64x64 (val_main_cst_33 (F := F))

def val_main_v153 (x2 : (⟨S50000, .i32⟩ : BufTy).Contents (Elt F)) : (⟨S50000x1, .i32⟩ : BufTy).Contents (Elt F) :=
  broadcastInDim S50000x1 ![0] bcast_S50000_S50000x1_0 (x2)

def val_main_v154 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) (x10 : (⟨S64, .f32⟩ : BufTy).Contents (Elt F)) : (⟨S64x64, .f32⟩ : BufTy).Contents (Elt F) :=
  Host.scatterAdd scatter_S64x64_S50000x1_S50000x64_1_0_0_1 (val_main_v152 (F := F)) (val_main_v153 (F := F) x2) (val_main_v147 (F := F) x0 x1 x3 x4 x5 x6 x7 x8 x9 x10)

def val_main_cst_34 : (⟨S_, .f32⟩ : BufTy).Contents (Elt F) :=
  constant S_ .f32 0x3F800000#32

def val_main_v155 : (⟨S64, .f32⟩ : BufTy).Contents (Elt F) :=
  broadcastInDim S64 ![] bcast_S_S64 (val_main_cst_34 (F := F))

def val_main_v156 (x2 : (⟨S50000, .i32⟩ : BufTy).Contents (Elt F)) : (⟨S64, .f32⟩ : BufTy).Contents (Elt F) :=
  maximumf (val_main_v151 (F := F) x2) (val_main_v155 (F := F))

def val_main_v157 (x2 : (⟨S50000, .i32⟩ : BufTy).Contents (Elt F)) : (⟨S64x1, .f32⟩ : BufTy).Contents (Elt F) :=
  broadcastInDim S64x1 ![0] bcast_S64_S64x1_0 (val_main_v156 (F := F) x2)

def val_main_v158 (x2 : (⟨S50000, .i32⟩ : BufTy).Contents (Elt F)) : (⟨S64x64, .f32⟩ : BufTy).Contents (Elt F) :=
  broadcastInDim S64x64 ![0, 1] bcast_S64x1_S64x64_0_1 (val_main_v157 (F := F) x2)

def val_main_v159 (x0 : (⟨S50000x128, .f32⟩ : BufTy).Contents (Elt F)) (x1 : (⟨S2x800000, .i32⟩ : BufTy).Contents (Elt F)) (x2 : (⟨S50000, .i32⟩ : BufTy).Contents (Elt F)) (x3 : (⟨S128x96, .f32⟩ : BufTy).Contents (Elt F)) (x4 : (⟨S96, .f32⟩ : BufTy).Contents (Elt F)) (x5 : (⟨S96x96, .f32⟩ : BufTy).Contents (Elt F)) (x6 : (⟨S96, .f32⟩ : BufTy).Contents (Elt F)) (x7 : (⟨S96x96, .f32⟩ : BufTy).Contents (Elt F)) (x8 : (⟨S96, .f32⟩ : BufTy).Contents (Elt F)) (x9 : (⟨S96x64, .f32⟩ : BufTy).Contents (Elt F)) (x10 : (⟨S64, .f32⟩ : BufTy).Contents (Elt F)) : (⟨S64x64, .f32⟩ : BufTy).Contents (Elt F) :=
  Host.divf (val_main_v154 (F := F) x0 x1 x2 x3 x4 x5 x6 x7 x8 x9 x10) (val_main_v158 (F := F) x2)

theorem val_main_v159_eq (m : (ℓ : Loc nD τ sig) → Buf (Elt F) ℓ) (c : Dev nD) :
    Cert.ReferenceIdeal.Value.res_main_v159 m c = val_main_v159 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Cert.ReferenceIdeal.Value.res_main_v159; rfl

end Cert.ReferenceIdeal.Read

end
-- ==== Proof.KB.Region0.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S10000x128 := Rect.unit (s := S10000x128) ![0, 0] S10000x128.size inb_S10000x128_S10000x128_0_0
abbrev r0_b : Rect S128x96 := Rect.unit (s := S128x96) ![0, 0] S128x96.size inb_S128x96_S128x96_0_0
abbrev r0_o : Rect S10000x96 := Rect.unit (s := S10000x96) ![0, 0] S10000x96.size inb_S10000x96_S10000x96_0_0

def out0_2 (x0 : Vec F S10000x128 .f32) (x1 : Vec F S128x96 .f32) : Vec F S10000x96 .f32 :=
  View.canon [⟨r0_o, k0_pay1 (View.ld x0 r0_a) (View.ld x1 r0_b)⟩]

theorem cover0_2 (p0 : Vec F S10000x96 .f32) (y : S10000x96.Idx) :
    ∃ pc ∈ ([⟨r0_o, p0⟩] : List (View.Piece (Elt F) S10000x96 .f32)), y ∈ pc.1.set :=
  View.cover_of_tiled [⟨r0_o, p0⟩] S10000x96.size (by rfl) y

set_option maxHeartbeats 1000000 in

theorem sound_kernel0 (c : Dev nD) (E : Set ℕ) (i : grid0.Coords) (arg1 : Memref sig .tc .vmem S10000x128 .f32) (harg1 : arg1.IsWhole)
    (arg2 : Memref sig .tc .vmem S128x96 .f32) (harg2 : arg2.IsWhole) (arg3 : Memref sig .tc .vmem S10000x96 .f32) (harg3 : arg3.IsWhole)
    (x0 : Vec F S10000x128 .f32) (x1 : Vec F S128x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Region1.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 1 of the graph network: bias and rectifier on one row tile (layer 1)

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window holds its tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window, fetched once, still holds the whole matrix at every later point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S10000x96 := Rect.unit (s := S10000x96) ![0, 0] S10000x96.size inb_S10000x96_S10000x96_0_0
abbrev r1_b : Rect S1x96 := Rect.unit (s := S1x96) ![0, 0] S1x96.size inb_S1x96_S1x96_0_0
abbrev r1_o : Rect S10000x96 := Rect.unit (s := S10000x96) ![0, 0] S10000x96.size inb_S10000x96_S10000x96_0_0

/-- What the body leaves in the result window: its one store, of the product payload of the two loaded blocks. -/
def out1_2 (x0 : Vec F S10000x96 .f32) (x1 : Vec F S1x96 .f32) : Vec F S10000x96 .f32 :=
  View.canon [⟨r1_o, k1_pay1 (View.ld x0 r1_a) (View.ld x1 r1_b)⟩]

/-- The one store covers the window. -/
theorem cover1_2 (p0 : Vec F S10000x96 .f32) (y : S10000x96.Idx) :
    ∃ pc ∈ ([⟨r1_o, p0⟩] : List (View.Piece (Elt F) S10000x96 .f32)), y ∈ pc.1.set :=
  View.cover_of_tiled [⟨r1_o, p0⟩] S10000x96.size (by rfl) y

set_option maxHeartbeats 1000000 in
/-- The body on whole staging buffers: the two inputs are read and kept, the result buffer ends at `out1_2`. -/
theorem sound_kernel1 (c : Dev nD) (E : Set ℕ) (i : grid1.Coords) (arg1 : Memref sig .tc .vmem S10000x96 .f32) (harg1 : arg1.IsWhole)
    (arg2 : Memref sig .tc .vmem S1x96 .f32) (harg2 : arg2.IsWhole) (arg3 : Memref sig .tc .vmem S10000x96 .f32) (harg3 : arg3.IsWhole)
    (x0 : Vec F S10000x96 .f32) (x1 : Vec F S1x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data for this call on core `c`: its arrays as found, each input window left at its block,
    the result window at `out1_2` of the two input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Region2.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 2 of the graph network: one row tile of the dense layer 2

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile window holds its tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window, fetched once, still holds the whole matrix at every later point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S10000x96 := Rect.unit (s := S10000x96) ![0, 0] S10000x96.size inb_S10000x96_S10000x96_0_0
abbrev r2_b : Rect S96x96 := Rect.unit (s := S96x96) ![0, 0] S96x96.size inb_S96x96_S96x96_0_0
abbrev r2_o : Rect S10000x96 := Rect.unit (s := S10000x96) ![0, 0] S10000x96.size inb_S10000x96_S10000x96_0_0

/-- What the body leaves in the result window: its one store, of the product payload of the two loaded blocks. -/
def out2_2 (x0 : Vec F S10000x96 .f32) (x1 : Vec F S96x96 .f32) : Vec F S10000x96 .f32 :=
  View.canon [⟨r2_o, k2_pay1 (View.ld x0 r2_a) (View.ld x1 r2_b)⟩]

/-- The one store covers the window. -/
theorem cover2_2 (p0 : Vec F S10000x96 .f32) (y : S10000x96.Idx) :
    ∃ pc ∈ ([⟨r2_o, p0⟩] : List (View.Piece (Elt F) S10000x96 .f32)), y ∈ pc.1.set :=
  View.cover_of_tiled [⟨r2_o, p0⟩] S10000x96.size (by rfl) y

set_option maxHeartbeats 1000000 in
/-- The body on whole staging buffers: the two inputs are read and kept, the result buffer ends at `out2_2`. -/
theorem sound_kernel2 (c : Dev nD) (E : Set ℕ) (i : grid2.Coords) (arg1 : Memref sig .tc .vmem S10000x96 .f32) (harg1 : arg1.IsWhole)
    (arg2 : Memref sig .tc .vmem S96x96 .f32) (harg2 : arg2.IsWhole) (arg3 : Memref sig .tc .vmem S10000x96 .f32) (harg3 : arg3.IsWhole)
    (x0 : Vec F S10000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data for this call on core `c`: its arrays as found, each input window left at its block,
    the result window at `out2_2` of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Region3.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 3 of the graph network: bias and rectifier on one row tile (layer 2)

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window holds its tile at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window, fetched once, still holds the whole matrix at every later point: its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S10000x96 := Rect.unit (s := S10000x96) ![0, 0] S10000x96.size inb_S10000x96_S10000x96_0_0
abbrev r3_b : Rect S1x96 := Rect.unit (s := S1x96) ![0, 0] S1x96.size inb_S1x96_S1x96_0_0
abbrev r3_o : Rect S10000x96 := Rect.unit (s := S10000x96) ![0, 0] S10000x96.size inb_S10000x96_S10000x96_0_0

/-- What the body leaves in the result window: its one store, of the product payload of the two loaded blocks. -/
def out3_2 (x0 : Vec F S10000x96 .f32) (x1 : Vec F S1x96 .f32) : Vec F S10000x96 .f32 :=
  View.canon [⟨r3_o, k3_pay1 (View.ld x0 r3_a) (View.ld x1 r3_b)⟩]

/-- The one store covers the window. -/
theorem cover3_2 (p0 : Vec F S10000x96 .f32) (y : S10000x96.Idx) :
    ∃ pc ∈ ([⟨r3_o, p0⟩] : List (View.Piece (Elt F) S10000x96 .f32)), y ∈ pc.1.set :=
  View.cover_of_tiled [⟨r3_o, p0⟩] S10000x96.size (by rfl) y

set_option maxHeartbeats 1000000 in
/-- The body on whole staging buffers: the two inputs are read and kept, the result buffer ends at `out3_2`. -/
theorem sound_kernel3 (c : Dev nD) (E : Set ℕ) (i : grid3.Coords) (arg1 : Memref sig .tc .vmem S10000x96 .f32) (harg1 : arg1.IsWhole)
    (arg2 : Memref sig .tc .vmem S1x96 .f32) (harg2 : arg2.IsWhole) (arg3 : Memref sig .tc .vmem S10000x96 .f32) (harg3 : arg3.IsWhole)
    (x0 : Vec F S10000x96 .f32) (x1 : Vec F S1x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data for this call on core `c`: its arrays as found, each input window left at its block,
    the result window at `out3_2` of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Region4.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 4 of the graph network: one row tile of the dense layer 3

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-tile window holds its tile at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight window, fetched once, still holds the whole matrix at every later point: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S10000x96 := Rect.unit (s := S10000x96) ![0, 0] S10000x96.size inb_S10000x96_S10000x96_0_0
abbrev r4_b : Rect S96x96 := Rect.unit (s := S96x96) ![0, 0] S96x96.size inb_S96x96_S96x96_0_0
abbrev r4_o : Rect S10000x96 := Rect.unit (s := S10000x96) ![0, 0] S10000x96.size inb_S10000x96_S10000x96_0_0

/-- What the body leaves in the result window: its one store, of the product payload of the two loaded blocks. -/
def out4_2 (x0 : Vec F S10000x96 .f32) (x1 : Vec F S96x96 .f32) : Vec F S10000x96 .f32 :=
  View.canon [⟨r4_o, k4_pay1 (View.ld x0 r4_a) (View.ld x1 r4_b)⟩]

/-- The one store covers the window. -/
theorem cover4_2 (p0 : Vec F S10000x96 .f32) (y : S10000x96.Idx) :
    ∃ pc ∈ ([⟨r4_o, p0⟩] : List (View.Piece (Elt F) S10000x96 .f32)), y ∈ pc.1.set :=
  View.cover_of_tiled [⟨r4_o, p0⟩] S10000x96.size (by rfl) y

set_option maxHeartbeats 1000000 in
/-- The body on whole staging buffers: the two inputs are read and kept, the result buffer ends at `out4_2`. -/
theorem sound_kernel4 (c : Dev nD) (E : Set ℕ) (i : grid4.Coords) (arg1 : Memref sig .tc .vmem S10000x96 .f32) (harg1 : arg1.IsWhole)
    (arg2 : Memref sig .tc .vmem S96x96 .f32) (harg2 : arg2.IsWhole) (arg3 : Memref sig .tc .vmem S10000x96 .f32) (harg3 : arg3.IsWhole)
    (x0 : Vec F S10000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data for this call on core `c`: its arrays as found, each input window left at its block,
    the result window at `out4_2` of the two input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.KB.Region5.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 5 of the graph network: bias and rectifier on one row tile (layer 3)

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row-tile window holds its tile at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weight window, fetched once, still holds the whole matrix at every later point: its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_a : Rect S10000x96 := Rect.unit (s := S10000x96) ![0, 0] S10000x96.size inb_S10000x96_S10000x96_0_0
abbrev r5_b : Rect S1x96 := Rect.unit (s := S1x96) ![0, 0] S1x96.size inb_S1x96_S1x96_0_0
abbrev r5_o : Rect S10000x96 := Rect.unit (s := S10000x96) ![0, 0] S10000x96.size inb_S10000x96_S10000x96_0_0

/-- What the body leaves in the result window: its one store, of the product payload of the two loaded blocks. -/
def out5_2 (x0 : Vec F S10000x96 .f32) (x1 : Vec F S1x96 .f32) : Vec F S10000x96 .f32 :=
  View.canon [⟨r5_o, k5_pay1 (View.ld x0 r5_a) (View.ld x1 r5_b)⟩]

/-- The one store covers the window. -/
theorem cover5_2 (p0 : Vec F S10000x96 .f32) (y : S10000x96.Idx) :
    ∃ pc ∈ ([⟨r5_o, p0⟩] : List (View.Piece (Elt F) S10000x96 .f32)), y ∈ pc.1.set :=
  View.cover_of_tiled [⟨r5_o, p0⟩] S10000x96.size (by rfl) y

set_option maxHeartbeats 1000000 in
/-- The body on whole staging buffers: the two inputs are read and kept, the result buffer ends at `out5_2`. -/
theorem sound_kernel5 (c : Dev nD) (E : Set ℕ) (i : grid5.Coords) (arg1 : Memref sig .tc .vmem S10000x96 .f32) (harg1 : arg1.IsWhole)
    (arg2 : Memref sig .tc .vmem S1x96 .f32) (harg2 : arg2.IsWhole) (arg3 : Memref sig .tc .vmem S10000x96 .f32) (harg3 : arg3.IsWhole)
    (x0 : Vec F S10000x96 .f32) (x1 : Vec F S1x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data for this call on core `c`: its arrays as found, each input window left at its block,
    the result window at `out5_2` of the two input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.KB.Region6.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 6 of the graph network: one row tile of the dense layer 4

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-tile window holds its tile at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight window, fetched once, still holds the whole matrix at every later point: its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S10000x96 := Rect.unit (s := S10000x96) ![0, 0] S10000x96.size inb_S10000x96_S10000x96_0_0
abbrev r6_b : Rect S96x64 := Rect.unit (s := S96x64) ![0, 0] S96x64.size inb_S96x64_S96x64_0_0
abbrev r6_o : Rect S10000x64 := Rect.unit (s := S10000x64) ![0, 0] S10000x64.size inb_S10000x64_S10000x64_0_0

/-- What the body leaves in the result window: its one store, of the product payload of the two loaded blocks. -/
def out6_2 (x0 : Vec F S10000x96 .f32) (x1 : Vec F S96x64 .f32) : Vec F S10000x64 .f32 :=
  View.canon [⟨r6_o, k6_pay1 (View.ld x0 r6_a) (View.ld x1 r6_b)⟩]

/-- The one store covers the window. -/
theorem cover6_2 (p0 : Vec F S10000x64 .f32) (y : S10000x64.Idx) :
    ∃ pc ∈ ([⟨r6_o, p0⟩] : List (View.Piece (Elt F) S10000x64 .f32)), y ∈ pc.1.set :=
  View.cover_of_tiled [⟨r6_o, p0⟩] S10000x64.size (by rfl) y

set_option maxHeartbeats 1000000 in
/-- The body on whole staging buffers: the two inputs are read and kept, the result buffer ends at `out6_2`. -/
theorem sound_kernel6 (c : Dev nD) (E : Set ℕ) (i : grid6.Coords) (arg1 : Memref sig .tc .vmem S10000x96 .f32) (harg1 : arg1.IsWhole)
    (arg2 : Memref sig .tc .vmem S96x64 .f32) (harg2 : arg2.IsWhole) (arg3 : Memref sig .tc .vmem S10000x64 .f32) (harg3 : arg3.IsWhole)
    (x0 : Vec F S10000x96 .f32) (x1 : Vec F S96x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data for this call on core `c`: its arrays as found, each input window left at its block,
    the result window at `out6_2` of the two input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.KB.Region7.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 7 of the graph network: bias on one row tile (layer 4, no rectifier)

The same memory shape as call 0 (two input windows, one result window stored once, whole): the window blocks,
the result window's contents after the body, the body's triple, the proof data and the body obligation.
-/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row-tile window holds its tile at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight window, fetched once, still holds the whole matrix at every later point: its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_a : Rect S10000x64 := Rect.unit (s := S10000x64) ![0, 0] S10000x64.size inb_S10000x64_S10000x64_0_0
abbrev r7_b : Rect S1x64 := Rect.unit (s := S1x64) ![0, 0] S1x64.size inb_S1x64_S1x64_0_0
abbrev r7_o : Rect S10000x64 := Rect.unit (s := S10000x64) ![0, 0] S10000x64.size inb_S10000x64_S10000x64_0_0

/-- What the body leaves in the result window: its one store, of the product payload of the two loaded blocks. -/
def out7_2 (x0 : Vec F S10000x64 .f32) (x1 : Vec F S1x64 .f32) : Vec F S10000x64 .f32 :=
  View.canon [⟨r7_o, k7_pay1 (View.ld x0 r7_a) (View.ld x1 r7_b)⟩]

/-- The one store covers the window. -/
theorem cover7_2 (p0 : Vec F S10000x64 .f32) (y : S10000x64.Idx) :
    ∃ pc ∈ ([⟨r7_o, p0⟩] : List (View.Piece (Elt F) S10000x64 .f32)), y ∈ pc.1.set :=
  View.cover_of_tiled [⟨r7_o, p0⟩] S10000x64.size (by rfl) y

set_option maxHeartbeats 1000000 in
/-- The body on whole staging buffers: the two inputs are read and kept, the result buffer ends at `out7_2`. -/
theorem sound_kernel7 (c : Dev nD) (E : Set ℕ) (i : grid7.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_act_kernel i arg1 harg1 arg2 harg2 arg3 harg3) K := by
  simp only [cc7__bias_act_kernel_eq_skeleton]; unfold cc7__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data for this call on core `c`: its arrays as found, each input window left at its block,
    the result window at `out7_2` of the two input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.Kernel.Fr

end
-- ==== Proof.KB.Region8.lean ====
import proofs.«400805_j35450660061449_1_alg».proof.Proof.Gen.Kernel.Launch
import proofs.«400805_j35450660061449_1_alg».proof.Proof.Gen.Kernel.Skeleton
import proofs.«400805_j35450660061449_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_1 (i : grid8.Coords) : Prop := (Scalar.cmpi .ne (Scalar.extui (Scalar.cmpi .eq (BitVec.ofNat 32 (i 0).val) 0#32)) 0#32) = 1#1

abbrev cond8_2 (i : grid8.Coords) : Prop := k8_cond2 i = 1#1

theorem hcond8_1 : ∀ t : Fin cfg8.N, cond8_1 (grid8.coords t) ↔ t.val = 0 :=
  (by decide +kernel : ∀ t : Fin grid8.N, cond8_1 (grid8.coords t) ↔ t.val = 0)

theorem hcond8_2 : ∀ t : Fin cfg8.N, cond8_2 (grid8.coords t) ↔ t.val = 4 :=
  (by decide +kernel : ∀ t : Fin grid8.N, cond8_2 (grid8.coords t) ↔ t.val = 4)

theorem lt8_4 : 4 < cfg8.N := by have : cfg8.N = 5 := N_8; omega

theorem hz8 : (![0, 0] : Fin 2 → Nat) = fun _ => 0 := funext fun a => by fin_cases a <;> rfl

abbrev r8_s : Rect S64x65 := Rect.unit (s := S64x65) ![0, 0] S64x65.size inb_S64x65_S64x65_0_0

abbrev r8_o : Rect S64x64 := Rect.unit (s := S64x64) ![0, 0] S64x64.size inb_S64x64_S64x64_0_0

abbrev r8_sl : Rect S64x65 := Rect.unit (s := S64x65) ![0, 0] S64x64.size inb_S64x65_S64x64_0_0

abbrev r8_sc : Rect S64x65 := Rect.unit (s := S64x65) ![0, 64] S64x1.size inb_S64x65_S64x1_0_64

theorem cover8_s (p : Vec F S64x65 .f32) (L : List (View.Piece (Elt F) S64x65 .f32)) (y : S64x65.Idx) :
    ∃ pc ∈ ((⟨r8_s, p⟩ : View.Piece (Elt F) S64x65 .f32) :: L), y ∈ pc.1.set :=
  ⟨_, List.mem_cons_self, View.mem_set_unit_zero (S := S64x65) hz8 inb_S64x65_S64x65_0_0 y⟩

theorem cover8_o (p : Vec F S64x64 .f32) (L : List (View.Piece (Elt F) S64x64 .f32)) (y : S64x64.Idx) :
    ∃ pc ∈ ((⟨r8_o, p⟩ : View.Piece (Elt F) S64x64 .f32) :: L), y ∈ pc.1.set :=
  ⟨_, List.mem_cons_self, View.mem_set_unit_zero (S := S64x64) hz8 inb_S64x64_S64x64_0_0 y⟩

set_option maxHeartbeats 1000000 in

theorem sound_kernel8_A (c : Dev nD) (E : Set ℕ) (i : grid8.Coords) (hc1 : cond8_1 i) (hc2 : ¬cond8_2 i)
    (arg1 : Memref sig .tc .vmem S10000x64 .f32) (harg1 : arg1.IsWhole)
    (arg2 : Memref sig .tc .vmem S10000x1 .i32) (harg2 : arg2.IsWhole) (arg3 : Memref sig .tc .vmem S64x64 .f32) (harg3 : arg3.IsWhole)
    (arg4 : Memref sig .tc .vmem S64x65 .f32) (harg4 : arg4.IsWhole)
    (x0 : Vec F S10000x64 .f32) (x1 : Vec F S10000x1 .i32) (xo : Vec F S64x64 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k8_pay2 x1 x0 (k8_pay1 (F := F)))) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover8_s _ _)]
  rw [View.canon_cons_unit_zero (S := S64x65) hz8]
  simp only [View.readAt_eq_ld, View.ld_unit_zero (S := S10000x1) hz8, View.ld_unit_zero (S := S10000x64) hz8,
    View.ld_unit_zero (S := S64x65) hz8, View.readCov_unit_zero (S := S64x65) _ hz8]

set_option maxHeartbeats 1000000 in

theorem sound_kernel8_B (c : Dev nD) (E : Set ℕ) (i : grid8.Coords) (hc1 : ¬cond8_1 i) (hc2 : ¬cond8_2 i)
    (arg1 : Memref sig .tc .vmem S10000x64 .f32) (harg1 : arg1.IsWhole)
    (arg2 : Memref sig .tc .vmem S10000x1 .i32) (harg2 : arg2.IsWhole) (arg3 : Memref sig .tc .vmem S64x64 .f32) (harg3 : arg3.IsWhole)
    (arg4 : Memref sig .tc .vmem S64x65 .f32) (harg4 : arg4.IsWhole)
    (x0 : Vec F S10000x64 .f32) (x1 : Vec F S10000x1 .i32) (xo : Vec F S64x64 .f32) (xs : Vec F S64x65 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k8_pay2 x1 x0 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover8_s _ _)]
  rw [View.canon_cons_unit_zero (S := S64x65) hz8]
  simp only [View.readAt_eq_ld, View.ld_unit_zero (S := S10000x1) hz8, View.ld_unit_zero (S := S10000x64) hz8,
    View.ld_unit_zero (S := S64x65) hz8, View.readCov_unit_zero (S := S64x65) _ hz8]

set_option maxHeartbeats 4000000 in

theorem sound_kernel8_C (c : Dev nD) (E : Set ℕ) (i : grid8.Coords) (hc1 : ¬cond8_1 i) (hc2 : cond8_2 i)
    (arg1 : Memref sig .tc .vmem S10000x64 .f32) (harg1 : arg1.IsWhole)
    (arg2 : Memref sig .tc .vmem S10000x1 .i32) (harg2 : arg2.IsWhole) (arg3 : Memref sig .tc .vmem S64x64 .f32) (harg3 : arg3.IsWhole)
    (arg4 : Memref sig .tc .vmem S64x65 .f32) (harg4 : arg4.IsWhole)
    (x0 : Vec F S10000x64 .f32) (x1 : Vec F S10000x1 .i32) (xs : Vec F S64x65 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k8_pay3 (View.ld (k8_pay2 x1 x0 xs) r8_sl) (View.ld (k8_pay2 x1 x0 xs) r8_sc))
            ∗ owns (c : Thread nD τ) arg4 fullShare (k8_pay2 x1 x0 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover8_o _ _)]
    rw [View.canon_cons_unit_zero (S := S64x64) hz8]
    rw [View.readCov_eq_canon_ld _ _ r8_sl (cover8_s _ _), View.readCov_eq_canon_ld _ _ r8_sc (cover8_s _ _)]
    rw [View.canon_unit_zero (S := S64x65) hz8]
    simp only [View.readAt_eq_ld, View.ld_unit_zero (S := S10000x1) hz8, View.ld_unit_zero (S := S10000x64) hz8,
      View.ld_unit_zero (S := S64x65) hz8]
  iexists _; isplitr
  swap; · iexact H3
  ipureintro
  sl_unfold_words
  rw [View.read_writes_eq_canon _ _ _ (cover8_s _ _)]
  rw [View.canon_cons_unit_zero (S := S64x65) hz8]
  simp only [View.readAt_eq_ld, View.ld_unit_zero (S := S10000x1) hz8, View.ld_unit_zero (S := S10000x64) hz8,
    View.ld_unit_zero (S := S64x65) hz8, View.readCov_unit_zero (S := S64x65) _ hz8]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev hblk8 (c : Dev nD) (t : Fin cfg8.N) : Vec F S10000x64 .f32 := iblk8 V c 0 t

abbrev gblk8 (c : Dev nD) (t : Fin cfg8.N) : Vec F S10000x1 .i32 := iblk8 V c 1 t

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem liveAt8_0 : ∀ t : Fin cfg8.N, cfg8.idle 0 (grid8.coords t) = false := by decide +kernel
theorem liveAt8_1 : ∀ t : Fin cfg8.N, cfg8.idle 1 (grid8.coords t) = false := by decide +kernel

theorem idleAt8_2 : ∀ t : Fin cfg8.N, ¬cond8_2 (grid8.coords t) → cfg8.idle 2 (grid8.coords t) = true := by decide +kernel
theorem noFlush8_2 : ∀ t : Fin cfg8.N, ¬cond8_2 (grid8.coords t) → (cfg8.win 2).flush t = false := by decide +kernel
theorem liveAt8_2 : ∀ t : Fin cfg8.N, cond8_2 (grid8.coords t) → cfg8.idle 2 (grid8.coords t) = false := by decide +kernel

def acc8 (c : Dev nD) : (n : ℕ) → n < cfg8.N → Vec F S64x65 .f32
  | 0, hn => k8_pay2 (gblk8 V c ⟨0, hn⟩) (hblk8 V c ⟨0, hn⟩) (k8_pay1 (F := F))
  | n + 1, hn => k8_pay2 (gblk8 V c ⟨n + 1, hn⟩) (hblk8 V c ⟨n + 1, hn⟩) (acc8 c n (Nat.lt_of_succ_lt hn))

theorem acc8_zero (c : Dev nD) (hn : 0 < cfg8.N) :
    acc8 V c 0 hn = k8_pay2 (gblk8 V c ⟨0, hn⟩) (hblk8 V c ⟨0, hn⟩) (k8_pay1 (F := F)) := rfl

theorem acc8_succ (c : Dev nD) (n : ℕ) (hn : n + 1 < cfg8.N) :
    acc8 V c (n + 1) hn = k8_pay2 (gblk8 V c ⟨n + 1, hn⟩) (hblk8 V c ⟨n + 1, hn⟩) (acc8 V c n (Nat.lt_of_succ_lt hn)) := rfl

theorem acc8_first (c : Dev nD) (t : Fin cfg8.N) (h0 : t.val = 0) :
    acc8 V c t.val t.isLt = k8_pay2 (gblk8 V c t) (hblk8 V c t) (k8_pay1 (F := F)) := by
  obtain ⟨n, hn⟩ := t
  cases n with
  | zero => rfl
  | succ n => exact absurd h0 (Nat.succ_ne_zero n)

theorem acc8_pos (c : Dev nD) (t : Fin cfg8.N) (h0 : t.val ≠ 0) :
    acc8 V c t.val t.isLt = k8_pay2 (gblk8 V c t) (hblk8 V c t) (acc8 V c (t.val - 1) (Nat.lt_of_le_of_lt (Nat.sub_le _ _) t.isLt)) := by
  obtain ⟨n, hn⟩ := t
  cases n with
  | zero => exact absurd rfl h0
  | succ n => rfl

def out8 (c : Dev nD) (t : Fin cfg8.N) : Vec F S64x64 .f32 :=
  k8_pay3 (View.ld (acc8 V c t.val t.isLt) r8_sl) (View.ld (acc8 V c t.val t.isLt) r8_sc)

abbrev scM8 : Memref sig .tc .vmem S64x65 .f32 := Memref.whole cc8_scratch0

theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

def PhiS8 (c : Dev nD) : (n : ℕ) → n ≤ cfg8.N → sProp 𝕄
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]

theorem after8_2_at (c : Dev nD) (t : Fin cfg8.N) :
    (dat8 V c).after 2 t = k8_pay3 (View.ld (acc8 V c t.val t.isLt) r8_sl) (View.ld (acc8 V c t.val t.isLt) r8_sc) := by
  dsimp only [dat8, out8]

theorem after8_2 (c : Dev nD) (t : Fin cfg8.N) (h4 : t.val = 4) :
    (dat8 V c).after 2 t = k8_pay3 (View.ld (acc8 V c 4 lt8_4) r8_sl) (View.ld (acc8 V c 4 lt8_4) r8_sc) := by
  rw [after8_2_at]
  obtain ⟨n, hn⟩ := t
  have h4' : n = 4 := h4
  subst h4'; rfl

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 5 := lt_of_lt_of_eq t.isLt (show cfg8.N = 5 from N_8)
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  by_cases h0 : t.val = 0
  · have h4 : ¬t.val = 4 := by omega
    have hc1 : cond8_1 (grid8.coords t) := (hcond8_1 t).mpr h0
    have hc2 : ¬cond8_2 (grid8.coords t) := fun h => h4 ((hcond8_2 t).mp h)
    rw [Dat.leavesExact_idle (dat8 V c) 2 t (idleAt8_2 t hc2) (noFlush8_2 t hc2)]
    rw [acc8_first V c t h0]
    rw [PhiS8_castSucc V c t, PhiS8_zero V c _ _ h0, PhiA8_eq]
    iintro ⟨⟨⟨HS, HR⟩, Hg⟩, Ho, ⟨%d0, H0⟩, ⟨%d1, H1⟩, ⟨%d2, H2⟩⟩
    iapply (sound_kernel8_A c Set.univ (grid8.coords t) hc1 hc2 _ _ _ _ _ _ _ _ (hblk8 V c t) (gblk8 V c t) ((dat8 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hc1 : ¬cond8_1 (grid8.coords t) := fun h => h0 ((hcond8_1 t).mp h)
    rw [acc8_pos V c t h0]
    rw [PhiS8_castSucc V c t, PhiS8_pos V c _ _ h0]
    by_cases h4 : t.val = 4
    · have hc2 : cond8_2 (grid8.coords t) := (hcond8_2 t).mpr h4
      rw [show (dat8 V c).leavesExact 2 t = owns (c : Thread nD τ) (st8_2 t) fullShare ((dat8 V c).after 2 t) from by
        unfold Dat.leavesExact; rw [liveAt8_2 t hc2], after8_2_at]
      rw [acc8_pos V c t h0]
      iintro ⟨⟨⟨HS, HR⟩, Hg⟩, Ho, ⟨%d0, H0⟩, ⟨%d1, H1⟩, ⟨%d2, H2⟩⟩
      iapply (sound_kernel8_C c Set.univ (grid8.coords t) hc1 hc2 _ _ _ _ _ _ _ _ (hblk8 V c t) (gblk8 V c t)
        (acc8 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc2 : ¬cond8_2 (grid8.coords t) := fun h => h4 ((hcond8_2 t).mp h)
      rw [Dat.leavesExact_idle (dat8 V c) 2 t (idleAt8_2 t hc2) (noFlush8_2 t hc2)]
      iintro ⟨⟨⟨HS, HR⟩, Hg⟩, Ho, ⟨%d0, H0⟩, ⟨%d1, H1⟩, ⟨%d2, H2⟩⟩
      iapply (sound_kernel8_B c Set.univ (grid8.coords t) hc1 hc2 _ _ _ _ _ _ _ _ (hblk8 V c t) (gblk8 V c t) ((dat8 V c).before 2 t d2)
        (acc8 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS, HR⟩, Hg⟩
  isplitl [HS HR]
  · isplitl [HS]
    · iexists _; iexact HS
    iexact HR
  iexact Hg

theorem hout8 (c : Dev nD) : (dat8 V c).Φ (Fin.last cfg8.N) ⊢ Pipeline.ΦA spec8 c :=
  Phi_out8 V c _ (by rw [Fin.val_last]; have : cfg8.N = 5 := N_8; omega)

end Cert.Kernel.Fr

end
-- ==== Proof.KB.Vals.lean ====
import proofs.«400805_j35450660061449_1_alg».proof.Proof.KB.Region0
import proofs.«400805_j35450660061449_1_alg».proof.Proof.KB.Region1
import proofs.«400805_j35450660061449_1_alg».proof.Proof.KB.Region2
import proofs.«400805_j35450660061449_1_alg».proof.Proof.KB.Region3
import proofs.«400805_j35450660061449_1_alg».proof.Proof.KB.Region4
import proofs.«400805_j35450660061449_1_alg».proof.Proof.KB.Region5
import proofs.«400805_j35450660061449_1_alg».proof.Proof.KB.Region6
import proofs.«400805_j35450660061449_1_alg».proof.Proof.KB.Region7
import proofs.«400805_j35450660061449_1_alg».proof.Proof.KB.Region8
import proofs.«400805_j35450660061449_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev We0 : Dev nD → Valuation τ sig (Elt F) := fun c => StableHlo.after hostOps0_1 (StableHlo.after hostOps0 (W0 m ρ c))
abbrev Ve0 : (c : Dev nD) → (b : Ref sig .tc) → Buf (Elt F) ((c : Thread nD τ).loc b) := fun c b => We0 m ρ c b

def Wx0 (c : Dev nD) : Valuation τ sig (Elt F) :=
  Pipeline.withArrays spec0 c (We0 m ρ c) fun w => (dat0 (Ve0 m ρ) c).arrAt w cfg0.N
theorem Wx0_arr (c : Dev nD) (w : Fin cfg0.W) :
    Wx0 m ρ c (Proc.devRef .tc (Pipeline.arrRef spec0 w)) = (dat0 (Ve0 m ρ) c).arrAt w cfg0.N := by
  unfold Wx0; exact Pipeline.withArrays_arr spec0 launch0.win.arr_inj c _ _ w
theorem Wx0_of_ne (c : Dev nD) (b : Ref sig .tc) (hb : ∀ w, Pipeline.arrRef spec0 w ≠ b) :
    Wx0 m ρ c (Proc.devRef .tc b) = We0 m ρ c (Proc.devRef .tc b) := by
  unfold Wx0; exact Pipeline.withArrays_of_ne spec0 c _ _ b hb
abbrev We1 : Dev nD → Valuation τ sig (Elt F) := fun c => StableHlo.after hostOps1 (Wx0 m ρ c)
abbrev Ve1 : (c : Dev nD) → (b : Ref sig .tc) → Buf (Elt F) ((c : Thread nD τ).loc b) := fun c b => We1 m ρ c b

def Wx1 (c : Dev nD) : Valuation τ sig (Elt F) :=
  Pipeline.withArrays spec1 c (We1 m ρ c) fun w => (dat1 (Ve1 m ρ) c).arrAt w cfg1.N
theorem Wx1_arr (c : Dev nD) (w : Fin cfg1.W) :
    Wx1 m ρ c (Proc.devRef .tc (Pipeline.arrRef spec1 w)) = (dat1 (Ve1 m ρ) c).arrAt w cfg1.N := by
  unfold Wx1; exact Pipeline.withArrays_arr spec1 launch1.win.arr_inj c _ _ w
theorem Wx1_of_ne (c : Dev nD) (b : Ref sig .tc) (hb : ∀ w, Pipeline.arrRef spec1 w ≠ b) :
    Wx1 m ρ c (Proc.devRef .tc b) = We1 m ρ c (Proc.devRef .tc b) := by
  unfold Wx1; exact Pipeline.withArrays_of_ne spec1 c _ _ b hb
abbrev We2 : Dev nD → Valuation τ sig (Elt F) := fun c => Wx1 m ρ c
abbrev Ve2 : (c : Dev nD) → (b : Ref sig .tc) → Buf (Elt F) ((c : Thread nD τ).loc b) := fun c b => We2 m ρ c b

def Wx2 (c : Dev nD) : Valuation τ sig (Elt F) :=
  Pipeline.withArrays spec2 c (We2 m ρ c) fun w => (dat2 (Ve2 m ρ) c).arrAt w cfg2.N
theorem Wx2_arr (c : Dev nD) (w : Fin cfg2.W) :
    Wx2 m ρ c (Proc.devRef .tc (Pipeline.arrRef spec2 w)) = (dat2 (Ve2 m ρ) c).arrAt w cfg2.N := by
  unfold Wx2; exact Pipeline.withArrays_arr spec2 launch2.win.arr_inj c _ _ w
theorem Wx2_of_ne (c : Dev nD) (b : Ref sig .tc) (hb : ∀ w, Pipeline.arrRef spec2 w ≠ b) :
    Wx2 m ρ c (Proc.devRef .tc b) = We2 m ρ c (Proc.devRef .tc b) := by
  unfold Wx2; exact Pipeline.withArrays_of_ne spec2 c _ _ b hb
abbrev We3 : Dev nD → Valuation τ sig (Elt F) := fun c => StableHlo.after hostOps3 (Wx2 m ρ c)
abbrev Ve3 : (c : Dev nD) → (b : Ref sig .tc) → Buf (Elt F) ((c : Thread nD τ).loc b) := fun c b => We3 m ρ c b

def Wx3 (c : Dev nD) : Valuation τ sig (Elt F) :=
  Pipeline.withArrays spec3 c (We3 m ρ c) fun w => (dat3 (Ve3 m ρ) c).arrAt w cfg3.N
theorem Wx3_arr (c : Dev nD) (w : Fin cfg3.W) :
    Wx3 m ρ c (Proc.devRef .tc (Pipeline.arrRef spec3 w)) = (dat3 (Ve3 m ρ) c).arrAt w cfg3.N := by
  unfold Wx3; exact Pipeline.withArrays_arr spec3 launch3.win.arr_inj c _ _ w
theorem Wx3_of_ne (c : Dev nD) (b : Ref sig .tc) (hb : ∀ w, Pipeline.arrRef spec3 w ≠ b) :
    Wx3 m ρ c (Proc.devRef .tc b) = We3 m ρ c (Proc.devRef .tc b) := by
  unfold Wx3; exact Pipeline.withArrays_of_ne spec3 c _ _ b hb
abbrev We4 : Dev nD → Valuation τ sig (Elt F) := fun c => Wx3 m ρ c
abbrev Ve4 : (c : Dev nD) → (b : Ref sig .tc) → Buf (Elt F) ((c : Thread nD τ).loc b) := fun c b => We4 m ρ c b

def Wx4 (c : Dev nD) : Valuation τ sig (Elt F) :=
  Pipeline.withArrays spec4 c (We4 m ρ c) fun w => (dat4 (Ve4 m ρ) c).arrAt w cfg4.N
theorem Wx4_arr (c : Dev nD) (w : Fin cfg4.W) :
    Wx4 m ρ c (Proc.devRef .tc (Pipeline.arrRef spec4 w)) = (dat4 (Ve4 m ρ) c).arrAt w cfg4.N := by
  unfold Wx4; exact Pipeline.withArrays_arr spec4 launch4.win.arr_inj c _ _ w
theorem Wx4_of_ne (c : Dev nD) (b : Ref sig .tc) (hb : ∀ w, Pipeline.arrRef spec4 w ≠ b) :
    Wx4 m ρ c (Proc.devRef .tc b) = We4 m ρ c (Proc.devRef .tc b) := by
  unfold Wx4; exact Pipeline.withArrays_of_ne spec4 c _ _ b hb
abbrev We5 : Dev nD → Valuation τ sig (Elt F) := fun c => StableHlo.after hostOps5 (Wx4 m ρ c)
abbrev Ve5 : (c : Dev nD) → (b : Ref sig .tc) → Buf (Elt F) ((c : Thread nD τ).loc b) := fun c b => We5 m ρ c b

def Wx5 (c : Dev nD) : Valuation τ sig (Elt F) :=
  Pipeline.withArrays spec5 c (We5 m ρ c) fun w => (dat5 (Ve5 m ρ) c).arrAt w cfg5.N
theorem Wx5_arr (c : Dev nD) (w : Fin cfg5.W) :
    Wx5 m ρ c (Proc.devRef .tc (Pipeline.arrRef spec5 w)) = (dat5 (Ve5 m ρ) c).arrAt w cfg5.N := by
  unfold Wx5; exact Pipeline.withArrays_arr spec5 launch5.win.arr_inj c _ _ w
theorem Wx5_of_ne (c : Dev nD) (b : Ref sig .tc) (hb : ∀ w, Pipeline.arrRef spec5 w ≠ b) :
    Wx5 m ρ c (Proc.devRef .tc b) = We5 m ρ c (Proc.devRef .tc b) := by
  unfold Wx5; exact Pipeline.withArrays_of_ne spec5 c _ _ b hb
abbrev We6 : Dev nD → Valuation τ sig (Elt F) := fun c => Wx5 m ρ c
abbrev Ve6 : (c : Dev nD) → (b : Ref sig .tc) → Buf (Elt F) ((c : Thread nD τ).loc b) := fun c b => We6 m ρ c b

def Wx6 (c : Dev nD) : Valuation τ sig (Elt F) :=
  Pipeline.withArrays spec6 c (We6 m ρ c) fun w => (dat6 (Ve6 m ρ) c).arrAt w cfg6.N
theorem Wx6_arr (c : Dev nD) (w : Fin cfg6.W) :
    Wx6 m ρ c (Proc.devRef .tc (Pipeline.arrRef spec6 w)) = (dat6 (Ve6 m ρ) c).arrAt w cfg6.N := by
  unfold Wx6; exact Pipeline.withArrays_arr spec6 launch6.win.arr_inj c _ _ w
theorem Wx6_of_ne (c : Dev nD) (b : Ref sig .tc) (hb : ∀ w, Pipeline.arrRef spec6 w ≠ b) :
    Wx6 m ρ c (Proc.devRef .tc b) = We6 m ρ c (Proc.devRef .tc b) := by
  unfold Wx6; exact Pipeline.withArrays_of_ne spec6 c _ _ b hb
abbrev We7 : Dev nD → Valuation τ sig (Elt F) := fun c => StableHlo.after hostOps7 (Wx6 m ρ c)
abbrev Ve7 : (c : Dev nD) → (b : Ref sig .tc) → Buf (Elt F) ((c : Thread nD τ).loc b) := fun c b => We7 m ρ c b

def Wx7 (c : Dev nD) : Valuation τ sig (Elt F) :=
  Pipeline.withArrays spec7 c (We7 m ρ c) fun w => (dat7 (Ve7 m ρ) c).arrAt w cfg7.N
theorem Wx7_arr (c : Dev nD) (w : Fin cfg7.W) :
    Wx7 m ρ c (Proc.devRef .tc (Pipeline.arrRef spec7 w)) = (dat7 (Ve7 m ρ) c).arrAt w cfg7.N := by
  unfold Wx7; exact Pipeline.withArrays_arr spec7 launch7.win.arr_inj c _ _ w
theorem Wx7_of_ne (c : Dev nD) (b : Ref sig .tc) (hb : ∀ w, Pipeline.arrRef spec7 w ≠ b) :
    Wx7 m ρ c (Proc.devRef .tc b) = We7 m ρ c (Proc.devRef .tc b) := by
  unfold Wx7; exact Pipeline.withArrays_of_ne spec7 c _ _ b hb
abbrev We8 : Dev nD → Valuation τ sig (Elt F) := fun c => StableHlo.after hostOps8 (Wx7 m ρ c)
abbrev Ve8 : (c : Dev nD) → (b : Ref sig .tc) → Buf (Elt F) ((c : Thread nD τ).loc b) := fun c b => We8 m ρ c b

def Wx8 (c : Dev nD) : Valuation τ sig (Elt F) :=
  Pipeline.withArrays spec8 c (We8 m ρ c) fun w => (dat8 (Ve8 m ρ) c).arrAt w cfg8.N
theorem Wx8_arr (c : Dev nD) (w : Fin cfg8.W) :
    Wx8 m ρ c (Proc.devRef .tc (Pipeline.arrRef spec8 w)) = (dat8 (Ve8 m ρ) c).arrAt w cfg8.N := by
  unfold Wx8; exact Pipeline.withArrays_arr spec8 launch8.win.arr_inj c _ _ w
end Cert.Kernel.Fr

end
-- ==== Proof.KB.Data.lean ====
import proofs.«400805_j35450660061449_1_alg».proof.Proof.KB.Vals

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
  | ⟨3, _⟩ => fun c => dat3 (Ve3 m ρ) c
  | ⟨4, _⟩ => fun c => dat4 (Ve4 m ρ) c
  | ⟨5, _⟩ => fun c => dat5 (Ve5 m ρ) c
  | ⟨6, _⟩ => fun c => dat6 (Ve6 m ρ) c
  | ⟨7, _⟩ => fun c => dat7 (Ve7 m ρ) c
  | ⟨8, _⟩ => fun c => dat8 (Ve8 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Fr

end
-- ==== Proof.KB.Seg.lean ====
import proofs.«400805_j35450660061449_1_alg».proof.Proof.KB.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call `p` as a segment of @main, entered with the unscoped buffers at `We` and left with them at `Wx`, which is
    `We` but for the call's arrays: the arrays are split out on entry and put back on exit, the generator register
    goes through the call's invariant, nothing is owed and the kernel has no semaphore of its own. -/
def regOf (p : Fin 9) (lf : Pipeline.LaunchFacts (nD := nD) (τ := τ) cfgs p) (We Wx : Dev nD → Valuation τ sig (Elt F))
    (hWx : ∀ c, Wx c = Pipeline.withArrays (pcfgs (F := F) p).spec c (We c) fun w => (pdats m ρ p c).arrAt w (Pipeline.pin (pcfgs (F := F)) adm p).N)
    (hbody : ∀ c, BodyObligation (pdats m ρ p c) (defs₀ (F := F)) Variants.none () Set.univ)
    (hq : ∀ c w, (pdats m ρ p c).q w = fullShare)
    (hA : ∀ c w, (pdats m ρ p c).A w = We c (Pipeline.arrRef (pcfgs (F := F) p).spec w))
    (howed : ∀ c t, (pdats m ρ p c).owed t = 0) (hrec : ∀ c x, x ∈ (pdats m ρ p c).recorded 0)
    (hin : ∀ c, iprop(Pipeline.scopedRest (pcfgs (F := F) p).spec c ∗ ∃ r, prngReg c r) ⊢ (pdats m ρ p c).Φ 0)
    (hout : ∀ c, (pdats m ρ p c).Φ (Fin.last _) ⊢ iprop(Pipeline.scopedRest (pcfgs (F := F) p).spec c ∗ ∃ r, prngReg c r)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (We c) ∗ R c)
  post c := iprop(StableHlo.held (c : Thread nD τ) (Pipeline.ucRefs τ sig) (Wx c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => We c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => We c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hin c)
    isplitl [Hr]; · iexact Hr
    iexact Hp
  hout c := by
    rw [Pipeline.ownSems0_none]
    have hsplit : (iprop(Pipeline.scopedRest (pcfgs (F := F) p).spec c ∗ ∃ r, prngReg c r) : sProp 𝕄)
        ⊢ iprop((∃ r, prngReg c r) ∗ emp ∗ Pipeline.scopedRest (pcfgs (F := F) p).spec c) := by
      iintro ⟨Hr, Hp⟩
      isplitl [Hp]; · iexact Hp
      isplitr; · iempintro
      iexact Hr
    exact (hout c).trans hsplit
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => We c b) (fun b => Wx c b) ((pdats m ρ p c).arrAt · (Pipeline.pin (pcfgs (F := F)) adm p).N)
      (fun w => ((congrFun (hWx c) _).trans (Pipeline.withArrays_arr _ lf.win.arr_inj c _ _ w)).symm)
      (fun b hb => (congrFun (hWx c) _).trans (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- A buffer that is no result array of call `p` is left by the call as it was entered: the call's input arrays are
    put back unchanged, and nothing else is touched. -/
theorem keep_of (p : Fin 9) (lf : Pipeline.LaunchFacts (nD := nD) (τ := τ) cfgs p) (We Wx : Dev nD → Valuation τ sig (Elt F))
    (hWx : ∀ c, Wx c = Pipeline.withArrays (pcfgs (F := F) p).spec c (We c) fun w => (pdats m ρ p c).arrAt w (Pipeline.pin (pcfgs (F := F)) adm p).N)
    (hA : ∀ c w, (pdats m ρ p c).A w = We c (Pipeline.arrRef (pcfgs (F := F) p).spec w)) (c : Dev nD) (b : Ref sig .tc)
    (hb : ∀ w, ((Pipeline.pin (pcfgs (F := F)) adm p).win w).isOut = true → Pipeline.arrRef (pcfgs (F := F) p).spec w ≠ b) :
    Wx c (Proc.devRef .tc b) = We c (Proc.devRef .tc b) := by
  rw [hWx c]
  by_cases h : ∃ w, Pipeline.arrRef (pcfgs (F := F) p).spec w = b
  · obtain ⟨w, rfl⟩ := h
    have hin : ((Pipeline.pin (pcfgs (F := F)) adm p).win w).isOut = false := by
      cases hw : ((Pipeline.pin (pcfgs (F := F)) adm p).win w).isOut
      · rfl
      · exact absurd rfl (hb w hw)
    exact (Pipeline.withArrays_arr _ lf.win.arr_inj c _ _ w).trans (((pdats m ρ p c).arrAt_in w hin _).trans (hA c w))
  · exact Pipeline.withArrays_of_ne _ c _ _ b fun w e => h ⟨w, e⟩

def reg0 := regOf m ρ 0 launch0 (We0 m ρ) (Wx0 m ρ) (fun _ => rfl) (body_obligation0 (Ve0 m ρ)) (fun _ _ => rfl) (fun _ _ => rfl)
  (fun _ _ => rfl) (fun _ _ => trivial) (fun _ => .rfl) (fun _ => .rfl)
def reg1 := regOf m ρ 1 launch1 (We1 m ρ) (Wx1 m ρ) (fun _ => rfl) (body_obligation1 (Ve1 m ρ)) (fun _ _ => rfl) (fun _ _ => rfl)
  (fun _ _ => rfl) (fun _ _ => trivial) (fun _ => .rfl) (fun _ => .rfl)
def reg2 := regOf m ρ 2 launch2 (We2 m ρ) (Wx2 m ρ) (fun _ => rfl) (body_obligation2 (Ve2 m ρ)) (fun _ _ => rfl) (fun _ _ => rfl)
  (fun _ _ => rfl) (fun _ _ => trivial) (fun _ => .rfl) (fun _ => .rfl)
def reg3 := regOf m ρ 3 launch3 (We3 m ρ) (Wx3 m ρ) (fun _ => rfl) (body_obligation3 (Ve3 m ρ)) (fun _ _ => rfl) (fun _ _ => rfl)
  (fun _ _ => rfl) (fun _ _ => trivial) (fun _ => .rfl) (fun _ => .rfl)
def reg4 := regOf m ρ 4 launch4 (We4 m ρ) (Wx4 m ρ) (fun _ => rfl) (body_obligation4 (Ve4 m ρ)) (fun _ _ => rfl) (fun _ _ => rfl)
  (fun _ _ => rfl) (fun _ _ => trivial) (fun _ => .rfl) (fun _ => .rfl)
def reg5 := regOf m ρ 5 launch5 (We5 m ρ) (Wx5 m ρ) (fun _ => rfl) (body_obligation5 (Ve5 m ρ)) (fun _ _ => rfl) (fun _ _ => rfl)
  (fun _ _ => rfl) (fun _ _ => trivial) (fun _ => .rfl) (fun _ => .rfl)
def reg6 := regOf m ρ 6 launch6 (We6 m ρ) (Wx6 m ρ) (fun _ => rfl) (body_obligation6 (Ve6 m ρ)) (fun _ _ => rfl) (fun _ _ => rfl)
  (fun _ _ => rfl) (fun _ _ => trivial) (fun _ => .rfl) (fun _ => .rfl)
def reg7 := regOf m ρ 7 launch7 (We7 m ρ) (Wx7 m ρ) (fun _ => rfl) (body_obligation7 (Ve7 m ρ)) (fun _ _ => rfl) (fun _ _ => rfl)
  (fun _ _ => rfl) (fun _ _ => trivial) (fun _ => .rfl) (fun _ => .rfl)
def reg8 := regOf m ρ 8 launch8 (We8 m ρ) (Wx8 m ρ) (fun _ => rfl) (body_obligation8 (Ve8 m ρ)) (fun _ _ => rfl) (fun _ _ => rfl)
  (fun _ _ => rfl) (fun _ _ => trivial) (hin8 (Ve8 m ρ)) (hout8 (Ve8 m ρ))

end Cert.Kernel.Fr

end
-- ==== Proof.KB.Run.lean ====
import proofs.«400805_j35450660061449_1_alg».proof.Proof.KB.Seg

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wx0_keep (c : Dev nD) (b : Ref sig .tc) (hb : b ≠ main_v17) :
    Wx0 m ρ c (Proc.devRef .tc b) = We0 m ρ c (Proc.devRef .tc b) :=
  keep_of m ρ 0 launch0 (We0 m ρ) (Wx0 m ρ) (fun _ => rfl) (fun _ _ => rfl) c b fun w hw e =>
    hb (e.symm.trans ((by decide : ∀ w : Fin cfg0.W, (cfg0.win w).isOut = true → Pipeline.arrRef spec0 w = main_v17) w hw))

theorem Wx1_keep (c : Dev nD) (b : Ref sig .tc) (hb : b ≠ main_v47) :
    Wx1 m ρ c (Proc.devRef .tc b) = We1 m ρ c (Proc.devRef .tc b) :=
  keep_of m ρ 1 launch1 (We1 m ρ) (Wx1 m ρ) (fun _ => rfl) (fun _ _ => rfl) c b fun w hw e =>
    hb (e.symm.trans ((by decide : ∀ w : Fin cfg1.W, (cfg1.win w).isOut = true → Pipeline.arrRef spec1 w = main_v47) w hw))

theorem Wx2_keep (c : Dev nD) (b : Ref sig .tc) (hb : b ≠ main_v48) :
    Wx2 m ρ c (Proc.devRef .tc b) = We2 m ρ c (Proc.devRef .tc b) :=
  keep_of m ρ 2 launch2 (We2 m ρ) (Wx2 m ρ) (fun _ => rfl) (fun _ _ => rfl) c b fun w hw e =>
    hb (e.symm.trans ((by decide : ∀ w : Fin cfg2.W, (cfg2.win w).isOut = true → Pipeline.arrRef spec2 w = main_v48) w hw))

theorem Wx3_keep (c : Dev nD) (b : Ref sig .tc) (hb : b ≠ main_v78) :
    Wx3 m ρ c (Proc.devRef .tc b) = We3 m ρ c (Proc.devRef .tc b) :=
  keep_of m ρ 3 launch3 (We3 m ρ) (Wx3 m ρ) (fun _ => rfl) (fun _ _ => rfl) c b fun w hw e =>
    hb (e.symm.trans ((by decide : ∀ w : Fin cfg3.W, (cfg3.win w).isOut = true → Pipeline.arrRef spec3 w = main_v78) w hw))

theorem Wx4_keep (c : Dev nD) (b : Ref sig .tc) (hb : b ≠ main_v79) :
    Wx4 m ρ c (Proc.devRef .tc b) = We4 m ρ c (Proc.devRef .tc b) :=
  keep_of m ρ 4 launch4 (We4 m ρ) (Wx4 m ρ) (fun _ => rfl) (fun _ _ => rfl) c b fun w hw e =>
    hb (e.symm.trans ((by decide : ∀ w : Fin cfg4.W, (cfg4.win w).isOut = true → Pipeline.arrRef spec4 w = main_v79) w hw))

theorem Wx5_keep (c : Dev nD) (b : Ref sig .tc) (hb : b ≠ main_v109) :
    Wx5 m ρ c (Proc.devRef .tc b) = We5 m ρ c (Proc.devRef .tc b) :=
  keep_of m ρ 5 launch5 (We5 m ρ) (Wx5 m ρ) (fun _ => rfl) (fun _ _ => rfl) c b fun w hw e =>
    hb (e.symm.trans ((by decide : ∀ w : Fin cfg5.W, (cfg5.win w).isOut = true → Pipeline.arrRef spec5 w = main_v109) w hw))

theorem Wx6_keep (c : Dev nD) (b : Ref sig .tc) (hb : b ≠ main_v110) :
    Wx6 m ρ c (Proc.devRef .tc b) = We6 m ρ c (Proc.devRef .tc b) :=
  keep_of m ρ 6 launch6 (We6 m ρ) (Wx6 m ρ) (fun _ => rfl) (fun _ _ => rfl) c b fun w hw e =>
    hb (e.symm.trans ((by decide : ∀ w : Fin cfg6.W, (cfg6.win w).isOut = true → Pipeline.arrRef spec6 w = main_v110) w hw))

theorem Wx7_keep (c : Dev nD) (b : Ref sig .tc) (hb : b ≠ main_v140) :
    Wx7 m ρ c (Proc.devRef .tc b) = We7 m ρ c (Proc.devRef .tc b) :=
  keep_of m ρ 7 launch7 (We7 m ρ) (Wx7 m ρ) (fun _ => rfl) (fun _ _ => rfl) c b fun w hw e =>
    hb (e.symm.trans ((by decide : ∀ w : Fin cfg7.W, (cfg7.win w).isOut = true → Pipeline.arrRef spec7 w = main_v140) w hw))

theorem Wx8_keep (c : Dev nD) (b : Ref sig .tc) (hb : b ≠ main_v142) :
    Wx8 m ρ c (Proc.devRef .tc b) = We8 m ρ c (Proc.devRef .tc b) :=
  keep_of m ρ 8 launch8 (We8 m ρ) (Wx8 m ρ) (fun _ => rfl) (fun _ _ => rfl) c b fun w hw e =>
    hb (e.symm.trans ((by decide : ∀ w : Fin cfg8.W, (cfg8.win w).isOut = true → Pipeline.arrRef spec8 w = main_v142) w hw))

theorem kept_to_end (c : Dev nD) (b : Ref sig .tc) (h0 : b ∉ hostOps0_W) (h01 : b ∉ hostOps0_1_W) (h1 : b ∉ hostOps1_W)
    (h3 : b ∉ hostOps3_W) (h5 : b ∉ hostOps5_W) (h7 : b ∉ hostOps7_W) (h8 : b ∉ hostOps8_W)
    (ho : b ∉ ([main_v17, main_v47, main_v48, main_v78, main_v79, main_v109, main_v110, main_v140, main_v142] : List (Ref sig .tc))) :
    Wx8 m ρ c (Proc.devRef .tc b) = m ((c : Thread nD τ).loc b) := by
  have hne : ∀ r ∈ ([main_v17, main_v47, main_v48, main_v78, main_v79, main_v109, main_v110, main_v140, main_v142] : List (Ref sig .tc)), b ≠ r :=
    fun r hr e => ho (e ▸ hr)
  rw [Wx8_keep m ρ c b (hne _ (by simp)), show We8 m ρ c (Proc.devRef .tc b) = Wx7 m ρ c (Proc.devRef .tc b) from StableHlo.after_of_writes_sub hostOps8 _ hostOps8_writes h8,
    Wx7_keep m ρ c b (hne _ (by simp)), show We7 m ρ c (Proc.devRef .tc b) = Wx6 m ρ c (Proc.devRef .tc b) from StableHlo.after_of_writes_sub hostOps7 _ hostOps7_writes h7,
    Wx6_keep m ρ c b (hne _ (by simp)), show We6 m ρ c (Proc.devRef .tc b) = Wx5 m ρ c (Proc.devRef .tc b) from rfl,
    Wx5_keep m ρ c b (hne _ (by simp)), show We5 m ρ c (Proc.devRef .tc b) = Wx4 m ρ c (Proc.devRef .tc b) from StableHlo.after_of_writes_sub hostOps5 _ hostOps5_writes h5,
    Wx4_keep m ρ c b (hne _ (by simp)), show We4 m ρ c (Proc.devRef .tc b) = Wx3 m ρ c (Proc.devRef .tc b) from rfl,
    Wx3_keep m ρ c b (hne _ (by simp)), show We3 m ρ c (Proc.devRef .tc b) = Wx2 m ρ c (Proc.devRef .tc b) from StableHlo.after_of_writes_sub hostOps3 _ hostOps3_writes h3,
    Wx2_keep m ρ c b (hne _ (by simp)), show We2 m ρ c (Proc.devRef .tc b) = Wx1 m ρ c (Proc.devRef .tc b) from rfl,
    Wx1_keep m ρ c b (hne _ (by simp)), show We1 m ρ c (Proc.devRef .tc b) = Wx0 m ρ c (Proc.devRef .tc b) from StableHlo.after_of_writes_sub hostOps1 _ hostOps1_writes h1,
    Wx0_keep m ρ c b (hne _ (by simp)),
    show We0 m ρ c (Proc.devRef .tc b) = StableHlo.after hostOps0 (W0 m ρ c) (Proc.devRef .tc b) from StableHlo.after_of_writes_sub hostOps0_1 _ hostOps0_1_writes h01,
    show StableHlo.after hostOps0 (W0 m ρ c) (Proc.devRef .tc b) = W0 m ρ c (Proc.devRef .tc b) from StableHlo.after_of_writes_sub hostOps0 _ hostOps0_writes h0]

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (fun c => StableHlo.after hostOps0 (W0 m ρ c))),
    .region (reg0 m ρ),
    .host (hseg hostOps1 hostOps1_sub hostOps1_fresh (Wx0 m ρ)),
    .region (reg1 m ρ),
    .region (reg2 m ρ),
    .host (hseg hostOps3 hostOps3_sub hostOps3_fresh (Wx2 m ρ)),
    .region (reg3 m ρ),
    .region (reg4 m ρ),
    .host (hseg hostOps5 hostOps5_sub hostOps5_fresh (Wx4 m ρ)),
    .region (reg5 m ρ),
    .region (reg6 m ρ),
    .host (hseg hostOps7 hostOps7_sub hostOps7_fresh (Wx6 m ρ)),
    .region (reg7 m ρ),
    .host (hseg hostOps8 hostOps8_sub hostOps8_fresh (Wx7 m ρ)),
    .region (reg8 m ρ) ]

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wx8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (Wx8 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
        show iprop(StableHlo.held (c : Thread nD τ) (Pipeline.ucRefs τ sig) (Wx8 m ρ c) ∗ R c)
          ⊢ iprop((StableHlo.held (c : Thread nD τ) (Pipeline.ucRefs τ sig) (Wx8 m ρ c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wx8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wx8 m ρ c) s')
      isplitl [Hh] <;> iassumption)
    (hQ := fun s h c => h c)

theorem run_value : θ_run defs (onTc (τ := τ) (main (F := F))) ⟨m, fun _ => 0, ρ⟩ (fun r => ∀ c : Dev nD,
      r.2.mem ((c.tc : Thread nD τ).loc main_v142) = Wx8 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v142 (by decide)),
    (h c _ (mem_uc main_arg0 (by decide))).trans (kept_to_end m ρ c main_arg0 (by decide) (by decide) (by decide) (by decide) (by decide) (by decide) (by decide) (by decide)),
    (h c _ (mem_uc main_arg1 (by decide))).trans (kept_to_end m ρ c main_arg1 (by decide) (by decide) (by decide) (by decide) (by decide) (by decide) (by decide) (by decide)),
    (h c _ (mem_uc main_arg2 (by decide))).trans (kept_to_end m ρ c main_arg2 (by decide) (by decide) (by decide) (by decide) (by decide) (by decide) (by decide) (by decide)),
    (h c _ (mem_uc main_arg3 (by decide))).trans (kept_to_end m ρ c main_arg3 (by decide) (by decide) (by decide) (by decide) (by decide) (by decide) (by decide) (by decide)),
    (h c _ (mem_uc main_arg4 (by decide))).trans (kept_to_end m ρ c main_arg4 (by decide) (by decide) (by decide) (by decide) (by decide) (by decide) (by decide) (by decide)),
    (h c _ (mem_uc main_arg5 (by decide))).trans (kept_to_end m ρ c main_arg5 (by decide) (by decide) (by decide) (by decide) (by decide) (by decide) (by decide) (by decide)),
    (h c _ (mem_uc main_arg6 (by decide))).trans (kept_to_end m ρ c main_arg6 (by decide) (by decide) (by decide) (by decide) (by decide) (by decide) (by decide) (by decide)),
    (h c _ (mem_uc main_arg7 (by decide))).trans (kept_to_end m ρ c main_arg7 (by decide) (by decide) (by decide) (by decide) (by decide) (by decide) (by decide) (by decide)),
    (h c _ (mem_uc main_arg8 (by decide))).trans (kept_to_end m ρ c main_arg8 (by decide) (by decide) (by decide) (by decide) (by decide) (by decide) (by decide) (by decide)),
    (h c _ (mem_uc main_arg9 (by decide))).trans (kept_to_end m ρ c main_arg9 (by decide) (by decide) (by decide) (by decide) (by decide) (by decide) (by decide) (by decide)),
    (h c _ (mem_uc main_arg10 (by decide))).trans (kept_to_end m ρ c main_arg10 (by decide) (by decide) (by decide) (by decide) (by decide) (by decide) (by decide) (by decide))⟩) (run_all m ρ)

/-- The frame is the value run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ)

end Cert.Kernel.Fr

end
-- ==== Proof.KI.Region0.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S10000x128 := Rect.unit (s := S10000x128) ![0, 0] S10000x128.size inb_S10000x128_S10000x128_0_0
abbrev r0_b : Rect S128x96 := Rect.unit (s := S128x96) ![0, 0] S128x96.size inb_S128x96_S128x96_0_0
abbrev r0_o : Rect S10000x96 := Rect.unit (s := S10000x96) ![0, 0] S10000x96.size inb_S10000x96_S10000x96_0_0

def out0_2 (x0 : Vec F S10000x128 .f32) (x1 : Vec F S128x96 .f32) : Vec F S10000x96 .f32 :=
  View.canon [⟨r0_o, k0_pay1 (View.ld x0 r0_a) (View.ld x1 r0_b)⟩]

theorem cover0_2 (p0 : Vec F S10000x96 .f32) (y : S10000x96.Idx) :
    ∃ pc ∈ ([⟨r0_o, p0⟩] : List (View.Piece (Elt F) S10000x96 .f32)), y ∈ pc.1.set :=
  View.cover_of_tiled [⟨r0_o, p0⟩] S10000x96.size (by rfl) y

set_option maxHeartbeats 1000000 in

theorem sound_kernel0 (c : Dev nD) (E : Set ℕ) (i : grid0.Coords) (arg1 : Memref sig .tc .vmem S10000x128 .f32) (harg1 : arg1.IsWhole)
    (arg2 : Memref sig .tc .vmem S128x96 .f32) (harg2 : arg2.IsWhole) (arg3 : Memref sig .tc .vmem S10000x96 .f32) (harg3 : arg3.IsWhole)
    (x0 : Vec F S10000x128 .f32) (x1 : Vec F S128x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 1 of the graph network: bias and rectifier on one row tile (layer 1)

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-tile window holds its tile at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window, fetched once, still holds the whole matrix at every later point: its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_a : Rect S10000x96 := Rect.unit (s := S10000x96) ![0, 0] S10000x96.size inb_S10000x96_S10000x96_0_0
abbrev r1_b : Rect S1x96 := Rect.unit (s := S1x96) ![0, 0] S1x96.size inb_S1x96_S1x96_0_0
abbrev r1_o : Rect S10000x96 := Rect.unit (s := S10000x96) ![0, 0] S10000x96.size inb_S10000x96_S10000x96_0_0

/-- What the body leaves in the result window: its one store, of the product payload of the two loaded blocks. -/
def out1_2 (x0 : Vec F S10000x96 .f32) (x1 : Vec F S1x96 .f32) : Vec F S10000x96 .f32 :=
  View.canon [⟨r1_o, k1_pay1 (View.ld x0 r1_a) (View.ld x1 r1_b)⟩]

/-- The one store covers the window. -/
theorem cover1_2 (p0 : Vec F S10000x96 .f32) (y : S10000x96.Idx) :
    ∃ pc ∈ ([⟨r1_o, p0⟩] : List (View.Piece (Elt F) S10000x96 .f32)), y ∈ pc.1.set :=
  View.cover_of_tiled [⟨r1_o, p0⟩] S10000x96.size (by rfl) y

set_option maxHeartbeats 1000000 in
/-- The body on whole staging buffers: the two inputs are read and kept, the result buffer ends at `out1_2`. -/
theorem sound_kernel1 (c : Dev nD) (E : Set ℕ) (i : grid1.Coords) (arg1 : Memref sig .tc .vmem S10000x96 .f32) (harg1 : arg1.IsWhole)
    (arg2 : Memref sig .tc .vmem S1x96 .f32) (harg2 : arg2.IsWhole) (arg3 : Memref sig .tc .vmem S10000x96 .f32) (harg3 : arg3.IsWhole)
    (x0 : Vec F S10000x96 .f32) (x1 : Vec F S1x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_act_kernel i arg1 harg1 arg2 harg2 arg3 harg3) K := by
  simp only [cc1__bias_act_kernel_eq_skeleton]; unfold cc1__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data for this call on core `c`: its arrays as found, each input window left at its block,
    the result window at `out1_2` of the two input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 2 of the graph network: one row tile of the dense layer 2

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-tile window holds its tile at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window, fetched once, still holds the whole matrix at every later point: its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S10000x96 := Rect.unit (s := S10000x96) ![0, 0] S10000x96.size inb_S10000x96_S10000x96_0_0
abbrev r2_b : Rect S96x96 := Rect.unit (s := S96x96) ![0, 0] S96x96.size inb_S96x96_S96x96_0_0
abbrev r2_o : Rect S10000x96 := Rect.unit (s := S10000x96) ![0, 0] S10000x96.size inb_S10000x96_S10000x96_0_0

/-- What the body leaves in the result window: its one store, of the product payload of the two loaded blocks. -/
def out2_2 (x0 : Vec F S10000x96 .f32) (x1 : Vec F S96x96 .f32) : Vec F S10000x96 .f32 :=
  View.canon [⟨r2_o, k2_pay1 (View.ld x0 r2_a) (View.ld x1 r2_b)⟩]

/-- The one store covers the window. -/
theorem cover2_2 (p0 : Vec F S10000x96 .f32) (y : S10000x96.Idx) :
    ∃ pc ∈ ([⟨r2_o, p0⟩] : List (View.Piece (Elt F) S10000x96 .f32)), y ∈ pc.1.set :=
  View.cover_of_tiled [⟨r2_o, p0⟩] S10000x96.size (by rfl) y

set_option maxHeartbeats 1000000 in
/-- The body on whole staging buffers: the two inputs are read and kept, the result buffer ends at `out2_2`. -/
theorem sound_kernel2 (c : Dev nD) (E : Set ℕ) (i : grid2.Coords) (arg1 : Memref sig .tc .vmem S10000x96 .f32) (harg1 : arg1.IsWhole)
    (arg2 : Memref sig .tc .vmem S96x96 .f32) (harg2 : arg2.IsWhole) (arg3 : Memref sig .tc .vmem S10000x96 .f32) (harg3 : arg3.IsWhole)
    (x0 : Vec F S10000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data for this call on core `c`: its arrays as found, each input window left at its block,
    the result window at `out2_2` of the two input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 3 of the graph network: bias and rectifier on one row tile (layer 2)

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row-tile window holds its tile at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight window, fetched once, still holds the whole matrix at every later point: its block index never moves. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S10000x96 := Rect.unit (s := S10000x96) ![0, 0] S10000x96.size inb_S10000x96_S10000x96_0_0
abbrev r3_b : Rect S1x96 := Rect.unit (s := S1x96) ![0, 0] S1x96.size inb_S1x96_S1x96_0_0
abbrev r3_o : Rect S10000x96 := Rect.unit (s := S10000x96) ![0, 0] S10000x96.size inb_S10000x96_S10000x96_0_0

/-- What the body leaves in the result window: its one store, of the product payload of the two loaded blocks. -/
def out3_2 (x0 : Vec F S10000x96 .f32) (x1 : Vec F S1x96 .f32) : Vec F S10000x96 .f32 :=
  View.canon [⟨r3_o, k3_pay1 (View.ld x0 r3_a) (View.ld x1 r3_b)⟩]

/-- The one store covers the window. -/
theorem cover3_2 (p0 : Vec F S10000x96 .f32) (y : S10000x96.Idx) :
    ∃ pc ∈ ([⟨r3_o, p0⟩] : List (View.Piece (Elt F) S10000x96 .f32)), y ∈ pc.1.set :=
  View.cover_of_tiled [⟨r3_o, p0⟩] S10000x96.size (by rfl) y

set_option maxHeartbeats 1000000 in
/-- The body on whole staging buffers: the two inputs are read and kept, the result buffer ends at `out3_2`. -/
theorem sound_kernel3 (c : Dev nD) (E : Set ℕ) (i : grid3.Coords) (arg1 : Memref sig .tc .vmem S10000x96 .f32) (harg1 : arg1.IsWhole)
    (arg2 : Memref sig .tc .vmem S1x96 .f32) (harg2 : arg2.IsWhole) (arg3 : Memref sig .tc .vmem S10000x96 .f32) (harg3 : arg3.IsWhole)
    (x0 : Vec F S10000x96 .f32) (x1 : Vec F S1x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_act_kernel i arg1 harg1 arg2 harg2 arg3 harg3) K := by
  simp only [cc3__bias_act_kernel_eq_skeleton]; unfold cc3__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data for this call on core `c`: its arrays as found, each input window left at its block,
    the result window at `out3_2` of the two input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Region4.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 4 of the graph network: one row tile of the dense layer 3

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-tile window holds its tile at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight window, fetched once, still holds the whole matrix at every later point: its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev r4_a : Rect S10000x96 := Rect.unit (s := S10000x96) ![0, 0] S10000x96.size inb_S10000x96_S10000x96_0_0
abbrev r4_b : Rect S96x96 := Rect.unit (s := S96x96) ![0, 0] S96x96.size inb_S96x96_S96x96_0_0
abbrev r4_o : Rect S10000x96 := Rect.unit (s := S10000x96) ![0, 0] S10000x96.size inb_S10000x96_S10000x96_0_0

/-- What the body leaves in the result window: its one store, of the product payload of the two loaded blocks. -/
def out4_2 (x0 : Vec F S10000x96 .f32) (x1 : Vec F S96x96 .f32) : Vec F S10000x96 .f32 :=
  View.canon [⟨r4_o, k4_pay1 (View.ld x0 r4_a) (View.ld x1 r4_b)⟩]

/-- The one store covers the window. -/
theorem cover4_2 (p0 : Vec F S10000x96 .f32) (y : S10000x96.Idx) :
    ∃ pc ∈ ([⟨r4_o, p0⟩] : List (View.Piece (Elt F) S10000x96 .f32)), y ∈ pc.1.set :=
  View.cover_of_tiled [⟨r4_o, p0⟩] S10000x96.size (by rfl) y

set_option maxHeartbeats 1000000 in
/-- The body on whole staging buffers: the two inputs are read and kept, the result buffer ends at `out4_2`. -/
theorem sound_kernel4 (c : Dev nD) (E : Set ℕ) (i : grid4.Coords) (arg1 : Memref sig .tc .vmem S10000x96 .f32) (harg1 : arg1.IsWhole)
    (arg2 : Memref sig .tc .vmem S96x96 .f32) (harg2 : arg2.IsWhole) (arg3 : Memref sig .tc .vmem S10000x96 .f32) (harg3 : arg3.IsWhole)
    (x0 : Vec F S10000x96 .f32) (x1 : Vec F S96x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__matmul_kernel i arg1 harg1 arg2 harg2 arg3 harg3) K := by
  simp only [cc4__matmul_kernel_eq_skeleton]; unfold cc4__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data for this call on core `c`: its arrays as found, each input window left at its block,
    the result window at `out4_2` of the two input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Region5.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 5 of the graph network: bias and rectifier on one row tile (layer 3)

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row-tile window holds its tile at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- The weight window, fetched once, still holds the whole matrix at every later point: its block index never moves. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_a : Rect S10000x96 := Rect.unit (s := S10000x96) ![0, 0] S10000x96.size inb_S10000x96_S10000x96_0_0
abbrev r5_b : Rect S1x96 := Rect.unit (s := S1x96) ![0, 0] S1x96.size inb_S1x96_S1x96_0_0
abbrev r5_o : Rect S10000x96 := Rect.unit (s := S10000x96) ![0, 0] S10000x96.size inb_S10000x96_S10000x96_0_0

/-- What the body leaves in the result window: its one store, of the product payload of the two loaded blocks. -/
def out5_2 (x0 : Vec F S10000x96 .f32) (x1 : Vec F S1x96 .f32) : Vec F S10000x96 .f32 :=
  View.canon [⟨r5_o, k5_pay1 (View.ld x0 r5_a) (View.ld x1 r5_b)⟩]

/-- The one store covers the window. -/
theorem cover5_2 (p0 : Vec F S10000x96 .f32) (y : S10000x96.Idx) :
    ∃ pc ∈ ([⟨r5_o, p0⟩] : List (View.Piece (Elt F) S10000x96 .f32)), y ∈ pc.1.set :=
  View.cover_of_tiled [⟨r5_o, p0⟩] S10000x96.size (by rfl) y

set_option maxHeartbeats 1000000 in
/-- The body on whole staging buffers: the two inputs are read and kept, the result buffer ends at `out5_2`. -/
theorem sound_kernel5 (c : Dev nD) (E : Set ℕ) (i : grid5.Coords) (arg1 : Memref sig .tc .vmem S10000x96 .f32) (harg1 : arg1.IsWhole)
    (arg2 : Memref sig .tc .vmem S1x96 .f32) (harg2 : arg2.IsWhole) (arg3 : Memref sig .tc .vmem S10000x96 .f32) (harg3 : arg3.IsWhole)
    (x0 : Vec F S10000x96 .f32) (x1 : Vec F S1x96 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data for this call on core `c`: its arrays as found, each input window left at its block,
    the result window at `out5_2` of the two input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.Region6.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 6 of the graph network: one row tile of the dense layer 4

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row-tile window holds its tile at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight window, fetched once, still holds the whole matrix at every later point: its block index never moves. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_a : Rect S10000x96 := Rect.unit (s := S10000x96) ![0, 0] S10000x96.size inb_S10000x96_S10000x96_0_0
abbrev r6_b : Rect S96x64 := Rect.unit (s := S96x64) ![0, 0] S96x64.size inb_S96x64_S96x64_0_0
abbrev r6_o : Rect S10000x64 := Rect.unit (s := S10000x64) ![0, 0] S10000x64.size inb_S10000x64_S10000x64_0_0

/-- What the body leaves in the result window: its one store, of the product payload of the two loaded blocks. -/
def out6_2 (x0 : Vec F S10000x96 .f32) (x1 : Vec F S96x64 .f32) : Vec F S10000x64 .f32 :=
  View.canon [⟨r6_o, k6_pay1 (View.ld x0 r6_a) (View.ld x1 r6_b)⟩]

/-- The one store covers the window. -/
theorem cover6_2 (p0 : Vec F S10000x64 .f32) (y : S10000x64.Idx) :
    ∃ pc ∈ ([⟨r6_o, p0⟩] : List (View.Piece (Elt F) S10000x64 .f32)), y ∈ pc.1.set :=
  View.cover_of_tiled [⟨r6_o, p0⟩] S10000x64.size (by rfl) y

set_option maxHeartbeats 1000000 in
/-- The body on whole staging buffers: the two inputs are read and kept, the result buffer ends at `out6_2`. -/
theorem sound_kernel6 (c : Dev nD) (E : Set ℕ) (i : grid6.Coords) (arg1 : Memref sig .tc .vmem S10000x96 .f32) (harg1 : arg1.IsWhole)
    (arg2 : Memref sig .tc .vmem S96x64 .f32) (harg2 : arg2.IsWhole) (arg3 : Memref sig .tc .vmem S10000x64 .f32) (harg3 : arg3.IsWhole)
    (x0 : Vec F S10000x96 .f32) (x1 : Vec F S96x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data for this call on core `c`: its arrays as found, each input window left at its block,
    the result window at `out6_2` of the two input blocks. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Region7.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Pallas call 7 of the graph network: bias on one row tile (layer 4, no rectifier)

The same memory shape as call 0 (two input windows, one result window stored once, whole): the window blocks,
the result window's contents after the body, the body's triple, the proof data and the body obligation.
-/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The row-tile window holds its tile at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- The weight window, fetched once, still holds the whole matrix at every later point: its block index never moves. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_a : Rect S10000x64 := Rect.unit (s := S10000x64) ![0, 0] S10000x64.size inb_S10000x64_S10000x64_0_0
abbrev r7_b : Rect S1x64 := Rect.unit (s := S1x64) ![0, 0] S1x64.size inb_S1x64_S1x64_0_0
abbrev r7_o : Rect S10000x64 := Rect.unit (s := S10000x64) ![0, 0] S10000x64.size inb_S10000x64_S10000x64_0_0

/-- What the body leaves in the result window: its one store, of the product payload of the two loaded blocks. -/
def out7_2 (x0 : Vec F S10000x64 .f32) (x1 : Vec F S1x64 .f32) : Vec F S10000x64 .f32 :=
  View.canon [⟨r7_o, k7_pay1 (View.ld x0 r7_a) (View.ld x1 r7_b)⟩]

/-- The one store covers the window. -/
theorem cover7_2 (p0 : Vec F S10000x64 .f32) (y : S10000x64.Idx) :
    ∃ pc ∈ ([⟨r7_o, p0⟩] : List (View.Piece (Elt F) S10000x64 .f32)), y ∈ pc.1.set :=
  View.cover_of_tiled [⟨r7_o, p0⟩] S10000x64.size (by rfl) y

set_option maxHeartbeats 1000000 in
/-- The body on whole staging buffers: the two inputs are read and kept, the result buffer ends at `out7_2`. -/
theorem sound_kernel7 (c : Dev nD) (E : Set ℕ) (i : grid7.Coords) (arg1 : Memref sig .tc .vmem S10000x64 .f32) (harg1 : arg1.IsWhole)
    (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__bias_act_kernel i arg1 harg1 arg2 harg2 arg3 harg3) K := by
  simp only [cc7__bias_act_kernel_eq_skeleton]; unfold cc7__bias_act_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data for this call on core `c`: its arrays as found, each input window left at its block,
    the result window at `out7_2` of the two input blocks. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

end Cert.KernelIdeal.Fr

end
-- ==== Proof.KI.Region8.lean ====
import proofs.«400805_j35450660061449_1_alg».proof.Proof.Gen.KernelIdeal.Launch
import proofs.«400805_j35450660061449_1_alg».proof.Proof.Gen.KernelIdeal.Skeleton
import proofs.«400805_j35450660061449_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_1 (i : grid8.Coords) : Prop := (Scalar.cmpi .ne (Scalar.extui (Scalar.cmpi .eq (BitVec.ofNat 32 (i 0).val) 0#32)) 0#32) = 1#1

abbrev cond8_2 (i : grid8.Coords) : Prop := k8_cond2 i = 1#1

theorem hcond8_1 : ∀ t : Fin cfg8.N, cond8_1 (grid8.coords t) ↔ t.val = 0 :=
  (by decide +kernel : ∀ t : Fin grid8.N, cond8_1 (grid8.coords t) ↔ t.val = 0)

theorem hcond8_2 : ∀ t : Fin cfg8.N, cond8_2 (grid8.coords t) ↔ t.val = 4 :=
  (by decide +kernel : ∀ t : Fin grid8.N, cond8_2 (grid8.coords t) ↔ t.val = 4)

theorem lt8_4 : 4 < cfg8.N := by have : cfg8.N = 5 := N_8; omega

theorem hz8 : (![0, 0] : Fin 2 → Nat) = fun _ => 0 := funext fun a => by fin_cases a <;> rfl

abbrev r8_s : Rect S64x65 := Rect.unit (s := S64x65) ![0, 0] S64x65.size inb_S64x65_S64x65_0_0

abbrev r8_o : Rect S64x64 := Rect.unit (s := S64x64) ![0, 0] S64x64.size inb_S64x64_S64x64_0_0

abbrev r8_sl : Rect S64x65 := Rect.unit (s := S64x65) ![0, 0] S64x64.size inb_S64x65_S64x64_0_0

abbrev r8_sc : Rect S64x65 := Rect.unit (s := S64x65) ![0, 64] S64x1.size inb_S64x65_S64x1_0_64

theorem cover8_s (p : Vec F S64x65 .f32) (L : List (View.Piece (Elt F) S64x65 .f32)) (y : S64x65.Idx) :
    ∃ pc ∈ ((⟨r8_s, p⟩ : View.Piece (Elt F) S64x65 .f32) :: L), y ∈ pc.1.set :=
  ⟨_, List.mem_cons_self, View.mem_set_unit_zero (S := S64x65) hz8 inb_S64x65_S64x65_0_0 y⟩

theorem cover8_o (p : Vec F S64x64 .f32) (L : List (View.Piece (Elt F) S64x64 .f32)) (y : S64x64.Idx) :
    ∃ pc ∈ ((⟨r8_o, p⟩ : View.Piece (Elt F) S64x64 .f32) :: L), y ∈ pc.1.set :=
  ⟨_, List.mem_cons_self, View.mem_set_unit_zero (S := S64x64) hz8 inb_S64x64_S64x64_0_0 y⟩

set_option maxHeartbeats 1000000 in

theorem sound_kernel8_A (c : Dev nD) (E : Set ℕ) (i : grid8.Coords) (hc1 : cond8_1 i) (hc2 : ¬cond8_2 i)
    (arg1 : Memref sig .tc .vmem S10000x64 .f32) (harg1 : arg1.IsWhole)
    (arg2 : Memref sig .tc .vmem S10000x1 .i32) (harg2 : arg2.IsWhole) (arg3 : Memref sig .tc .vmem S64x64 .f32) (harg3 : arg3.IsWhole)
    (arg4 : Memref sig .tc .vmem S64x65 .f32) (harg4 : arg4.IsWhole)
    (x0 : Vec F S10000x64 .f32) (x1 : Vec F S10000x1 .i32) (xo : Vec F S64x64 .f32) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k8_pay2 x1 x0 (k8_pay1 (F := F)))) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover8_s _ _)]
  rw [View.canon_cons_unit_zero (S := S64x65) hz8]
  simp only [View.readAt_eq_ld, View.ld_unit_zero (S := S10000x1) hz8, View.ld_unit_zero (S := S10000x64) hz8,
    View.ld_unit_zero (S := S64x65) hz8, View.readCov_unit_zero (S := S64x65) _ hz8]

set_option maxHeartbeats 1000000 in

theorem sound_kernel8_B (c : Dev nD) (E : Set ℕ) (i : grid8.Coords) (hc1 : ¬cond8_1 i) (hc2 : ¬cond8_2 i)
    (arg1 : Memref sig .tc .vmem S10000x64 .f32) (harg1 : arg1.IsWhole)
    (arg2 : Memref sig .tc .vmem S10000x1 .i32) (harg2 : arg2.IsWhole) (arg3 : Memref sig .tc .vmem S64x64 .f32) (harg3 : arg3.IsWhole)
    (arg4 : Memref sig .tc .vmem S64x65 .f32) (harg4 : arg4.IsWhole)
    (x0 : Vec F S10000x64 .f32) (x1 : Vec F S10000x1 .i32) (xo : Vec F S64x64 .f32) (xs : Vec F S64x65 .f32) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k8_pay2 x1 x0 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover8_s _ _)]
  rw [View.canon_cons_unit_zero (S := S64x65) hz8]
  simp only [View.readAt_eq_ld, View.ld_unit_zero (S := S10000x1) hz8, View.ld_unit_zero (S := S10000x64) hz8,
    View.ld_unit_zero (S := S64x65) hz8, View.readCov_unit_zero (S := S64x65) _ hz8]

set_option maxHeartbeats 4000000 in

theorem sound_kernel8_C (c : Dev nD) (E : Set ℕ) (i : grid8.Coords) (hc1 : ¬cond8_1 i) (hc2 : cond8_2 i)
    (arg1 : Memref sig .tc .vmem S10000x64 .f32) (harg1 : arg1.IsWhole)
    (arg2 : Memref sig .tc .vmem S10000x1 .i32) (harg2 : arg2.IsWhole) (arg3 : Memref sig .tc .vmem S64x64 .f32) (harg3 : arg3.IsWhole)
    (arg4 : Memref sig .tc .vmem S64x65 .f32) (harg4 : arg4.IsWhole)
    (x0 : Vec F S10000x64 .f32) (x1 : Vec F S10000x1 .i32) (xs : Vec F S64x65 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k8_pay3 (View.ld (k8_pay2 x1 x0 xs) r8_sl) (View.ld (k8_pay2 x1 x0 xs) r8_sc))
            ∗ owns (c : Thread nD τ) arg4 fullShare (k8_pay2 x1 x0 xs)) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover8_o _ _)]
    rw [View.canon_cons_unit_zero (S := S64x64) hz8]
    rw [View.readCov_eq_canon_ld _ _ r8_sl (cover8_s _ _), View.readCov_eq_canon_ld _ _ r8_sc (cover8_s _ _)]
    rw [View.canon_unit_zero (S := S64x65) hz8]
    simp only [View.readAt_eq_ld, View.ld_unit_zero (S := S10000x1) hz8, View.ld_unit_zero (S := S10000x64) hz8,
      View.ld_unit_zero (S := S64x65) hz8]
  iexists _; isplitr
  swap; · iexact H3
  ipureintro
  sl_unfold_words
  rw [View.read_writes_eq_canon _ _ _ (cover8_s _ _)]
  rw [View.canon_cons_unit_zero (S := S64x65) hz8]
  simp only [View.readAt_eq_ld, View.ld_unit_zero (S := S10000x1) hz8, View.ld_unit_zero (S := S10000x64) hz8,
    View.ld_unit_zero (S := S64x65) hz8, View.readCov_unit_zero (S := S64x65) _ hz8]

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev hblk8 (c : Dev nD) (t : Fin cfg8.N) : Vec F S10000x64 .f32 := iblk8 V c 0 t

abbrev gblk8 (c : Dev nD) (t : Fin cfg8.N) : Vec F S10000x1 .i32 := iblk8 V c 1 t

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem liveAt8_0 : ∀ t : Fin cfg8.N, cfg8.idle 0 (grid8.coords t) = false := by decide +kernel
theorem liveAt8_1 : ∀ t : Fin cfg8.N, cfg8.idle 1 (grid8.coords t) = false := by decide +kernel

theorem idleAt8_2 : ∀ t : Fin cfg8.N, ¬cond8_2 (grid8.coords t) → cfg8.idle 2 (grid8.coords t) = true := by decide +kernel
theorem noFlush8_2 : ∀ t : Fin cfg8.N, ¬cond8_2 (grid8.coords t) → (cfg8.win 2).flush t = false := by decide +kernel
theorem liveAt8_2 : ∀ t : Fin cfg8.N, cond8_2 (grid8.coords t) → cfg8.idle 2 (grid8.coords t) = false := by decide +kernel

def acc8 (c : Dev nD) : (n : ℕ) → n < cfg8.N → Vec F S64x65 .f32
  | 0, hn => k8_pay2 (gblk8 V c ⟨0, hn⟩) (hblk8 V c ⟨0, hn⟩) (k8_pay1 (F := F))
  | n + 1, hn => k8_pay2 (gblk8 V c ⟨n + 1, hn⟩) (hblk8 V c ⟨n + 1, hn⟩) (acc8 c n (Nat.lt_of_succ_lt hn))

theorem acc8_zero (c : Dev nD) (hn : 0 < cfg8.N) :
    acc8 V c 0 hn = k8_pay2 (gblk8 V c ⟨0, hn⟩) (hblk8 V c ⟨0, hn⟩) (k8_pay1 (F := F)) := rfl

theorem acc8_succ (c : Dev nD) (n : ℕ) (hn : n + 1 < cfg8.N) :
    acc8 V c (n + 1) hn = k8_pay2 (gblk8 V c ⟨n + 1, hn⟩) (hblk8 V c ⟨n + 1, hn⟩) (acc8 V c n (Nat.lt_of_succ_lt hn)) := rfl

theorem acc8_first (c : Dev nD) (t : Fin cfg8.N) (h0 : t.val = 0) :
    acc8 V c t.val t.isLt = k8_pay2 (gblk8 V c t) (hblk8 V c t) (k8_pay1 (F := F)) := by
  obtain ⟨n, hn⟩ := t
  cases n with
  | zero => rfl
  | succ n => exact absurd h0 (Nat.succ_ne_zero n)

theorem acc8_pos (c : Dev nD) (t : Fin cfg8.N) (h0 : t.val ≠ 0) :
    acc8 V c t.val t.isLt = k8_pay2 (gblk8 V c t) (hblk8 V c t) (acc8 V c (t.val - 1) (Nat.lt_of_le_of_lt (Nat.sub_le _ _) t.isLt)) := by
  obtain ⟨n, hn⟩ := t
  cases n with
  | zero => exact absurd rfl h0
  | succ n => rfl

def out8 (c : Dev nD) (t : Fin cfg8.N) : Vec F S64x64 .f32 :=
  k8_pay3 (View.ld (acc8 V c t.val t.isLt) r8_sl) (View.ld (acc8 V c t.val t.isLt) r8_sc)

abbrev scM8 : Memref sig .tc .vmem S64x65 .f32 := Memref.whole cc8_scratch0

theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0]) ∗ (∃ r, prngReg c r)) := by
  unfold Pipeline.ΦA; rw [scopedRest8_split]; simp only [scM8, owns_whole]; try rfl

def PhiS8 (c : Dev nD) : (n : ℕ) → n ≤ cfg8.N → sProp 𝕄
  | 0, _ => Pipeline.ΦA spec8 c
  | n + 1, hn => iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8 fullShare (acc8 V c n hn)
      ∗ Pipeline.scopedRestBut (Ix := Unit) (Name := ℕ) (U := UR sig nD τ) (Lvl := ℕ) (Val := Elt F) spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8 fullShare (acc8 V c (n - 1) (by omega))
      ∗ Pipeline.scopedRestBut (Ix := Unit) (Name := ℕ) (U := UR sig nD τ) (Lvl := ℕ) (Val := Elt F) spec8 c [cc8_scratch0]) ∗ (∃ r, prngReg c r)) := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8 V c t
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]

theorem after8_2_at (c : Dev nD) (t : Fin cfg8.N) :
    (dat8 V c).after 2 t = k8_pay3 (View.ld (acc8 V c t.val t.isLt) r8_sl) (View.ld (acc8 V c t.val t.isLt) r8_sc) := by
  dsimp only [dat8, out8]

theorem after8_2 (c : Dev nD) (t : Fin cfg8.N) (h4 : t.val = 4) :
    (dat8 V c).after 2 t = k8_pay3 (View.ld (acc8 V c 4 lt8_4) r8_sl) (View.ld (acc8 V c 4 lt8_4) r8_sc) := by
  rw [after8_2_at]
  obtain ⟨n, hn⟩ := t
  have h4' : n = 4 := h4
  subst h4'; rfl

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

set_option maxHeartbeats 4800000 in

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).owesAt () t.succ = (dat8 V c).owesAt () t.castSucc from rfl]
  rw [show (dat8 V c).Φ t.succ = PhiS8 V c (t.val + 1) t.isLt from rfl, PhiS8_succ]
  have hN : t.val < 5 := lt_of_lt_of_eq t.isLt (show cfg8.N = 5 from N_8)
  rw [show (dat8 V c).leavesExact 0 t = owns (c : Thread nD τ) (st8_0 t) fullShare ((dat8 V c).after 0 t) from by
    unfold Dat.leavesExact; rw [liveAt8_0 t], after8_0]
  rw [show (dat8 V c).leavesExact 1 t = owns (c : Thread nD τ) (st8_1 t) fullShare ((dat8 V c).after 1 t) from by
    unfold Dat.leavesExact; rw [liveAt8_1 t], after8_1]
  by_cases h0 : t.val = 0
  · have h4 : ¬t.val = 4 := by omega
    have hc1 : cond8_1 (grid8.coords t) := (hcond8_1 t).mpr h0
    have hc2 : ¬cond8_2 (grid8.coords t) := fun h => h4 ((hcond8_2 t).mp h)
    rw [Dat.leavesExact_idle (dat8 V c) 2 t (idleAt8_2 t hc2) (noFlush8_2 t hc2)]
    rw [acc8_first V c t h0]
    rw [PhiS8_castSucc V c t, PhiS8_zero V c _ _ h0, PhiA8_eq]
    iintro ⟨⟨⟨HS, HR⟩, Hg⟩, Ho, ⟨%d0, H0⟩, ⟨%d1, H1⟩, ⟨%d2, H2⟩⟩
    iapply (sound_kernel8_A c Set.univ (grid8.coords t) hc1 hc2 _ _ _ _ _ _ _ _ (hblk8 V c t) (gblk8 V c t) ((dat8 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hc1 : ¬cond8_1 (grid8.coords t) := fun h => h0 ((hcond8_1 t).mp h)
    rw [acc8_pos V c t h0]
    rw [PhiS8_castSucc V c t, PhiS8_pos V c _ _ h0]
    by_cases h4 : t.val = 4
    · have hc2 : cond8_2 (grid8.coords t) := (hcond8_2 t).mpr h4
      rw [show (dat8 V c).leavesExact 2 t = owns (c : Thread nD τ) (st8_2 t) fullShare ((dat8 V c).after 2 t) from by
        unfold Dat.leavesExact; rw [liveAt8_2 t hc2], after8_2_at]
      rw [acc8_pos V c t h0]
      iintro ⟨⟨⟨HS, HR⟩, Hg⟩, Ho, ⟨%d0, H0⟩, ⟨%d1, H1⟩, ⟨%d2, H2⟩⟩
      iapply (sound_kernel8_C c Set.univ (grid8.coords t) hc1 hc2 _ _ _ _ _ _ _ _ (hblk8 V c t) (gblk8 V c t)
        (acc8 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have hc2 : ¬cond8_2 (grid8.coords t) := fun h => h4 ((hcond8_2 t).mp h)
      rw [Dat.leavesExact_idle (dat8 V c) 2 t (idleAt8_2 t hc2) (noFlush8_2 t hc2)]
      iintro ⟨⟨⟨HS, HR⟩, Hg⟩, Ho, ⟨%d0, H0⟩, ⟨%d1, H1⟩, ⟨%d2, H2⟩⟩
      iapply (sound_kernel8_B c Set.univ (grid8.coords t) hc1 hc2 _ _ _ _ _ _ _ _ (hblk8 V c t) (gblk8 V c t) ((dat8 V c).before 2 t d2)
        (acc8 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation8 (c : Dev nD) : BodyObligation (dat8 (F := F) V c) (defs₀ (F := F)) Variants.none () Set.univ := fun t => by
  rw [bigSep_W8, bigSep_W8]
  exact sound_body8 V c t

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS, HR⟩, Hg⟩
  isplitl [HS HR]
  · isplitl [HS]
    · iexists _; iexact HS
    iexact HR
  iexact Hg

theorem hout8 (c : Dev nD) : (dat8 V c).Φ (Fin.last cfg8.N) ⊢ Pipeline.ΦA spec8 c :=
  Phi_out8 V c _ (by rw [Fin.val_last]; have : cfg8.N = 5 := N_8; omega)

end Cert.KernelIdeal.Fr

end
-- ==== Proof.KI.Vals.lean ====
import proofs.«400805_j35450660061449_1_alg».proof.Proof.KI.Region0
import proofs.«400805_j35450660061449_1_alg».proof.Proof.KI.Region1
import proofs.«400805_j35450660061449_1_alg».proof.Proof.KI.Region2
import proofs.«400805_j35450660061449_1_alg».proof.Proof.KI.Region3
import proofs.«400805_j35450660061449_1_alg».proof.Proof.KI.Region4
import proofs.«400805_j35450660061449_1_alg».proof.Proof.KI.Region5
import proofs.«400805_j35450660061449_1_alg».proof.Proof.KI.Region6
import proofs.«400805_j35450660061449_1_alg».proof.Proof.KI.Region7
import proofs.«400805_j35450660061449_1_alg».proof.Proof.KI.Region8
import proofs.«400805_j35450660061449_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev We0 : Dev nD → Valuation τ sig (Elt F) := fun c => StableHlo.after hostOps0_1 (StableHlo.after hostOps0 (W0 m ρ c))
abbrev Ve0 : (c : Dev nD) → (b : Ref sig .tc) → Buf (Elt F) ((c : Thread nD τ).loc b) := fun c b => We0 m ρ c b

def Wx0 (c : Dev nD) : Valuation τ sig (Elt F) :=
  Pipeline.withArrays spec0 c (We0 m ρ c) fun w => (dat0 (Ve0 m ρ) c).arrAt w cfg0.N
theorem Wx0_arr (c : Dev nD) (w : Fin cfg0.W) :
    Wx0 m ρ c (Proc.devRef .tc (Pipeline.arrRef spec0 w)) = (dat0 (Ve0 m ρ) c).arrAt w cfg0.N := by
  unfold Wx0; exact Pipeline.withArrays_arr spec0 launch0.win.arr_inj c _ _ w
theorem Wx0_of_ne (c : Dev nD) (b : Ref sig .tc) (hb : ∀ w, Pipeline.arrRef spec0 w ≠ b) :
    Wx0 m ρ c (Proc.devRef .tc b) = We0 m ρ c (Proc.devRef .tc b) := by
  unfold Wx0; exact Pipeline.withArrays_of_ne spec0 c _ _ b hb
abbrev We1 : Dev nD → Valuation τ sig (Elt F) := fun c => StableHlo.after hostOps1 (Wx0 m ρ c)
abbrev Ve1 : (c : Dev nD) → (b : Ref sig .tc) → Buf (Elt F) ((c : Thread nD τ).loc b) := fun c b => We1 m ρ c b

def Wx1 (c : Dev nD) : Valuation τ sig (Elt F) :=
  Pipeline.withArrays spec1 c (We1 m ρ c) fun w => (dat1 (Ve1 m ρ) c).arrAt w cfg1.N
theorem Wx1_arr (c : Dev nD) (w : Fin cfg1.W) :
    Wx1 m ρ c (Proc.devRef .tc (Pipeline.arrRef spec1 w)) = (dat1 (Ve1 m ρ) c).arrAt w cfg1.N := by
  unfold Wx1; exact Pipeline.withArrays_arr spec1 launch1.win.arr_inj c _ _ w
theorem Wx1_of_ne (c : Dev nD) (b : Ref sig .tc) (hb : ∀ w, Pipeline.arrRef spec1 w ≠ b) :
    Wx1 m ρ c (Proc.devRef .tc b) = We1 m ρ c (Proc.devRef .tc b) := by
  unfold Wx1; exact Pipeline.withArrays_of_ne spec1 c _ _ b hb
abbrev We2 : Dev nD → Valuation τ sig (Elt F) := fun c => Wx1 m ρ c
abbrev Ve2 : (c : Dev nD) → (b : Ref sig .tc) → Buf (Elt F) ((c : Thread nD τ).loc b) := fun c b => We2 m ρ c b

def Wx2 (c : Dev nD) : Valuation τ sig (Elt F) :=
  Pipeline.withArrays spec2 c (We2 m ρ c) fun w => (dat2 (Ve2 m ρ) c).arrAt w cfg2.N
theorem Wx2_arr (c : Dev nD) (w : Fin cfg2.W) :
    Wx2 m ρ c (Proc.devRef .tc (Pipeline.arrRef spec2 w)) = (dat2 (Ve2 m ρ) c).arrAt w cfg2.N := by
  unfold Wx2; exact Pipeline.withArrays_arr spec2 launch2.win.arr_inj c _ _ w
theorem Wx2_of_ne (c : Dev nD) (b : Ref sig .tc) (hb : ∀ w, Pipeline.arrRef spec2 w ≠ b) :
    Wx2 m ρ c (Proc.devRef .tc b) = We2 m ρ c (Proc.devRef .tc b) := by
  unfold Wx2; exact Pipeline.withArrays_of_ne spec2 c _ _ b hb
abbrev We3 : Dev nD → Valuation τ sig (Elt F) := fun c => StableHlo.after hostOps3 (Wx2 m ρ c)
abbrev Ve3 : (c : Dev nD) → (b : Ref sig .tc) → Buf (Elt F) ((c : Thread nD τ).loc b) := fun c b => We3 m ρ c b

def Wx3 (c : Dev nD) : Valuation τ sig (Elt F) :=
  Pipeline.withArrays spec3 c (We3 m ρ c) fun w => (dat3 (Ve3 m ρ) c).arrAt w cfg3.N
theorem Wx3_arr (c : Dev nD) (w : Fin cfg3.W) :
    Wx3 m ρ c (Proc.devRef .tc (Pipeline.arrRef spec3 w)) = (dat3 (Ve3 m ρ) c).arrAt w cfg3.N := by
  unfold Wx3; exact Pipeline.withArrays_arr spec3 launch3.win.arr_inj c _ _ w
theorem Wx3_of_ne (c : Dev nD) (b : Ref sig .tc) (hb : ∀ w, Pipeline.arrRef spec3 w ≠ b) :
    Wx3 m ρ c (Proc.devRef .tc b) = We3 m ρ c (Proc.devRef .tc b) := by
  unfold Wx3; exact Pipeline.withArrays_of_ne spec3 c _ _ b hb
abbrev We4 : Dev nD → Valuation τ sig (Elt F) := fun c => Wx3 m ρ c
abbrev Ve4 : (c : Dev nD) → (b : Ref sig .tc) → Buf (Elt F) ((c : Thread nD τ).loc b) := fun c b => We4 m ρ c b

def Wx4 (c : Dev nD) : Valuation τ sig (Elt F) :=
  Pipeline.withArrays spec4 c (We4 m ρ c) fun w => (dat4 (Ve4 m ρ) c).arrAt w cfg4.N
theorem Wx4_arr (c : Dev nD) (w : Fin cfg4.W) :
    Wx4 m ρ c (Proc.devRef .tc (Pipeline.arrRef spec4 w)) = (dat4 (Ve4 m ρ) c).arrAt w cfg4.N := by
  unfold Wx4; exact Pipeline.withArrays_arr spec4 launch4.win.arr_inj c _ _ w
theorem Wx4_of_ne (c : Dev nD) (b : Ref sig .tc) (hb : ∀ w, Pipeline.arrRef spec4 w ≠ b) :
    Wx4 m ρ c (Proc.devRef .tc b) = We4 m ρ c (Proc.devRef .tc b) := by
  unfold Wx4; exact Pipeline.withArrays_of_ne spec4 c _ _ b hb
abbrev We5 : Dev nD → Valuation τ sig (Elt F) := fun c => StableHlo.after hostOps5 (Wx4 m ρ c)
abbrev Ve5 : (c : Dev nD) → (b : Ref sig .tc) → Buf (Elt F) ((c : Thread nD τ).loc b) := fun c b => We5 m ρ c b

def Wx5 (c : Dev nD) : Valuation τ sig (Elt F) :=
  Pipeline.withArrays spec5 c (We5 m ρ c) fun w => (dat5 (Ve5 m ρ) c).arrAt w cfg5.N
theorem Wx5_arr (c : Dev nD) (w : Fin cfg5.W) :
    Wx5 m ρ c (Proc.devRef .tc (Pipeline.arrRef spec5 w)) = (dat5 (Ve5 m ρ) c).arrAt w cfg5.N := by
  unfold Wx5; exact Pipeline.withArrays_arr spec5 launch5.win.arr_inj c _ _ w
theorem Wx5_of_ne (c : Dev nD) (b : Ref sig .tc) (hb : ∀ w, Pipeline.arrRef spec5 w ≠ b) :
    Wx5 m ρ c (Proc.devRef .tc b) = We5 m ρ c (Proc.devRef .tc b) := by
  unfold Wx5; exact Pipeline.withArrays_of_ne spec5 c _ _ b hb
abbrev We6 : Dev nD → Valuation τ sig (Elt F) := fun c => Wx5 m ρ c
abbrev Ve6 : (c : Dev nD) → (b : Ref sig .tc) → Buf (Elt F) ((c : Thread nD τ).loc b) := fun c b => We6 m ρ c b

def Wx6 (c : Dev nD) : Valuation τ sig (Elt F) :=
  Pipeline.withArrays spec6 c (We6 m ρ c) fun w => (dat6 (Ve6 m ρ) c).arrAt w cfg6.N
theorem Wx6_arr (c : Dev nD) (w : Fin cfg6.W) :
    Wx6 m ρ c (Proc.devRef .tc (Pipeline.arrRef spec6 w)) = (dat6 (Ve6 m ρ) c).arrAt w cfg6.N := by
  unfold Wx6; exact Pipeline.withArrays_arr spec6 launch6.win.arr_inj c _ _ w
theorem Wx6_of_ne (c : Dev nD) (b : Ref sig .tc) (hb : ∀ w, Pipeline.arrRef spec6 w ≠ b) :
    Wx6 m ρ c (Proc.devRef .tc b) = We6 m ρ c (Proc.devRef .tc b) := by
  unfold Wx6; exact Pipeline.withArrays_of_ne spec6 c _ _ b hb
abbrev We7 : Dev nD → Valuation τ sig (Elt F) := fun c => StableHlo.after hostOps7 (Wx6 m ρ c)
abbrev Ve7 : (c : Dev nD) → (b : Ref sig .tc) → Buf (Elt F) ((c : Thread nD τ).loc b) := fun c b => We7 m ρ c b

def Wx7 (c : Dev nD) : Valuation τ sig (Elt F) :=
  Pipeline.withArrays spec7 c (We7 m ρ c) fun w => (dat7 (Ve7 m ρ) c).arrAt w cfg7.N
theorem Wx7_arr (c : Dev nD) (w : Fin cfg7.W) :
    Wx7 m ρ c (Proc.devRef .tc (Pipeline.arrRef spec7 w)) = (dat7 (Ve7 m ρ) c).arrAt w cfg7.N := by
  unfold Wx7; exact Pipeline.withArrays_arr spec7 launch7.win.arr_inj c _ _ w
theorem Wx7_of_ne (c : Dev nD) (b : Ref sig .tc) (hb : ∀ w, Pipeline.arrRef spec7 w ≠ b) :
    Wx7 m ρ c (Proc.devRef .tc b) = We7 m ρ c (Proc.devRef .tc b) := by
  unfold Wx7; exact Pipeline.withArrays_of_ne spec7 c _ _ b hb
abbrev We8 : Dev nD → Valuation τ sig (Elt F) := fun c => StableHlo.after hostOps8 (Wx7 m ρ c)
abbrev Ve8 : (c : Dev nD) → (b : Ref sig .tc) → Buf (Elt F) ((c : Thread nD τ).loc b) := fun c b => We8 m ρ c b

def Wx8 (c : Dev nD) : Valuation τ sig (Elt F) :=
  Pipeline.withArrays spec8 c (We8 m ρ c) fun w => (dat8 (Ve8 m ρ) c).arrAt w cfg8.N
theorem Wx8_arr (c : Dev nD) (w : Fin cfg8.W) :
    Wx8 m ρ c (Proc.devRef .tc (Pipeline.arrRef spec8 w)) = (dat8 (Ve8 m ρ) c).arrAt w cfg8.N := by
  unfold Wx8; exact Pipeline.withArrays_arr spec8 launch8.win.arr_inj c _ _ w
end Cert.KernelIdeal.Fr

end
-- ==== Proof.KI.Data.lean ====
import proofs.«400805_j35450660061449_1_alg».proof.Proof.KI.Vals

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 9) → (pcfgs (F := F) p).Adm := fun p => (cfgs p).toPCfg_adm

def pdats : (p : Fin 9) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
  | ⟨3, _⟩ => fun c => dat3 (Ve3 m ρ) c
  | ⟨4, _⟩ => fun c => dat4 (Ve4 m ρ) c
  | ⟨5, _⟩ => fun c => dat5 (Ve5 m ρ) c
  | ⟨6, _⟩ => fun c => dat6 (Ve6 m ρ) c
  | ⟨7, _⟩ => fun c => dat7 (Ve7 m ρ) c
  | ⟨8, _⟩ => fun c => dat8 (Ve8 m ρ) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Fr

end
-- ==== Proof.KI.Seg.lean ====
import proofs.«400805_j35450660061449_1_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Call `p` as a segment of @main, entered with the unscoped buffers at `We` and left with them at `Wx`, which is
    `We` but for the call's arrays: the arrays are split out on entry and put back on exit, the generator register
    goes through the call's invariant, nothing is owed and the kernel has no semaphore of its own. -/
def regOf (p : Fin 9) (lf : Pipeline.LaunchFacts (nD := nD) (τ := τ) cfgs p) (We Wx : Dev nD → Valuation τ sig (Elt F))
    (hWx : ∀ c, Wx c = Pipeline.withArrays (pcfgs (F := F) p).spec c (We c) fun w => (pdats m ρ p c).arrAt w (Pipeline.pin (pcfgs (F := F)) adm p).N)
    (hbody : ∀ c, BodyObligation (pdats m ρ p c) (defs₀ (F := F)) Variants.none () Set.univ)
    (hq : ∀ c w, (pdats m ρ p c).q w = fullShare)
    (hA : ∀ c w, (pdats m ρ p c).A w = We c (Pipeline.arrRef (pcfgs (F := F) p).spec w))
    (howed : ∀ c t, (pdats m ρ p c).owed t = 0) (hrec : ∀ c x, x ∈ (pdats m ρ p c).recorded 0)
    (hin : ∀ c, iprop(Pipeline.scopedRest (pcfgs (F := F) p).spec c ∗ ∃ r, prngReg c r) ⊢ (pdats m ρ p c).Φ 0)
    (hout : ∀ c, (pdats m ρ p c).Φ (Fin.last _) ⊢ iprop(Pipeline.scopedRest (pcfgs (F := F) p).spec c ∗ ∃ r, prngReg c r)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (We c) ∗ R c)
  post c := iprop(StableHlo.held (c : Thread nD τ) (Pipeline.ucRefs τ sig) (Wx c) ∗ R c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => We c b)
  hentry c := by
    rw [Pipeline.ownSems0_none]
    have hsplit := Pipeline.arrays_of_unscopedBufs (p := p) (pcfgs (F := F)) adm (pdats m ρ) lf.win lf.arr_whole c
      ((pdats m ρ p c).share_full (hq c)) (fun b => We c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun x _ => Or.inl (hrec c x)
      iexact HO
    isplitl [Hp]; · iexact Hp
    iexact Hrest
  hin c := by
    iintro ⟨Hp, -, Hr⟩
    iapply (hin c)
    isplitl [Hr]; · iexact Hr
    iexact Hp
  hout c := by
    rw [Pipeline.ownSems0_none]
    have hsplit : (iprop(Pipeline.scopedRest (pcfgs (F := F) p).spec c ∗ ∃ r, prngReg c r) : sProp 𝕄)
        ⊢ iprop((∃ r, prngReg c r) ∗ emp ∗ Pipeline.scopedRest (pcfgs (F := F) p).spec c) := by
      iintro ⟨Hr, Hp⟩
      isplitl [Hp]; · iexact Hp
      isplitr; · iempintro
      iexact Hr
    exact (hout c).trans hsplit
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => We c b) (fun b => Wx c b) ((pdats m ρ p c).arrAt · (Pipeline.pin (pcfgs (F := F)) adm p).N)
      (fun w => ((congrFun (hWx c) _).trans (Pipeline.withArrays_arr _ lf.win.arr_inj c _ _ w)).symm)
      (fun b hb => (congrFun (hWx c) _).trans (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

/-- A buffer that is no result array of call `p` is left by the call as it was entered: the call's input arrays are
    put back unchanged, and nothing else is touched. -/
theorem keep_of (p : Fin 9) (lf : Pipeline.LaunchFacts (nD := nD) (τ := τ) cfgs p) (We Wx : Dev nD → Valuation τ sig (Elt F))
    (hWx : ∀ c, Wx c = Pipeline.withArrays (pcfgs (F := F) p).spec c (We c) fun w => (pdats m ρ p c).arrAt w (Pipeline.pin (pcfgs (F := F)) adm p).N)
    (hA : ∀ c w, (pdats m ρ p c).A w = We c (Pipeline.arrRef (pcfgs (F := F) p).spec w)) (c : Dev nD) (b : Ref sig .tc)
    (hb : ∀ w, ((Pipeline.pin (pcfgs (F := F)) adm p).win w).isOut = true → Pipeline.arrRef (pcfgs (F := F) p).spec w ≠ b) :
    Wx c (Proc.devRef .tc b) = We c (Proc.devRef .tc b) := by
  rw [hWx c]
  by_cases h : ∃ w, Pipeline.arrRef (pcfgs (F := F) p).spec w = b
  · obtain ⟨w, rfl⟩ := h
    have hin : ((Pipeline.pin (pcfgs (F := F)) adm p).win w).isOut = false := by
      cases hw : ((Pipeline.pin (pcfgs (F := F)) adm p).win w).isOut
      · rfl
      · exact absurd rfl (hb w hw)
    exact (Pipeline.withArrays_arr _ lf.win.arr_inj c _ _ w).trans (((pdats m ρ p c).arrAt_in w hin _).trans (hA c w))
  · exact Pipeline.withArrays_of_ne _ c _ _ b fun w e => h ⟨w, e⟩

def reg0 := regOf m ρ 0 launch0 (We0 m ρ) (Wx0 m ρ) (fun _ => rfl) (body_obligation0 (Ve0 m ρ)) (fun _ _ => rfl) (fun _ _ => rfl)
  (fun _ _ => rfl) (fun _ _ => trivial) (fun _ => .rfl) (fun _ => .rfl)
def reg1 := regOf m ρ 1 launch1 (We1 m ρ) (Wx1 m ρ) (fun _ => rfl) (body_obligation1 (Ve1 m ρ)) (fun _ _ => rfl) (fun _ _ => rfl)
  (fun _ _ => rfl) (fun _ _ => trivial) (fun _ => .rfl) (fun _ => .rfl)
def reg2 := regOf m ρ 2 launch2 (We2 m ρ) (Wx2 m ρ) (fun _ => rfl) (body_obligation2 (Ve2 m ρ)) (fun _ _ => rfl) (fun _ _ => rfl)
  (fun _ _ => rfl) (fun _ _ => trivial) (fun _ => .rfl) (fun _ => .rfl)
def reg3 := regOf m ρ 3 launch3 (We3 m ρ) (Wx3 m ρ) (fun _ => rfl) (body_obligation3 (Ve3 m ρ)) (fun _ _ => rfl) (fun _ _ => rfl)
  (fun _ _ => rfl) (fun _ _ => trivial) (fun _ => .rfl) (fun _ => .rfl)
def reg4 := regOf m ρ 4 launch4 (We4 m ρ) (Wx4 m ρ) (fun _ => rfl) (body_obligation4 (Ve4 m ρ)) (fun _ _ => rfl) (fun _ _ => rfl)
  (fun _ _ => rfl) (fun _ _ => trivial) (fun _ => .rfl) (fun _ => .rfl)
def reg5 := regOf m ρ 5 launch5 (We5 m ρ) (Wx5 m ρ) (fun _ => rfl) (body_obligation5 (Ve5 m ρ)) (fun _ _ => rfl) (fun _ _ => rfl)
  (fun _ _ => rfl) (fun _ _ => trivial) (fun _ => .rfl) (fun _ => .rfl)
def reg6 := regOf m ρ 6 launch6 (We6 m ρ) (Wx6 m ρ) (fun _ => rfl) (body_obligation6 (Ve6 m ρ)) (fun _ _ => rfl) (fun _ _ => rfl)
  (fun _ _ => rfl) (fun _ _ => trivial) (fun _ => .rfl) (fun _ => .rfl)
def reg7 := regOf m ρ 7 launch7 (We7 m ρ) (Wx7 m ρ) (fun _ => rfl) (body_obligation7 (Ve7 m ρ)) (fun _ _ => rfl) (fun _ _ => rfl)
  (fun _ _ => rfl) (fun _ _ => trivial) (fun _ => .rfl) (fun _ => .rfl)
def reg8 := regOf m ρ 8 launch8 (We8 m ρ) (Wx8 m ρ) (fun _ => rfl) (body_obligation8 (Ve8 m ρ)) (fun _ _ => rfl) (fun _ _ => rfl)
  (fun _ _ => rfl) (fun _ _ => trivial) (hin8 (Ve8 m ρ)) (hout8 (Ve8 m ρ))

end Cert.KernelIdeal.Fr

end
-- ==== Proof.KI.Run.lean ====
import proofs.«400805_j35450660061449_1_alg».proof.Proof.KI.Seg

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Wx0_keep (c : Dev nD) (b : Ref sig .tc) (hb : b ≠ main_v17) :
    Wx0 m ρ c (Proc.devRef .tc b) = We0 m ρ c (Proc.devRef .tc b) :=
  keep_of m ρ 0 launch0 (We0 m ρ) (Wx0 m ρ) (fun _ => rfl) (fun _ _ => rfl) c b fun w hw e =>
    hb (e.symm.trans ((by decide : ∀ w : Fin cfg0.W, (cfg0.win w).isOut = true → Pipeline.arrRef spec0 w = main_v17) w hw))

theorem Wx1_keep (c : Dev nD) (b : Ref sig .tc) (hb : b ≠ main_v47) :
    Wx1 m ρ c (Proc.devRef .tc b) = We1 m ρ c (Proc.devRef .tc b) :=
  keep_of m ρ 1 launch1 (We1 m ρ) (Wx1 m ρ) (fun _ => rfl) (fun _ _ => rfl) c b fun w hw e =>
    hb (e.symm.trans ((by decide : ∀ w : Fin cfg1.W, (cfg1.win w).isOut = true → Pipeline.arrRef spec1 w = main_v47) w hw))

theorem Wx2_keep (c : Dev nD) (b : Ref sig .tc) (hb : b ≠ main_v48) :
    Wx2 m ρ c (Proc.devRef .tc b) = We2 m ρ c (Proc.devRef .tc b) :=
  keep_of m ρ 2 launch2 (We2 m ρ) (Wx2 m ρ) (fun _ => rfl) (fun _ _ => rfl) c b fun w hw e =>
    hb (e.symm.trans ((by decide : ∀ w : Fin cfg2.W, (cfg2.win w).isOut = true → Pipeline.arrRef spec2 w = main_v48) w hw))

theorem Wx3_keep (c : Dev nD) (b : Ref sig .tc) (hb : b ≠ main_v78) :
    Wx3 m ρ c (Proc.devRef .tc b) = We3 m ρ c (Proc.devRef .tc b) :=
  keep_of m ρ 3 launch3 (We3 m ρ) (Wx3 m ρ) (fun _ => rfl) (fun _ _ => rfl) c b fun w hw e =>
    hb (e.symm.trans ((by decide : ∀ w : Fin cfg3.W, (cfg3.win w).isOut = true → Pipeline.arrRef spec3 w = main_v78) w hw))

theorem Wx4_keep (c : Dev nD) (b : Ref sig .tc) (hb : b ≠ main_v79) :
    Wx4 m ρ c (Proc.devRef .tc b) = We4 m ρ c (Proc.devRef .tc b) :=
  keep_of m ρ 4 launch4 (We4 m ρ) (Wx4 m ρ) (fun _ => rfl) (fun _ _ => rfl) c b fun w hw e =>
    hb (e.symm.trans ((by decide : ∀ w : Fin cfg4.W, (cfg4.win w).isOut = true → Pipeline.arrRef spec4 w = main_v79) w hw))

theorem Wx5_keep (c : Dev nD) (b : Ref sig .tc) (hb : b ≠ main_v109) :
    Wx5 m ρ c (Proc.devRef .tc b) = We5 m ρ c (Proc.devRef .tc b) :=
  keep_of m ρ 5 launch5 (We5 m ρ) (Wx5 m ρ) (fun _ => rfl) (fun _ _ => rfl) c b fun w hw e =>
    hb (e.symm.trans ((by decide : ∀ w : Fin cfg5.W, (cfg5.win w).isOut = true → Pipeline.arrRef spec5 w = main_v109) w hw))

theorem Wx6_keep (c : Dev nD) (b : Ref sig .tc) (hb : b ≠ main_v110) :
    Wx6 m ρ c (Proc.devRef .tc b) = We6 m ρ c (Proc.devRef .tc b) :=
  keep_of m ρ 6 launch6 (We6 m ρ) (Wx6 m ρ) (fun _ => rfl) (fun _ _ => rfl) c b fun w hw e =>
    hb (e.symm.trans ((by decide : ∀ w : Fin cfg6.W, (cfg6.win w).isOut = true → Pipeline.arrRef spec6 w = main_v110) w hw))

theorem Wx7_keep (c : Dev nD) (b : Ref sig .tc) (hb : b ≠ main_v140) :
    Wx7 m ρ c (Proc.devRef .tc b) = We7 m ρ c (Proc.devRef .tc b) :=
  keep_of m ρ 7 launch7 (We7 m ρ) (Wx7 m ρ) (fun _ => rfl) (fun _ _ => rfl) c b fun w hw e =>
    hb (e.symm.trans ((by decide : ∀ w : Fin cfg7.W, (cfg7.win w).isOut = true → Pipeline.arrRef spec7 w = main_v140) w hw))

theorem Wx8_keep (c : Dev nD) (b : Ref sig .tc) (hb : b ≠ main_v142) :
    Wx8 m ρ c (Proc.devRef .tc b) = We8 m ρ c (Proc.devRef .tc b) :=
  keep_of m ρ 8 launch8 (We8 m ρ) (Wx8 m ρ) (fun _ => rfl) (fun _ _ => rfl) c b fun w hw e =>
    hb (e.symm.trans ((by decide : ∀ w : Fin cfg8.W, (cfg8.win w).isOut = true → Pipeline.arrRef spec8 w = main_v142) w hw))

theorem kept_to_end (c : Dev nD) (b : Ref sig .tc) (h0 : b ∉ hostOps0_W) (h01 : b ∉ hostOps0_1_W) (h1 : b ∉ hostOps1_W)
    (h3 : b ∉ hostOps3_W) (h5 : b ∉ hostOps5_W) (h7 : b ∉ hostOps7_W) (h8 : b ∉ hostOps8_W)
    (ho : b ∉ ([main_v17, main_v47, main_v48, main_v78, main_v79, main_v109, main_v110, main_v140, main_v142] : List (Ref sig .tc))) :
    Wx8 m ρ c (Proc.devRef .tc b) = m ((c : Thread nD τ).loc b) := by
  have hne : ∀ r ∈ ([main_v17, main_v47, main_v48, main_v78, main_v79, main_v109, main_v110, main_v140, main_v142] : List (Ref sig .tc)), b ≠ r :=
    fun r hr e => ho (e ▸ hr)
  rw [Wx8_keep m ρ c b (hne _ (by simp)), show We8 m ρ c (Proc.devRef .tc b) = Wx7 m ρ c (Proc.devRef .tc b) from StableHlo.after_of_writes_sub hostOps8 _ hostOps8_writes h8,
    Wx7_keep m ρ c b (hne _ (by simp)), show We7 m ρ c (Proc.devRef .tc b) = Wx6 m ρ c (Proc.devRef .tc b) from StableHlo.after_of_writes_sub hostOps7 _ hostOps7_writes h7,
    Wx6_keep m ρ c b (hne _ (by simp)), show We6 m ρ c (Proc.devRef .tc b) = Wx5 m ρ c (Proc.devRef .tc b) from rfl,
    Wx5_keep m ρ c b (hne _ (by simp)), show We5 m ρ c (Proc.devRef .tc b) = Wx4 m ρ c (Proc.devRef .tc b) from StableHlo.after_of_writes_sub hostOps5 _ hostOps5_writes h5,
    Wx4_keep m ρ c b (hne _ (by simp)), show We4 m ρ c (Proc.devRef .tc b) = Wx3 m ρ c (Proc.devRef .tc b) from rfl,
    Wx3_keep m ρ c b (hne _ (by simp)), show We3 m ρ c (Proc.devRef .tc b) = Wx2 m ρ c (Proc.devRef .tc b) from StableHlo.after_of_writes_sub hostOps3 _ hostOps3_writes h3,
    Wx2_keep m ρ c b (hne _ (by simp)), show We2 m ρ c (Proc.devRef .tc b) = Wx1 m ρ c (Proc.devRef .tc b) from rfl,
    Wx1_keep m ρ c b (hne _ (by simp)), show We1 m ρ c (Proc.devRef .tc b) = Wx0 m ρ c (Proc.devRef .tc b) from StableHlo.after_of_writes_sub hostOps1 _ hostOps1_writes h1,
    Wx0_keep m ρ c b (hne _ (by simp)),
    show We0 m ρ c (Proc.devRef .tc b) = StableHlo.after hostOps0 (W0 m ρ c) (Proc.devRef .tc b) from StableHlo.after_of_writes_sub hostOps0_1 _ hostOps0_1_writes h01,
    show StableHlo.after hostOps0 (W0 m ρ c) (Proc.devRef .tc b) = W0 m ρ c (Proc.devRef .tc b) from StableHlo.after_of_writes_sub hostOps0 _ hostOps0_writes h0]

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (fun c => StableHlo.after hostOps0 (W0 m ρ c))),
    .region (reg0 m ρ),
    .host (hseg hostOps1 hostOps1_sub hostOps1_fresh (Wx0 m ρ)),
    .region (reg1 m ρ),
    .region (reg2 m ρ),
    .host (hseg hostOps3 hostOps3_sub hostOps3_fresh (Wx2 m ρ)),
    .region (reg3 m ρ),
    .region (reg4 m ρ),
    .host (hseg hostOps5 hostOps5_sub hostOps5_fresh (Wx4 m ρ)),
    .region (reg5 m ρ),
    .region (reg6 m ρ),
    .host (hseg hostOps7 hostOps7_sub hostOps7_fresh (Wx6 m ρ)),
    .region (reg7 m ρ),
    .host (hseg hostOps8 hostOps8_sub hostOps8_fresh (Wx7 m ρ)),
    .region (reg8 m ρ) ]

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = Wx8 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (Wx8 m ρ c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => by
        show iprop(StableHlo.held (c : Thread nD τ) (Pipeline.ucRefs τ sig) (Wx8 m ρ c) ∗ R c)
          ⊢ iprop((StableHlo.held (c : Thread nD τ) (Pipeline.ucRefs τ sig) (Wx8 m ρ c) ∗ ∃ r, prngReg c r) ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wx8 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wx8 m ρ c) s')
      isplitl [Hh] <;> iassumption)
    (hQ := fun s h c => h c)

theorem run_value : θ_run defs (onTc (τ := τ) (main (F := F))) ⟨m, fun _ => 0, ρ⟩ (fun r => ∀ c : Dev nD,
      r.2.mem ((c.tc : Thread nD τ).loc main_v142) = Wx8 m ρ c (Proc.devRef .tc main_v142)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v142 (by decide)),
    (h c _ (mem_uc main_arg0 (by decide))).trans (kept_to_end m ρ c main_arg0 (by decide) (by decide) (by decide) (by decide) (by decide) (by decide) (by decide) (by decide)),
    (h c _ (mem_uc main_arg1 (by decide))).trans (kept_to_end m ρ c main_arg1 (by decide) (by decide) (by decide) (by decide) (by decide) (by decide) (by decide) (by decide)),
    (h c _ (mem_uc main_arg2 (by decide))).trans (kept_to_end m ρ c main_arg2 (by decide) (by decide) (by decide) (by decide) (by decide) (by decide) (by decide) (by decide)),
    (h c _ (mem_uc main_arg3 (by decide))).trans (kept_to_end m ρ c main_arg3 (by decide) (by decide) (by decide) (by decide) (by decide) (by decide) (by decide) (by decide)),
    (h c _ (mem_uc main_arg4 (by decide))).trans (kept_to_end m ρ c main_arg4 (by decide) (by decide) (by decide) (by decide) (by decide) (by decide) (by decide) (by decide)),
    (h c _ (mem_uc main_arg5 (by decide))).trans (kept_to_end m ρ c main_arg5 (by decide) (by decide) (by decide) (by decide) (by decide) (by decide) (by decide) (by decide)),
    (h c _ (mem_uc main_arg6 (by decide))).trans (kept_to_end m ρ c main_arg6 (by decide) (by decide) (by decide) (by decide) (by decide) (by decide) (by decide) (by decide)),
    (h c _ (mem_uc main_arg7 (by decide))).trans (kept_to_end m ρ c main_arg7 (by decide) (by decide) (by decide) (by decide) (by decide) (by decide) (by decide) (by decide)),
    (h c _ (mem_uc main_arg8 (by decide))).trans (kept_to_end m ρ c main_arg8 (by decide) (by decide) (by decide) (by decide) (by decide) (by decide) (by decide) (by decide)),
    (h c _ (mem_uc main_arg9 (by decide))).trans (kept_to_end m ρ c main_arg9 (by decide) (by decide) (by decide) (by decide) (by decide) (by decide) (by decide) (by decide)),
    (h c _ (mem_uc main_arg10 (by decide))).trans (kept_to_end m ρ c main_arg10 (by decide) (by decide) (by decide) (by decide) (by decide) (by decide) (by decide) (by decide))⟩) (run_all m ρ)

/-- The frame is the value run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_value m ρ)

end Cert.KernelIdeal.Fr

end
-- ==== Proof.KI.ValMat0.lean ====
import proofs.«400805_j35450660061449_1_alg».proof.Proof.KI.Region0
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx
import Idealize.ShloMosaic.PureOps.Ideal.Laws
import Mathlib.Algebra.BigOperators.Group.Finset.Basic

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open scoped BigOperators

theorem lhs0_0 (i : S10000x96.Idx) (q : dot_S10000x128_S128x96_S10000x96_1_0_0_1_n_n.contr.Idx) :
    (dot_S10000x128_S128x96_S10000x96_1_0_0_1_n_n.lhsIdx i q 0).val = (i 0).val := by
  unfold DotDims.lhsIdx
  rw [dif_neg (show ¬(0 : Fin S10000x128.rank) ∈ dot_S10000x128_S128x96_S10000x96_1_0_0_1_n_n.lhsBatch by decide), dif_pos (show (0 : Fin S10000x128.rank) ∈ dot_S10000x128_S128x96_S10000x96_1_0_0_1_n_n.lhsNonContracting by decide)]
  rfl

theorem lhs0_1 (i : S10000x96.Idx) (q : dot_S10000x128_S128x96_S10000x96_1_0_0_1_n_n.contr.Idx) :
    (dot_S10000x128_S128x96_S10000x96_1_0_0_1_n_n.lhsIdx i q 1).val = (q ⟨0, by decide⟩).val :=
  dot_S10000x128_S128x96_S10000x96_1_0_0_1_n_n.lhsIdx_val_of_single rfl i q

theorem rhs0_0 (i : S10000x96.Idx) (q : dot_S10000x128_S128x96_S10000x96_1_0_0_1_n_n.contr.Idx) :
    (dot_S10000x128_S128x96_S10000x96_1_0_0_1_n_n.rhsIdx i q 0).val = (q ⟨0, by decide⟩).val :=
  dot_S10000x128_S128x96_S10000x96_1_0_0_1_n_n.rhsIdx_val_of_single rfl i q

theorem rhs0_1 (i : S10000x96.Idx) (q : dot_S10000x128_S128x96_S10000x96_1_0_0_1_n_n.contr.Idx) :
    (dot_S10000x128_S128x96_S10000x96_1_0_0_1_n_n.rhsIdx i q 1).val = (i 1).val := by
  unfold DotDims.rhsIdx
  rw [dif_neg (show ¬(1 : Fin S128x96.rank) ∈ dot_S10000x128_S128x96_S10000x96_1_0_0_1_n_n.rhsBatch by decide), dif_pos (show (1 : Fin S128x96.rank) ∈ dot_S10000x128_S128x96_S10000x96_1_0_0_1_n_n.rhsNonContracting by decide)]
  rfl

abbrev lix0 (y : S10000x96.Idx) (k : Fin 128) : S10000x128.Idx := fun a => match a with
  | ⟨0, _⟩ => ⟨(y 0).val, (y 0).isLt⟩
  | ⟨1, _⟩ => ⟨k.val, k.isLt⟩

abbrev rix0 (y : S10000x96.Idx) (k : Fin 128) : S128x96.Idx := fun a => match a with
  | ⟨0, _⟩ => ⟨k.val, k.isLt⟩
  | ⟨1, _⟩ => ⟨(y 1).val, (y 1).isLt⟩

theorem pay0_apply (x0 : Vec Ideal S10000x128 .f32) (x1 : Vec Ideal S128x96 .f32) (y : S10000x96.Idx) :
    k0_pay1 (F := Ideal) x0 x1 y = ∑ k : Fin 128, x0 (lix0 y k) * x1 (rix0 y k) := by
  unfold k0_pay1
  refine (Ideal.matmul_constant_zero_apply dot_S10000x128_S128x96_S10000x96_1_0_0_1_n_n none _ _ y).trans ?_
  rw [← Equiv.sum_comp (ValueIdx.contrEquiv1 dot_S10000x128_S128x96_S10000x96_1_0_0_1_n_n 128 rfl rfl).symm]
  refine Finset.sum_congr rfl fun k _ => ?_
  have hk := ValueIdx.contrEquiv1_symm_val dot_S10000x128_S128x96_S10000x96_1_0_0_1_n_n 128 rfl rfl k
  have el : dot_S10000x128_S128x96_S10000x96_1_0_0_1_n_n.lhsIdx y ((ValueIdx.contrEquiv1 dot_S10000x128_S128x96_S10000x96_1_0_0_1_n_n 128 rfl rfl).symm k) = lix0 y k := funext fun a => Fin.ext (by
    match a with
    | ⟨0, _⟩ => exact lhs0_0 _ _
    | ⟨1, _⟩ => exact (lhs0_1 _ _).trans hk)
  have er : dot_S10000x128_S128x96_S10000x96_1_0_0_1_n_n.rhsIdx y ((ValueIdx.contrEquiv1 dot_S10000x128_S128x96_S10000x96_1_0_0_1_n_n 128 rfl rfl).symm k) = rix0 y k := funext fun a => Fin.ext (by
    match a with
    | ⟨0, _⟩ => exact (rhs0_0 _ _).trans hk
    | ⟨1, _⟩ => exact rhs0_1 _ _)
  simp only [ValueIdx.truncf_apply, shapeCast_self, el, er]

theorem Lhs0_0 (i : S50000x96.Idx) (q : Cert.ReferenceIdeal.dot_S50000x128_S128x96_S50000x96_1_0_0_1_n_n.contr.Idx) :
    (Cert.ReferenceIdeal.dot_S50000x128_S128x96_S50000x96_1_0_0_1_n_n.lhsIdx i q 0).val = (i 0).val := by
  unfold DotDims.lhsIdx
  rw [dif_neg (show ¬(0 : Fin S50000x128.rank) ∈ Cert.ReferenceIdeal.dot_S50000x128_S128x96_S50000x96_1_0_0_1_n_n.lhsBatch by decide), dif_pos (show (0 : Fin S50000x128.rank) ∈ Cert.ReferenceIdeal.dot_S50000x128_S128x96_S50000x96_1_0_0_1_n_n.lhsNonContracting by decide)]
  rfl

theorem Lhs0_1 (i : S50000x96.Idx) (q : Cert.ReferenceIdeal.dot_S50000x128_S128x96_S50000x96_1_0_0_1_n_n.contr.Idx) :
    (Cert.ReferenceIdeal.dot_S50000x128_S128x96_S50000x96_1_0_0_1_n_n.lhsIdx i q 1).val = (q ⟨0, by decide⟩).val :=
  Cert.ReferenceIdeal.dot_S50000x128_S128x96_S50000x96_1_0_0_1_n_n.lhsIdx_val_of_single rfl i q

theorem Rhs0_0 (i : S50000x96.Idx) (q : Cert.ReferenceIdeal.dot_S50000x128_S128x96_S50000x96_1_0_0_1_n_n.contr.Idx) :
    (Cert.ReferenceIdeal.dot_S50000x128_S128x96_S50000x96_1_0_0_1_n_n.rhsIdx i q 0).val = (q ⟨0, by decide⟩).val :=
  Cert.ReferenceIdeal.dot_S50000x128_S128x96_S50000x96_1_0_0_1_n_n.rhsIdx_val_of_single rfl i q

theorem Rhs0_1 (i : S50000x96.Idx) (q : Cert.ReferenceIdeal.dot_S50000x128_S128x96_S50000x96_1_0_0_1_n_n.contr.Idx) :
    (Cert.ReferenceIdeal.dot_S50000x128_S128x96_S50000x96_1_0_0_1_n_n.rhsIdx i q 1).val = (i 1).val := by
  unfold DotDims.rhsIdx
  rw [dif_neg (show ¬(1 : Fin S128x96.rank) ∈ Cert.ReferenceIdeal.dot_S50000x128_S128x96_S50000x96_1_0_0_1_n_n.rhsBatch by decide), dif_pos (show (1 : Fin S128x96.rank) ∈ Cert.ReferenceIdeal.dot_S50000x128_S128x96_S50000x96_1_0_0_1_n_n.rhsNonContracting by decide)]
  rfl

abbrev Lix0 (i : S50000x96.Idx) (k : Fin 128) : S50000x128.Idx := fun a => match a with
  | ⟨0, _⟩ => ⟨(i 0).val, (i 0).isLt⟩
  | ⟨1, _⟩ => ⟨k.val, k.isLt⟩

abbrev Rix0 (i : S50000x96.Idx) (k : Fin 128) : S128x96.Idx := fun a => match a with
  | ⟨0, _⟩ => ⟨k.val, k.isLt⟩
  | ⟨1, _⟩ => ⟨(i 1).val, (i 1).isLt⟩

abbrev dense0 (a0 : S50000x128.Idx → EReal) (a1 : S128x96.Idx → EReal) : S50000x96.Idx → EReal :=
  Host.dotGeneral (F := Ideal) (φ₁ := .f32) (φ₂ := .f32) Cert.ReferenceIdeal.dot_S50000x128_S128x96_S50000x96_1_0_0_1_n_n none a0 a1

theorem dense0_apply (a0 : S50000x128.Idx → EReal) (a1 : S128x96.Idx → EReal) (i : S50000x96.Idx) :
    dense0 a0 a1 i = ∑ k : Fin 128, a0 (Lix0 i k) * a1 (Rix0 i k) := by
  show FloatOps.dotGeneral (F := Ideal) (φ₁ := .f32) (φ₂ := .f32) Cert.ReferenceIdeal.dot_S50000x128_S128x96_S50000x96_1_0_0_1_n_n none .single a0 a1 i = _
  rw [Ideal.dotGeneral_apply, ← Equiv.sum_comp (ValueIdx.contrEquiv1 Cert.ReferenceIdeal.dot_S50000x128_S128x96_S50000x96_1_0_0_1_n_n 128 rfl rfl).symm]
  refine Finset.sum_congr rfl fun k _ => ?_
  have hk := ValueIdx.contrEquiv1_symm_val Cert.ReferenceIdeal.dot_S50000x128_S128x96_S50000x96_1_0_0_1_n_n 128 rfl rfl k
  have el : Cert.ReferenceIdeal.dot_S50000x128_S128x96_S50000x96_1_0_0_1_n_n.lhsIdx i ((ValueIdx.contrEquiv1 Cert.ReferenceIdeal.dot_S50000x128_S128x96_S50000x96_1_0_0_1_n_n 128 rfl rfl).symm k) = Lix0 i k := funext fun a => Fin.ext (by
    match a with
    | ⟨0, _⟩ => exact Lhs0_0 _ _
    | ⟨1, _⟩ => exact (Lhs0_1 _ _).trans hk)
  have er : Cert.ReferenceIdeal.dot_S50000x128_S128x96_S50000x96_1_0_0_1_n_n.rhsIdx i ((ValueIdx.contrEquiv1 Cert.ReferenceIdeal.dot_S50000x128_S128x96_S50000x96_1_0_0_1_n_n 128 rfl rfl).symm k) = Rix0 i k := funext fun a => Fin.ext (by
    match a with
    | ⟨0, _⟩ => exact (Rhs0_0 _ _).trans hk
    | ⟨1, _⟩ => exact Rhs0_1 _ _)
  rw [el, er]

theorem pay0_eq_dense0 (a0 : S50000x128.Idx → EReal) (a1 : S128x96.Idx → EReal)
    (x0 : Vec Ideal S10000x128 .f32) (x1 : Vec Ideal S128x96 .f32) (y : S10000x96.Idx) (i : S50000x96.Idx)
    (h0 : ∀ k : Fin 128, x0 (lix0 y k) = a0 (Lix0 i k)) (h1 : ∀ k : Fin 128, x1 (rix0 y k) = a1 (Rix0 i k)) :
    k0_pay1 (F := Ideal) x0 x1 y = dense0 a0 a1 i := by
  rw [pay0_apply, dense0_apply]
  exact Finset.sum_congr rfl fun k _ => by rw [h0 k, h1 k]

variable (V : (c : Dev nD) → (b : Ref sig .tc) → Buf (Elt Ideal) ((c : Thread nD τ).loc b))

abbrev arr0_0 (c : Dev nD) : S50000x128.Idx → EReal := V c (Pipeline.arrRef spec0 0)

abbrev arr0_1 (c : Dev nD) : S128x96.Idx → EReal := V c (Pipeline.arrRef spec0 1)

theorem hz0 : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk0_0_apply (c : Dev nD) (t : Fin cfg0.N) (x : S10000x128.Idx) (i : S50000x128.Idx)
    (h0 : (i 0).val = t.val * 10000 + (x 0).val) (h1 : (i 1).val = (x 1).val) :
    (iblk0 V c 0 t : Vec Ideal S10000x128 .f32) x = arr0_0 V c i := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * (x 0).val = (i 0).val; omega
  | ⟨1, _⟩ => show win0_0.index t (1 : Fin 2) * S10000x128.size 1 + 1 * (x 1).val = (i 1).val; rw [e1]; omega

theorem iblk0_1_apply (c : Dev nD) (t : Fin cfg0.N) (x : S128x96.Idx) (i : S128x96.Idx)
    (h0 : (i 0).val = (x 0).val) (h1 : (i 1).val = (x 1).val) :
    (iblk0 V c 1 t : Vec Ideal S128x96 .f32) x = arr0_1 V c i := by
  obtain ⟨-, -, e0, e1, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * S128x96.size 0 + 1 * (x 0).val = (i 0).val; rw [e0]; omega
  | ⟨1, _⟩ => show win0_1.index t (1 : Fin 2) * S128x96.size 1 + 1 * (x 1).val = (i 1).val; rw [e1]; omega

theorem tile0_entry (c : Dev nD) (t : Fin cfg0.N) (y : S10000x96.Idx) (i : S50000x96.Idx)
    (h0 : (i 0).val = t.val * 10000 + (y 0).val) (h1 : (i 1).val = (y 1).val) :
    k0_pay1 (F := Ideal) (iblk0 V c 0 t) (iblk0 V c 1 t) y = dense0 (arr0_0 V c) (arr0_1 V c) i :=
  pay0_eq_dense0 (arr0_0 V c) (arr0_1 V c) (iblk0 V c 0 t) (iblk0 V c 1 t) y i
    (fun k => iblk0_0_apply V c t (lix0 y k) (Lix0 i k) h0 rfl)
    (fun k => iblk0_1_apply V c t (rix0 y k) (Rix0 i k) rfl h1)

theorem flushed0_eq (c : Dev nD) (t : Fin cfg0.N) :
    (dat0 (F := Ideal) V c).flushed 2 t
      = ((cfg0.win 2).blk t).view.read (Elt Ideal) (dense0 (arr0_0 V c) (arr0_1 V c)) := by
  show (cfg0.win 2).cut (grid0.coords t) ((dat0 (F := Ideal) V c).after 2 t) = _
  rw [after0_2]
  unfold out0_2
  rw [View.canon_unit_zero hz0]
  simp only [View.ld_unit_zero (S := S10000x128) hz0, View.ld_unit_zero (S := S128x96) hz0]
  obtain ⟨-, -, -, -, e0, e1⟩ := idx_facts0 t
  funext y
  show k0_pay1 (F := Ideal) (iblk0 V c 0 t) (iblk0 V c 1 t) y
    = dense0 (arr0_0 V c) (arr0_1 V c) (((cfg0.win 2).blk t).view.emb y)
  refine tile0_entry V c t y (((cfg0.win 2).blk t).view.emb y) ?_ ?_
  · show win0_2.index t (0 : Fin 2) * 10000 + 1 * (y 0).val = t.val * 10000 + (y 0).val; omega
  · show win0_2.index t (1 : Fin 2) * S10000x96.size 1 + 1 * (y 1).val = (y 1).val; rw [e1]; omega

theorem mem_blk0 (t : Fin cfg0.N) (i : S50000x96.Idx) :
    i ∈ ((cfg0.win 2).blk t).view.set ↔ ∀ a : Fin 2, win0_2.index t a * S10000x96.size a ≤ (i a).val ∧ (i a).val < win0_2.index t a * S10000x96.size a + S10000x96.size a := by
  show i ∈ ((View.whole (Pipeline.arrRef spec0 2)).slice (win0_2.rect t)).set ↔ _
  rw [View.set_slice_whole, Rect.mem_set_unit]
  exact Iff.rfl

theorem cover0 (i : S50000x96.Idx) :
    ∃ t : Fin cfg0.N, (cfg0.win 2).flush t = true ∧ i ∈ ((cfg0.win 2).blk t).view.set := by
  have hi0 : (i 0).val < 10000 * 5 := (i 0).isLt
  have hi1 : (i 1).val < S10000x96.size 1 := (i 1).isLt
  have hN : cfg0.N = 5 := rfl
  refine ⟨⟨(i 0).val / 10000, by rw [hN]; omega⟩, flush0_2 _, ?_⟩
  rw [mem_blk0]
  obtain ⟨-, -, -, -, e0, e1⟩ := idx_facts0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * S10000x96.size 1 ≤ (i 1).val ∧ (i 1).val < win0_2.index _ (1 : Fin 2) * S10000x96.size 1 + S10000x96.size 1
    rw [e1]; omega

theorem final0 (c : Dev nD) :
    (dat0 (F := Ideal) V c).arrAt 2 cfg0.N
      = Host.dotGeneral (F := Ideal) (φ₁ := .f32) (φ₂ := .f32) Cert.ReferenceIdeal.dot_S50000x128_S128x96_S50000x96_1_0_0_1_n_n none
          (V c (Pipeline.arrRef spec0 0)) (V c (Pipeline.arrRef spec0 1)) :=
  (dat0 (F := Ideal) V c).arrAt_eq_of_cover 2 (dense0 (arr0_0 V c) (arr0_1 V c)) (fun t _ => flushed0_eq V c t) cover0

end Cert.KernelIdeal.Val

end
-- ==== Proof.KI.ValBias1.lean ====
import proofs.«400805_j35450660061449_1_alg».proof.Proof.KI.Region1
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]

theorem hz1 : (![0, 0] : Fin 2 → Nat) = fun _ => 0 :=
  funext fun a => match a with | ⟨0, _⟩ => rfl | ⟨1, _⟩ => rfl

theorem pay1_apply (xt : Vec F S10000x96 .f32) (xr : Vec F S1x96 .f32) (y : S10000x96.Idx) (z : S1x96.Idx)
    (hz : (z 1).val = (y 1).val) :
    k1_pay1 xt xr y
      = FloatOps.maximumf (FloatOps.addf (xt y) (xr z)) (FloatOps.ofBits .f32 0x00000000#32) := by
  have ea : shapeCast S10000x96 xt Facts₀.shapeCasts_S10000x96_S10000x96 = xt := shapeCast_self xt _
  have eb : shapeCast S1x96 xr Facts₀.shapeCasts_S1x96_S1x96 = xr := shapeCast_self xr _
  have ec : broadcastTo S10000x96 xr Facts₀.broadcasts_S1x96_S10000x96 y = xr z :=
    broadcastTo_apply xr _ y z fun a => match a with
      | ⟨0, _⟩ => by
          show (z 0).val = if (1 : Nat) = 1 then 0 else _
          rw [if_pos rfl]; have := idx2_lt0 z; omega
      | ⟨1, _⟩ => by
          show (z 1).val = if (96 : Nat) = 1 then 0 else (y 1).val
          rw [if_neg (by decide)]; exact hz
  show FloatOps.maximumf (FloatOps.addf (shapeCast S10000x96 xt Facts₀.shapeCasts_S10000x96_S10000x96 y)
      (broadcastTo S10000x96 (shapeCast S1x96 xr Facts₀.shapeCasts_S1x96_S1x96) Facts₀.broadcasts_S1x96_S10000x96 y))
      (FloatOps.ofBits .f32 0x00000000#32) = _
  rw [ea, eb, ec]

abbrev G1 (A : Vec F S50000x96 .f32) (B : Vec F S1x96 .f32) : Vec F S50000x96 .f32 :=
  maximumf (F := F)
    (addf (F := F) A
      (broadcastInDim Cert.ReferenceIdeal.S50000x96 ![0, 1] Cert.ReferenceIdeal.Facts₀.bcast_S1x96_S50000x96_0_1 B))
    (broadcastInDim Cert.ReferenceIdeal.S50000x96 ![] Cert.ReferenceIdeal.Facts₀.bcast_S_S50000x96
      (constant (F := F) Cert.ReferenceIdeal.S_ .f32 0x00000000#32))

theorem G1_apply (A : Vec F S50000x96 .f32) (B : Vec F S1x96 .f32)
    (k : S50000x96.Idx) (z : S1x96.Idx) (hz : (z 1).val = (k 1).val) :
    G1 A B k = FloatOps.maximumf (FloatOps.addf (A k) (B z)) (FloatOps.ofBits .f32 0x00000000#32) := by
  have e : broadcastInDim Cert.ReferenceIdeal.S50000x96 ![0, 1] Cert.ReferenceIdeal.Facts₀.bcast_S1x96_S50000x96_0_1 B k = B z :=
    broadcastInDim_apply _ Cert.ReferenceIdeal.Facts₀.bcast_S1x96_S50000x96_0_1 B k z fun a => match a with
      | ⟨0, _⟩ => by
          show (z 0).val = if (1 : Nat) = 1 then 0 else (k 0).val
          rw [if_pos rfl]; have := idx2_lt0 z; omega
      | ⟨1, _⟩ => by
          show (z 1).val = if (96 : Nat) = 1 then 0 else (k 1).val
          rw [if_neg (by decide)]; exact hz
  show FloatOps.maximumf (FloatOps.addf (A k)
      (broadcastInDim Cert.ReferenceIdeal.S50000x96 ![0, 1] Cert.ReferenceIdeal.Facts₀.bcast_S1x96_S50000x96_0_1 B k))
      (FloatOps.ofBits .f32 0x00000000#32) = _
  rw [e]

theorem tile1_eq (A : Vec F S50000x96 .f32) (B : Vec F S1x96 .f32)
    (xt : Vec F S10000x96 .f32) (xr : Vec F S1x96 .f32) (n : Nat)
    (hA : ∀ (y : S10000x96.Idx) (k : S50000x96.Idx), (k 0).val = n * 10000 + (y 0).val → (k 1).val = (y 1).val → xt y = A k)
    (hB : ∀ z w : S1x96.Idx, (w 1).val = (z 1).val → xr z = B w)
    (y : S10000x96.Idx) (k : S50000x96.Idx) (hkr : (k 0).val = n * 10000 + (y 0).val) (hkc : (k 1).val = (y 1).val) :
    k1_pay1 xt xr y = G1 A B k := by
  have hq : (y 1).val < 96 := idx2_lt1 y
  rw [pay1_apply xt xr y (ix2 (0 : Fin 1) (⟨(y 1).val, hq⟩ : Fin 96)) rfl,
    G1_apply A B k (ix2 (0 : Fin 1) (⟨(y 1).val, hq⟩ : Fin 96)) hkc.symm,
    hA y k hkr hkc, hB _ _ rfl]

variable (V : (c : Dev nD) → (b : Ref sig .tc) → Buf (Elt F) ((c : Thread nD τ).loc b))

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem iblk1_0_apply (c : Dev nD) (t : Fin cfg1.N) (y : S10000x96.Idx) (k : S50000x96.Idx)
    (hkr : (k 0).val = t.val * 10000 + (y 0).val) (hkc : (k 1).val = (y 1).val) :
    (iblk1 V c 0 t : Vec F S10000x96 .f32) y = (V c (Pipeline.arrRef spec1 0) : Vec F S50000x96 .f32) k := by
  obtain ⟨ea, eb, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 10000 + 1 * (y 0).val = (k 0).val; rw [ea, hkr]; omega
  | ⟨1, _⟩ => show win1_0.index t 1 * 96 + 1 * (y 1).val = (k 1).val; rw [eb, hkc]; omega

theorem iblk1_1_apply (c : Dev nD) (t : Fin cfg1.N) (z w : S1x96.Idx) (hw : (w 1).val = (z 1).val) :
    (iblk1 V c 1 t : Vec F S1x96 .f32) z = (V c (Pipeline.arrRef spec1 1) : Vec F S1x96 .f32) w := by
  obtain ⟨-, -, ec, ed, -⟩ := idx_facts1 t
  have hz0 : (z 0).val < 1 := idx2_lt0 z
  have hw0 : (w 0).val < 1 := idx2_lt0 w
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * (z 0).val = (w 0).val; rw [ec]; omega
  | ⟨1, _⟩ => show win1_1.index t 1 * 96 + 1 * (z 1).val = (w 1).val; rw [ed, hw]; omega

theorem flushed1_eq (c : Dev nD) (t : Fin cfg1.N) :
    (dat1 V c).flushed 2 t
      = ((cfg1.win 2).blk t).view.read (Elt F) (G1 (V c (Pipeline.arrRef spec1 0)) (V c (Pipeline.arrRef spec1 1))) := by
  show (cfg1.win 2).cut (grid1.coords t) ((dat1 V c).after 2 t) = _
  rw [after1_2]
  unfold out1_2
  rw [View.canon_unit_zero hz1]
  simp only [View.ld_unit_zero (S := S10000x96) hz1, View.ld_unit_zero (S := S1x96) hz1]
  obtain ⟨-, -, -, -, ee, ef⟩ := idx_facts1 t
  funext j
  show k1_pay1 (iblk1 V c 0 t) (iblk1 V c 1 t) j
    = G1 (V c (Pipeline.arrRef spec1 0)) (V c (Pipeline.arrRef spec1 1)) (((cfg1.win 2).blk t).view.emb j)
  refine tile1_eq (V c (Pipeline.arrRef spec1 0)) (V c (Pipeline.arrRef spec1 1)) (iblk1 V c 0 t) (iblk1 V c 1 t) t.val
    (fun y k hr hc => iblk1_0_apply V c t y k hr hc) (fun z w h => iblk1_1_apply V c t z w h)
    j (((cfg1.win 2).blk t).view.emb j) ?_ ?_
  · show win1_2.index t 0 * 10000 + 1 * (j 0).val = t.val * 10000 + (j 0).val
    rw [ee]; omega
  · show win1_2.index t 1 * 96 + 1 * (j 1).val = (j 1).val
    rw [ef]; omega

theorem mem_blk1 (t : Fin cfg1.N) (i : S50000x96.Idx) :
    i ∈ ((cfg1.win 2).blk t).view.set
      ↔ ∀ a : Fin 2, win1_2.index t a * S10000x96.size a ≤ (i a).val
          ∧ (i a).val < win1_2.index t a * S10000x96.size a + S10000x96.size a := by
  show i ∈ ((View.whole (Pipeline.arrRef spec1 2)).slice (win1_2.rect t)).set ↔ _
  rw [View.set_slice_whole, Rect.mem_set_unit]
  exact Iff.rfl

theorem cover1 (i : S50000x96.Idx) :
    ∃ t : Fin cfg1.N, (cfg1.win 2).flush t = true ∧ i ∈ ((cfg1.win 2).blk t).view.set := by
  have hir : (i 0).val < 50000 := idx2_lt0 i
  have hic : (i 1).val < 96 := idx2_lt1 i
  have hN : cfg1.N = 5 := N_1
  let t : Fin cfg1.N := ⟨(i 0).val / 10000, by rw [hN]; omega⟩
  obtain ⟨-, -, -, -, ee, ef⟩ := idx_facts1 t
  have ht : t.val = (i 0).val / 10000 := rfl
  refine ⟨t, flush1_2 t, ?_⟩
  rw [mem_blk1]
  intro a
  match a with
  | ⟨0, _⟩ =>
      show win1_2.index t 0 * 10000 ≤ (i 0).val ∧ (i 0).val < win1_2.index t 0 * 10000 + 10000
      rw [ee, ht]; omega
  | ⟨1, _⟩ =>
      show win1_2.index t 1 * 96 ≤ (i 1).val ∧ (i 1).val < win1_2.index t 1 * 96 + 96
      rw [ef]; omega

theorem final1_gen (c : Dev nD) :
    (dat1 V c).arrAt 2 cfg1.N = G1 (V c (Pipeline.arrRef spec1 0)) (V c (Pipeline.arrRef spec1 1)) :=
  (dat1 V c).arrAt_eq_of_cover 2 (G1 (V c (Pipeline.arrRef spec1 0)) (V c (Pipeline.arrRef spec1 1)))
    (fun t _ => flushed1_eq V c t) cover1

theorem final1 (V : (c : Dev nD) → (b : Ref sig .tc) → Buf (Elt Ideal) ((c : Thread nD τ).loc b)) (c : Dev nD) :
    (dat1 (F := Ideal) V c).arrAt 2 cfg1.N
      = maximumf (addf (V c (Pipeline.arrRef spec1 0)) (broadcastInDim Cert.ReferenceIdeal.S50000x96 ![0, 1] Cert.ReferenceIdeal.Facts₀.bcast_S1x96_S50000x96_0_1 (V c (Pipeline.arrRef spec1 1))))
          (broadcastInDim Cert.ReferenceIdeal.S50000x96 ![] Cert.ReferenceIdeal.Facts₀.bcast_S_S50000x96 (constant (F := Ideal) Cert.ReferenceIdeal.S_ .f32 0x00000000#32)) :=
  final1_gen V c

end Cert.KernelIdeal.Val

end
-- ==== Proof.KI.ValMat2.lean ====
import proofs.«400805_j35450660061449_1_alg».proof.Proof.KI.Region2
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx
import Idealize.ShloMosaic.PureOps.Ideal.Laws
import Mathlib.Algebra.BigOperators.Group.Finset.Basic

/-!
# Pallas call 2: the result array is the dense layer of the whole arrays

Call 2 writes its result one row tile at a time: grid point `t` multiplies rows `10000 t … 10000 t + 9999`
of the first operand by the whole weight matrix and writes the product back as the same rows of the result.
Over the extended reals the product of a tile at entry `(r, j)` is the plain sum `∑ k, x[r, k] · w[k, j]`
(rounding an operand to bf16 is the identity, the accumulator starts at zero), so entry `(r, j)` of the
result array, written by the point `r / 10000`, is `∑ k, x[r, k] · w[k, j]` of the WHOLE first operand: the
`dot_general` of the two arrays. The five tiles cover every row, hence the array after the call is that
`dot_general`, whatever the core's buffers held when the call was entered.
-/

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open scoped BigOperators

/-! ## A tile's product at an entry -/

/-- The tile product's first operand index keeps the row of the output index … -/
theorem lhs2_0 (i : S10000x96.Idx) (q : dot_S10000x96_S96x96_S10000x96_1_0_0_1_n_n.contr.Idx) :
    (dot_S10000x96_S96x96_S10000x96_1_0_0_1_n_n.lhsIdx i q 0).val = (i 0).val := by
  unfold DotDims.lhsIdx
  rw [dif_neg (show ¬(0 : Fin S10000x96.rank) ∈ dot_S10000x96_S96x96_S10000x96_1_0_0_1_n_n.lhsBatch by decide), dif_pos (show (0 : Fin S10000x96.rank) ∈ dot_S10000x96_S96x96_S10000x96_1_0_0_1_n_n.lhsNonContracting by decide)]
  rfl
/-- … and takes the contraction coordinate as its column; -/
theorem lhs2_1 (i : S10000x96.Idx) (q : dot_S10000x96_S96x96_S10000x96_1_0_0_1_n_n.contr.Idx) :
    (dot_S10000x96_S96x96_S10000x96_1_0_0_1_n_n.lhsIdx i q 1).val = (q ⟨0, by decide⟩).val :=
  dot_S10000x96_S96x96_S10000x96_1_0_0_1_n_n.lhsIdx_val_of_single rfl i q
/-- the second operand index takes the contraction coordinate as its row … -/
theorem rhs2_0 (i : S10000x96.Idx) (q : dot_S10000x96_S96x96_S10000x96_1_0_0_1_n_n.contr.Idx) :
    (dot_S10000x96_S96x96_S10000x96_1_0_0_1_n_n.rhsIdx i q 0).val = (q ⟨0, by decide⟩).val :=
  dot_S10000x96_S96x96_S10000x96_1_0_0_1_n_n.rhsIdx_val_of_single rfl i q
/-- … and keeps the column of the output index. -/
theorem rhs2_1 (i : S10000x96.Idx) (q : dot_S10000x96_S96x96_S10000x96_1_0_0_1_n_n.contr.Idx) :
    (dot_S10000x96_S96x96_S10000x96_1_0_0_1_n_n.rhsIdx i q 1).val = (i 1).val := by
  unfold DotDims.rhsIdx
  rw [dif_neg (show ¬(1 : Fin S96x96.rank) ∈ dot_S10000x96_S96x96_S10000x96_1_0_0_1_n_n.rhsBatch by decide), dif_pos (show (1 : Fin S96x96.rank) ∈ dot_S10000x96_S96x96_S10000x96_1_0_0_1_n_n.rhsNonContracting by decide)]
  rfl

/-- Entry `(r, k)` of the first operand's tile, for the output entry `y = (r, j)`. -/
abbrev lix2 (y : S10000x96.Idx) (k : Fin 96) : S10000x96.Idx := fun a => match a with
  | ⟨0, _⟩ => ⟨(y 0).val, (y 0).isLt⟩
  | ⟨1, _⟩ => ⟨k.val, k.isLt⟩
/-- Entry `(k, j)` of the weight matrix, for the output entry `y = (r, j)`. -/
abbrev rix2 (y : S10000x96.Idx) (k : Fin 96) : S96x96.Idx := fun a => match a with
  | ⟨0, _⟩ => ⟨k.val, k.isLt⟩
  | ⟨1, _⟩ => ⟨(y 1).val, (y 1).isLt⟩

/-- The tile's product at `y = (r, j)`: `∑ k, x[r, k] · w[k, j]`. The two roundings to bf16 are the identity on
    the extended reals and the accumulator is the zero splat. -/
theorem pay2_apply (x2 : Vec Ideal S10000x96 .f32) (x1 : Vec Ideal S96x96 .f32) (y : S10000x96.Idx) :
    k2_pay1 (F := Ideal) x2 x1 y = ∑ k : Fin 96, x2 (lix2 y k) * x1 (rix2 y k) := by
  unfold k2_pay1
  refine (Ideal.matmul_constant_zero_apply dot_S10000x96_S96x96_S10000x96_1_0_0_1_n_n none _ _ y).trans ?_
  rw [← Equiv.sum_comp (ValueIdx.contrEquiv1 dot_S10000x96_S96x96_S10000x96_1_0_0_1_n_n 96 rfl rfl).symm]
  refine Finset.sum_congr rfl fun k _ => ?_
  have hk := ValueIdx.contrEquiv1_symm_val dot_S10000x96_S96x96_S10000x96_1_0_0_1_n_n 96 rfl rfl k
  have el : dot_S10000x96_S96x96_S10000x96_1_0_0_1_n_n.lhsIdx y ((ValueIdx.contrEquiv1 dot_S10000x96_S96x96_S10000x96_1_0_0_1_n_n 96 rfl rfl).symm k) = lix2 y k := funext fun a => Fin.ext (by
    match a with
    | ⟨0, _⟩ => exact lhs2_0 _ _
    | ⟨1, _⟩ => exact (lhs2_1 _ _).trans hk)
  have er : dot_S10000x96_S96x96_S10000x96_1_0_0_1_n_n.rhsIdx y ((ValueIdx.contrEquiv1 dot_S10000x96_S96x96_S10000x96_1_0_0_1_n_n 96 rfl rfl).symm k) = rix2 y k := funext fun a => Fin.ext (by
    match a with
    | ⟨0, _⟩ => exact (rhs2_0 _ _).trans hk
    | ⟨1, _⟩ => exact rhs2_1 _ _)
  simp only [ValueIdx.truncf_apply, shapeCast_self, el, er]

/-! ## The whole arrays' `dot_general` at an entry -/

/-- The first operand index of the arrays' `dot_general` keeps the row of the output index … -/
theorem Lhs2_0 (i : S50000x96.Idx) (q : Cert.ReferenceIdeal.dot_S50000x96_S96x96_S50000x96_1_0_0_1_n_n.contr.Idx) :
    (Cert.ReferenceIdeal.dot_S50000x96_S96x96_S50000x96_1_0_0_1_n_n.lhsIdx i q 0).val = (i 0).val := by
  unfold DotDims.lhsIdx
  rw [dif_neg (show ¬(0 : Fin S50000x96.rank) ∈ Cert.ReferenceIdeal.dot_S50000x96_S96x96_S50000x96_1_0_0_1_n_n.lhsBatch by decide), dif_pos (show (0 : Fin S50000x96.rank) ∈ Cert.ReferenceIdeal.dot_S50000x96_S96x96_S50000x96_1_0_0_1_n_n.lhsNonContracting by decide)]
  rfl
/-- … and takes the contraction coordinate as its column; -/
theorem Lhs2_1 (i : S50000x96.Idx) (q : Cert.ReferenceIdeal.dot_S50000x96_S96x96_S50000x96_1_0_0_1_n_n.contr.Idx) :
    (Cert.ReferenceIdeal.dot_S50000x96_S96x96_S50000x96_1_0_0_1_n_n.lhsIdx i q 1).val = (q ⟨0, by decide⟩).val :=
  Cert.ReferenceIdeal.dot_S50000x96_S96x96_S50000x96_1_0_0_1_n_n.lhsIdx_val_of_single rfl i q
/-- the second operand index takes the contraction coordinate as its row … -/
theorem Rhs2_0 (i : S50000x96.Idx) (q : Cert.ReferenceIdeal.dot_S50000x96_S96x96_S50000x96_1_0_0_1_n_n.contr.Idx) :
    (Cert.ReferenceIdeal.dot_S50000x96_S96x96_S50000x96_1_0_0_1_n_n.rhsIdx i q 0).val = (q ⟨0, by decide⟩).val :=
  Cert.ReferenceIdeal.dot_S50000x96_S96x96_S50000x96_1_0_0_1_n_n.rhsIdx_val_of_single rfl i q
/-- … and keeps the column of the output index. -/
theorem Rhs2_1 (i : S50000x96.Idx) (q : Cert.ReferenceIdeal.dot_S50000x96_S96x96_S50000x96_1_0_0_1_n_n.contr.Idx) :
    (Cert.ReferenceIdeal.dot_S50000x96_S96x96_S50000x96_1_0_0_1_n_n.rhsIdx i q 1).val = (i 1).val := by
  unfold DotDims.rhsIdx
  rw [dif_neg (show ¬(1 : Fin S96x96.rank) ∈ Cert.ReferenceIdeal.dot_S50000x96_S96x96_S50000x96_1_0_0_1_n_n.rhsBatch by decide), dif_pos (show (1 : Fin S96x96.rank) ∈ Cert.ReferenceIdeal.dot_S50000x96_S96x96_S50000x96_1_0_0_1_n_n.rhsNonContracting by decide)]
  rfl

/-- Entry `(r, k)` of the first array, for the output entry `i = (r, j)`. -/
abbrev Lix2 (i : S50000x96.Idx) (k : Fin 96) : S50000x96.Idx := fun a => match a with
  | ⟨0, _⟩ => ⟨(i 0).val, (i 0).isLt⟩
  | ⟨1, _⟩ => ⟨k.val, k.isLt⟩
/-- Entry `(k, j)` of the weight matrix, for the output entry `i = (r, j)`. -/
abbrev Rix2 (i : S50000x96.Idx) (k : Fin 96) : S96x96.Idx := fun a => match a with
  | ⟨0, _⟩ => ⟨k.val, k.isLt⟩
  | ⟨1, _⟩ => ⟨(i 1).val, (i 1).isLt⟩

/-- The dense layer of the whole arrays: the `dot_general` of the first array and the weight matrix. -/
abbrev dense2 (a2 : S50000x96.Idx → EReal) (a1 : S96x96.Idx → EReal) : S50000x96.Idx → EReal :=
  Host.dotGeneral (F := Ideal) (φ₁ := .f32) (φ₂ := .f32) Cert.ReferenceIdeal.dot_S50000x96_S96x96_S50000x96_1_0_0_1_n_n none a2 a1

/-- At `i = (r, j)` it is `∑ k, a2[r, k] · a1[k, j]`. -/
theorem dense2_apply (a2 : S50000x96.Idx → EReal) (a1 : S96x96.Idx → EReal) (i : S50000x96.Idx) :
    dense2 a2 a1 i = ∑ k : Fin 96, a2 (Lix2 i k) * a1 (Rix2 i k) := by
  show FloatOps.dotGeneral (F := Ideal) (φ₁ := .f32) (φ₂ := .f32) Cert.ReferenceIdeal.dot_S50000x96_S96x96_S50000x96_1_0_0_1_n_n none .single a2 a1 i = _
  rw [Ideal.dotGeneral_apply, ← Equiv.sum_comp (ValueIdx.contrEquiv1 Cert.ReferenceIdeal.dot_S50000x96_S96x96_S50000x96_1_0_0_1_n_n 96 rfl rfl).symm]
  refine Finset.sum_congr rfl fun k _ => ?_
  have hk := ValueIdx.contrEquiv1_symm_val Cert.ReferenceIdeal.dot_S50000x96_S96x96_S50000x96_1_0_0_1_n_n 96 rfl rfl k
  have el : Cert.ReferenceIdeal.dot_S50000x96_S96x96_S50000x96_1_0_0_1_n_n.lhsIdx i ((ValueIdx.contrEquiv1 Cert.ReferenceIdeal.dot_S50000x96_S96x96_S50000x96_1_0_0_1_n_n 96 rfl rfl).symm k) = Lix2 i k := funext fun a => Fin.ext (by
    match a with
    | ⟨0, _⟩ => exact Lhs2_0 _ _
    | ⟨1, _⟩ => exact (Lhs2_1 _ _).trans hk)
  have er : Cert.ReferenceIdeal.dot_S50000x96_S96x96_S50000x96_1_0_0_1_n_n.rhsIdx i ((ValueIdx.contrEquiv1 Cert.ReferenceIdeal.dot_S50000x96_S96x96_S50000x96_1_0_0_1_n_n 96 rfl rfl).symm k) = Rix2 i k := funext fun a => Fin.ext (by
    match a with
    | ⟨0, _⟩ => exact (Rhs2_0 _ _).trans hk
    | ⟨1, _⟩ => exact Rhs2_1 _ _)
  rw [el, er]

/-- So a tile's product at `y` is the arrays' `dot_general` at `i` as soon as the tile's row `y 0` is the first array's
    row `i 0`, the second block is the whole weight matrix and the columns agree. -/
theorem pay2_eq_dense2 (a2 : S50000x96.Idx → EReal) (a1 : S96x96.Idx → EReal)
    (x2 : Vec Ideal S10000x96 .f32) (x1 : Vec Ideal S96x96 .f32) (y : S10000x96.Idx) (i : S50000x96.Idx)
    (h2 : ∀ k : Fin 96, x2 (lix2 y k) = a2 (Lix2 i k)) (h1 : ∀ k : Fin 96, x1 (rix2 y k) = a1 (Rix2 i k)) :
    k2_pay1 (F := Ideal) x2 x1 y = dense2 a2 a1 i := by
  rw [pay2_apply, dense2_apply]
  exact Finset.sum_congr rfl fun k _ => by rw [h2 k, h1 k]

/-! ## From the tiles to the array -/

variable (V : (c : Dev nD) → (b : Ref sig .tc) → Buf (Elt Ideal) ((c : Thread nD τ).loc b))

/-- The first array as the call finds it. -/
abbrev arr2_0 (c : Dev nD) : S50000x96.Idx → EReal := V c (Pipeline.arrRef spec2 0)
/-- The weight matrix as the call finds it. -/
abbrev arr2_1 (c : Dev nD) : S96x96.Idx → EReal := V c (Pipeline.arrRef spec2 1)

/-- The zero offsets of a whole-window rectangle, however they are spelt. -/
theorem hz2 : (![0, 0] : Fin 2 → Nat) = fun _ => 0 := funext fun a => by fin_cases a <;> rfl

/-- The index maps over the grid: at point `t` the first operand's window and the result window sit at block
    `(t, 0)`, the weight window at block `(0, 0)`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `x 0` of the first operand's tile at point `t` is row `10000 t + x 0` of the first array. -/
theorem iblk2_0_apply (c : Dev nD) (t : Fin cfg2.N) (x : S10000x96.Idx) (i : S50000x96.Idx)
    (h2 : (i 0).val = t.val * 10000 + (x 0).val) (h1 : (i 1).val = (x 1).val) :
    (iblk2 V c 0 t : Vec Ideal S10000x96 .f32) x = arr2_0 V c i := by
  obtain ⟨e2, e1, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 10000 + 1 * (x 0).val = (i 0).val; omega
  | ⟨1, _⟩ => show win2_0.index t (1 : Fin 2) * S10000x96.size 1 + 1 * (x 1).val = (i 1).val; rw [e1]; omega

/-- The weight window holds the whole matrix at every point. -/
theorem iblk2_1_apply (c : Dev nD) (t : Fin cfg2.N) (x : S96x96.Idx) (i : S96x96.Idx)
    (h2 : (i 0).val = (x 0).val) (h1 : (i 1).val = (x 1).val) :
    (iblk2 V c 1 t : Vec Ideal S96x96 .f32) x = arr2_1 V c i := by
  obtain ⟨-, -, e2, e1, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * S96x96.size 0 + 1 * (x 0).val = (i 0).val; rw [e2]; omega
  | ⟨1, _⟩ => show win2_1.index t (1 : Fin 2) * S96x96.size 1 + 1 * (x 1).val = (i 1).val; rw [e1]; omega

/-- The product of the two blocks of point `t` at `y` is the arrays' dense layer at row `10000 t + y 0`, column `y 1`. -/
theorem tile2_entry (c : Dev nD) (t : Fin cfg2.N) (y : S10000x96.Idx) (i : S50000x96.Idx)
    (h2 : (i 0).val = t.val * 10000 + (y 0).val) (h1 : (i 1).val = (y 1).val) :
    k2_pay1 (F := Ideal) (iblk2 V c 0 t) (iblk2 V c 1 t) y = dense2 (arr2_0 V c) (arr2_1 V c) i :=
  pay2_eq_dense2 (arr2_0 V c) (arr2_1 V c) (iblk2 V c 0 t) (iblk2 V c 1 t) y i
    (fun k => iblk2_0_apply V c t (lix2 y k) (Lix2 i k) h2 rfl)
    (fun k => iblk2_1_apply V c t (rix2 y k) (Rix2 i k) rfl h1)

/-- What point `t` writes back is block `t` of the arrays' dense layer. -/
theorem flushed2_eq (c : Dev nD) (t : Fin cfg2.N) :
    (dat2 (F := Ideal) V c).flushed 2 t
      = ((cfg2.win 2).blk t).view.read (Elt Ideal) (dense2 (arr2_0 V c) (arr2_1 V c)) := by
  show (cfg2.win 2).cut (grid2.coords t) ((dat2 (F := Ideal) V c).after 2 t) = _
  rw [after2_2]
  unfold out2_2
  rw [View.canon_unit_zero hz2]
  simp only [View.ld_unit_zero (S := S10000x96) hz2, View.ld_unit_zero (S := S96x96) hz2]
  obtain ⟨-, -, -, -, e2, e1⟩ := idx_facts2 t
  funext y
  show k2_pay1 (F := Ideal) (iblk2 V c 0 t) (iblk2 V c 1 t) y
    = dense2 (arr2_0 V c) (arr2_1 V c) (((cfg2.win 2).blk t).view.emb y)
  refine tile2_entry V c t y (((cfg2.win 2).blk t).view.emb y) ?_ ?_
  · show win2_2.index t (0 : Fin 2) * 10000 + 1 * (y 0).val = t.val * 10000 + (y 0).val; omega
  · show win2_2.index t (1 : Fin 2) * S10000x96.size 1 + 1 * (y 1).val = (y 1).val; rw [e1]; omega

/-- An index of the result array is in point `t`'s block iff each coordinate is in the block's range on its axis. -/
theorem mem_blk2 (t : Fin cfg2.N) (i : S50000x96.Idx) :
    i ∈ ((cfg2.win 2).blk t).view.set ↔ ∀ a : Fin 2, win2_2.index t a * S10000x96.size a ≤ (i a).val ∧ (i a).val < win2_2.index t a * S10000x96.size a + S10000x96.size a := by
  show i ∈ ((View.whole (Pipeline.arrRef spec2 2)).slice (win2_2.rect t)).set ↔ _
  rw [View.set_slice_whole, Rect.mem_set_unit]
  exact Iff.rfl

/-- Every row of the result array lies in a tile: row `r` in the tile of point `r / 10000`. -/
theorem cover2 (i : S50000x96.Idx) :
    ∃ t : Fin cfg2.N, (cfg2.win 2).flush t = true ∧ i ∈ ((cfg2.win 2).blk t).view.set := by
  have hi2 : (i 0).val < 10000 * 5 := (i 0).isLt
  have hi1 : (i 1).val < S10000x96.size 1 := (i 1).isLt
  have hN : cfg2.N = 5 := rfl
  refine ⟨⟨(i 0).val / 10000, by rw [hN]; omega⟩, flush2_2 _, ?_⟩
  rw [mem_blk2]
  obtain ⟨-, -, -, -, e2, e1⟩ := idx_facts2 ⟨(i 0).val / 10000, by rw [hN]; omega⟩
  intro a
  match a with
  | ⟨0, _⟩ =>
    show win2_2.index _ (0 : Fin 2) * 10000 ≤ (i 0).val ∧ (i 0).val < win2_2.index _ (0 : Fin 2) * 10000 + 10000
    rw [e2]; show (i 0).val / 10000 * 10000 ≤ (i 0).val ∧ (i 0).val < (i 0).val / 10000 * 10000 + 10000; omega
  | ⟨1, _⟩ =>
    show win2_2.index _ (1 : Fin 2) * S10000x96.size 1 ≤ (i 1).val ∧ (i 1).val < win2_2.index _ (1 : Fin 2) * S10000x96.size 1 + S10000x96.size 1
    rw [e1]; omega

/-- THE ARRAY after call 2: the dense layer of the first array and the weight matrix as the call found them. -/
theorem final2 (c : Dev nD) :
    (dat2 (F := Ideal) V c).arrAt 2 cfg2.N
      = Host.dotGeneral (F := Ideal) (φ₁ := .f32) (φ₂ := .f32) Cert.ReferenceIdeal.dot_S50000x96_S96x96_S50000x96_1_0_0_1_n_n none
          (V c (Pipeline.arrRef spec2 0)) (V c (Pipeline.arrRef spec2 1)) :=
  (dat2 (F := Ideal) V c).arrAt_eq_of_cover 2 (dense2 (arr2_0 V c) (arr2_1 V c)) (fun t _ => flushed2_eq V c t) cover2

end Cert.KernelIdeal.Val

end
-- ==== Proof.KI.ValBias3.lean ====
import proofs.«400805_j35450660061449_1_alg».proof.Proof.KI.Region3
import proofs.«400805_j35450660061449_1_alg».proof.Proof.KI.ValBias1
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]

/-- Calls 1 and 3 have one body: the tile law of call 1 serves call 3. -/
theorem tile3_eq (A : Vec F S50000x96 .f32) (B : Vec F S1x96 .f32)
    (xt : Vec F S10000x96 .f32) (xr : Vec F S1x96 .f32) (n : Nat)
    (hA : ∀ (y : S10000x96.Idx) (k : S50000x96.Idx), (k 0).val = n * 10000 + (y 0).val → (k 1).val = (y 1).val → xt y = A k)
    (hB : ∀ z w : S1x96.Idx, (w 1).val = (z 1).val → xr z = B w)
    (y : S10000x96.Idx) (k : S50000x96.Idx) (hkr : (k 0).val = n * 10000 + (y 0).val) (hkc : (k 1).val = (y 1).val) :
    k3_pay1 xt xr y = G1 A B k :=
  tile1_eq A B xt xr n hA hB y k hkr hkc

variable (V : (c : Dev nD) → (b : Ref sig .tc) → Buf (Elt F) ((c : Thread nD τ).loc b))

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem iblk3_0_apply (c : Dev nD) (t : Fin cfg3.N) (y : S10000x96.Idx) (k : S50000x96.Idx)
    (hkr : (k 0).val = t.val * 10000 + (y 0).val) (hkc : (k 1).val = (y 1).val) :
    (iblk3 V c 0 t : Vec F S10000x96 .f32) y = (V c (Pipeline.arrRef spec3 0) : Vec F S50000x96 .f32) k := by
  obtain ⟨ea, eb, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t 0 * 10000 + 1 * (y 0).val = (k 0).val; rw [ea, hkr]; omega
  | ⟨1, _⟩ => show win3_0.index t 1 * 96 + 1 * (y 1).val = (k 1).val; rw [eb, hkc]; omega

theorem iblk3_1_apply (c : Dev nD) (t : Fin cfg3.N) (z w : S1x96.Idx) (hw : (w 1).val = (z 1).val) :
    (iblk3 V c 1 t : Vec F S1x96 .f32) z = (V c (Pipeline.arrRef spec3 1) : Vec F S1x96 .f32) w := by
  obtain ⟨-, -, ec, ed, -⟩ := idx_facts3 t
  have hz0 : (z 0).val < 1 := idx2_lt0 z
  have hw0 : (w 0).val < 1 := idx2_lt0 w
  unfold iblk3
  rw [View.read_apply]
  show V c (Pipeline.arrRef spec3 1) _ = V c (Pipeline.arrRef spec3 1) _
  congr 1
  funext a
  apply Fin.ext
  match a with
  | ⟨0, _⟩ => show win3_1.index t 0 * 1 + 1 * (z 0).val = (w 0).val; rw [ec]; omega
  | ⟨1, _⟩ => show win3_1.index t 1 * 96 + 1 * (z 1).val = (w 1).val; rw [ed, hw]; omega

theorem flushed3_eq (c : Dev nD) (t : Fin cfg3.N) :
    (dat3 V c).flushed 2 t
      = ((cfg3.win 2).blk t).view.read (Elt F) (G1 (V c (Pipeline.arrRef spec3 0)) (V c (Pipeline.arrRef spec3 1))) := by
  show (cfg3.win 2).cut (grid3.coords t) ((dat3 V c).after 2 t) = _
  rw [after3_2]
  unfold out3_2
  rw [View.canon_unit_zero hz1]
  simp only [View.ld_unit_zero (S := S10000x96) hz1, View.ld_unit_zero (S := S1x96) hz1]
  obtain ⟨-, -, -, -, ee, ef⟩ := idx_facts3 t
  funext j
  show k3_pay1 (iblk3 V c 0 t) (iblk3 V c 1 t) j
    = G1 (V c (Pipeline.arrRef spec3 0)) (V c (Pipeline.arrRef spec3 1)) (((cfg3.win 2).blk t).view.emb j)
  refine tile3_eq (V c (Pipeline.arrRef spec3 0)) (V c (Pipeline.arrRef spec3 1)) (iblk3 V c 0 t) (iblk3 V c 1 t) t.val
    (fun y k hr hc => iblk3_0_apply V c t y k hr hc) (fun z w h => iblk3_1_apply V c t z w h)
    j (((cfg3.win 2).blk t).view.emb j) ?_ ?_
  · show win3_2.index t 0 * 10000 + 1 * (j 0).val = t.val * 10000 + (j 0).val
    rw [ee]; omega
  · show win3_2.index t 1 * 96 + 1 * (j 1).val = (j 1).val
    rw [ef]; omega

theorem mem_blk3 (t : Fin cfg3.N) (i : S50000x96.Idx) :
    i ∈ ((cfg3.win 2).blk t).view.set
      ↔ ∀ a : Fin 2, win3_2.index t a * S10000x96.size a ≤ (i a).val
          ∧ (i a).val < win3_2.index t a * S10000x96.size a + S10000x96.size a := by
  show i ∈ ((View.whole (Pipeline.arrRef spec3 2)).slice (win3_2.rect t)).set ↔ _
  rw [View.set_slice_whole, Rect.mem_set_unit]
  exact Iff.rfl

theorem cover3 (i : S50000x96.Idx) :
    ∃ t : Fin cfg3.N, (cfg3.win 2).flush t = true ∧ i ∈ ((cfg3.win 2).blk t).view.set := by
  have hir : (i 0).val < 50000 := idx2_lt0 i
  have hic : (i 1).val < 96 := idx2_lt1 i
  have hN : cfg3.N = 5 := N_3
  let t : Fin cfg3.N := ⟨(i 0).val / 10000, by rw [hN]; omega⟩
  obtain ⟨-, -, -, -, ee, ef⟩ := idx_facts3 t
  have ht : t.val = (i 0).val / 10000 := rfl
  refine ⟨t, flush3_2 t, ?_⟩
  rw [mem_blk3]
  intro a
  match a with
  | ⟨0, _⟩ =>
      show win3_2.index t 0 * 10000 ≤ (i 0).val ∧ (i 0).val < win3_2.index t 0 * 10000 + 10000
      rw [ee, ht]; omega
  | ⟨1, _⟩ =>
      show win3_2.index t 1 * 96 ≤ (i 1).val ∧ (i 1).val < win3_2.index t 1 * 96 + 96
      rw [ef]; omega

theorem final3_gen (c : Dev nD) :
    (dat3 V c).arrAt 2 cfg3.N = G1 (V c (Pipeline.arrRef spec3 0)) (V c (Pipeline.arrRef spec3 1)) :=
  (dat3 V c).arrAt_eq_of_cover 2 (G1 (V c (Pipeline.arrRef spec3 0)) (V c (Pipeline.arrRef spec3 1)))
    (fun t _ => flushed3_eq V c t) cover3

theorem final3 (V : (c : Dev nD) → (b : Ref sig .tc) → Buf (Elt Ideal) ((c : Thread nD τ).loc b)) (c : Dev nD) :
    (dat3 (F := Ideal) V c).arrAt 2 cfg3.N
      = maximumf (addf (V c (Pipeline.arrRef spec3 0)) (broadcastInDim Cert.ReferenceIdeal.S50000x96 ![0, 1] Cert.ReferenceIdeal.Facts₀.bcast_S1x96_S50000x96_0_1 (V c (Pipeline.arrRef spec3 1))))
          (broadcastInDim Cert.ReferenceIdeal.S50000x96 ![] Cert.ReferenceIdeal.Facts₀.bcast_S_S50000x96 (constant (F := Ideal) Cert.ReferenceIdeal.S_ .f32 0x00000000#32)) :=
  final3_gen V c

end Cert.KernelIdeal.Val

end
-- ==== Proof.KI.ValMat4.lean ====
import proofs.«400805_j35450660061449_1_alg».proof.Proof.KI.Region4
import proofs.«400805_j35450660061449_1_alg».proof.Proof.KI.ValMat2
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx
import Idealize.ShloMosaic.PureOps.Ideal.Laws
import Mathlib.Algebra.BigOperators.Group.Finset.Basic

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open scoped BigOperators

/-- Calls 2 and 4 have one body: the tile law of call 2 serves call 4. -/
theorem pay4_eq_dense2 (a4 : S50000x96.Idx → EReal) (a1 : S96x96.Idx → EReal)
    (x4 : Vec Ideal S10000x96 .f32) (x1 : Vec Ideal S96x96 .f32) (y : S10000x96.Idx) (i : S50000x96.Idx)
    (h4 : ∀ k : Fin 96, x4 (lix2 y k) = a4 (Lix2 i k)) (h1 : ∀ k : Fin 96, x1 (rix2 y k) = a1 (Rix2 i k)) :
    k4_pay1 (F := Ideal) x4 x1 y = dense2 a4 a1 i :=
  pay2_eq_dense2 a4 a1 x4 x1 y i h4 h1

variable (V : (c : Dev nD) → (b : Ref sig .tc) → Buf (Elt Ideal) ((c : Thread nD τ).loc b))

abbrev arr4_0 (c : Dev nD) : S50000x96.Idx → EReal := V c (Pipeline.arrRef spec4 0)

abbrev arr4_1 (c : Dev nD) : S96x96.Idx → EReal := V c (Pipeline.arrRef spec4 1)

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem iblk4_0_apply (c : Dev nD) (t : Fin cfg4.N) (x : S10000x96.Idx) (i : S50000x96.Idx)
    (h4 : (i 0).val = t.val * 10000 + (x 0).val) (h1 : (i 1).val = (x 1).val) :
    (iblk4 V c 0 t : Vec Ideal S10000x96 .f32) x = arr4_0 V c i := by
  obtain ⟨e4, e1, -⟩ := idx_facts4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 10000 + 1 * (x 0).val = (i 0).val; omega
  | ⟨1, _⟩ => show win4_0.index t (1 : Fin 2) * S10000x96.size 1 + 1 * (x 1).val = (i 1).val; rw [e1]; omega

theorem iblk4_1_apply (c : Dev nD) (t : Fin cfg4.N) (x : S96x96.Idx) (i : S96x96.Idx)
    (h4 : (i 0).val = (x 0).val) (h1 : (i 1).val = (x 1).val) :
    (iblk4 V c 1 t : Vec Ideal S96x96 .f32) x = arr4_1 V c i := by
  obtain ⟨-, -, e4, e1, -⟩ := idx_facts4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * S96x96.size 0 + 1 * (x 0).val = (i 0).val; rw [e4]; omega
  | ⟨1, _⟩ => show win4_1.index t (1 : Fin 2) * S96x96.size 1 + 1 * (x 1).val = (i 1).val; rw [e1]; omega

theorem tile4_entry (c : Dev nD) (t : Fin cfg4.N) (y : S10000x96.Idx) (i : S50000x96.Idx)
    (h4 : (i 0).val = t.val * 10000 + (y 0).val) (h1 : (i 1).val = (y 1).val) :
    k4_pay1 (F := Ideal) (iblk4 V c 0 t) (iblk4 V c 1 t) y = dense2 (arr4_0 V c) (arr4_1 V c) i :=
  pay4_eq_dense2 (arr4_0 V c) (arr4_1 V c) (iblk4 V c 0 t) (iblk4 V c 1 t) y i
    (fun k => iblk4_0_apply V c t (lix2 y k) (Lix2 i k) h4 rfl)
    (fun k => iblk4_1_apply V c t (rix2 y k) (Rix2 i k) rfl h1)

theorem flushed4_eq (c : Dev nD) (t : Fin cfg4.N) :
    (dat4 (F := Ideal) V c).flushed 2 t
      = ((cfg4.win 2).blk t).view.read (Elt Ideal) (dense2 (arr4_0 V c) (arr4_1 V c)) := by
  show (cfg4.win 2).cut (grid4.coords t) ((dat4 (F := Ideal) V c).after 2 t) = _
  rw [after4_2]
  unfold out4_2
  rw [View.canon_unit_zero hz2]
  simp only [View.ld_unit_zero (S := S10000x96) hz2, View.ld_unit_zero (S := S96x96) hz2]
  obtain ⟨-, -, -, -, e4, e1⟩ := idx_facts4 t
  funext y
  show k4_pay1 (F := Ideal) (iblk4 V c 0 t) (iblk4 V c 1 t) y
    = dense2 (arr4_0 V c) (arr4_1 V c) (((cfg4.win 2).blk t).view.emb y)
  refine tile4_entry V c t y (((cfg4.win 2).blk t).view.emb y) ?_ ?_
  · show win4_2.index t (0 : Fin 2) * 10000 + 1 * (y 0).val = t.val * 10000 + (y 0).val; omega
  · show win4_2.index t (1 : Fin 2) * S10000x96.size 1 + 1 * (y 1).val = (y 1).val; rw [e1]; omega

theorem mem_blk4 (t : Fin cfg4.N) (i : S50000x96.Idx) :
    i ∈ ((cfg4.win 2).blk t).view.set ↔ ∀ a : Fin 2, win4_2.index t a * S10000x96.size a ≤ (i a).val ∧ (i a).val < win4_2.index t a * S10000x96.size a + S10000x96.size a := by
  show i ∈ ((View.whole (Pipeline.arrRef spec4 2)).slice (win4_2.rect t)).set ↔ _
  rw [View.set_slice_whole, Rect.mem_set_unit]
  exact Iff.rfl

theorem cover4 (i : S50000x96.Idx) :
    ∃ t : Fin cfg4.N, (cfg4.win 2).flush t = true ∧ i ∈ ((cfg4.win 2).blk t).view.set := by
  have hi4 : (i 0).val < 10000 * 5 := (i 0).isLt
  have hi1 : (i 1).val < S10000x96.size 1 := (i 1).isLt
  have hN : cfg4.N = 5 := rfl
  refine ⟨⟨(i 0).val / 10000, by rw [hN]; omega⟩, flush4_2 _, ?_⟩
  rw [mem_blk4]
  obtain ⟨-, -, -, -, e4, e1⟩ := idx_facts4 ⟨(i 0).val / 10000, by rw [hN]; omega⟩
  intro a
  match a with
  | ⟨0, _⟩ =>
    show win4_2.index _ (0 : Fin 2) * 10000 ≤ (i 0).val ∧ (i 0).val < win4_2.index _ (0 : Fin 2) * 10000 + 10000
    rw [e4]; show (i 0).val / 10000 * 10000 ≤ (i 0).val ∧ (i 0).val < (i 0).val / 10000 * 10000 + 10000; omega
  | ⟨1, _⟩ =>
    show win4_2.index _ (1 : Fin 2) * S10000x96.size 1 ≤ (i 1).val ∧ (i 1).val < win4_2.index _ (1 : Fin 2) * S10000x96.size 1 + S10000x96.size 1
    rw [e1]; omega

theorem final4 (c : Dev nD) :
    (dat4 (F := Ideal) V c).arrAt 2 cfg4.N
      = Host.dotGeneral (F := Ideal) (φ₁ := .f32) (φ₂ := .f32) Cert.ReferenceIdeal.dot_S50000x96_S96x96_S50000x96_1_0_0_1_n_n none
          (V c (Pipeline.arrRef spec4 0)) (V c (Pipeline.arrRef spec4 1)) :=
  (dat4 (F := Ideal) V c).arrAt_eq_of_cover 2 (dense2 (arr4_0 V c) (arr4_1 V c)) (fun t _ => flushed4_eq V c t) cover4

end Cert.KernelIdeal.Val

end
-- ==== Proof.KI.ValBias5.lean ====
import proofs.«400805_j35450660061449_1_alg».proof.Proof.KI.Region5
import proofs.«400805_j35450660061449_1_alg».proof.Proof.KI.ValBias1
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]

/-- Calls 1 and 5 have one body: the tile law of call 1 serves call 5. -/
theorem tile5_eq (A : Vec F S50000x96 .f32) (B : Vec F S1x96 .f32)
    (xt : Vec F S10000x96 .f32) (xr : Vec F S1x96 .f32) (n : Nat)
    (hA : ∀ (y : S10000x96.Idx) (k : S50000x96.Idx), (k 0).val = n * 10000 + (y 0).val → (k 1).val = (y 1).val → xt y = A k)
    (hB : ∀ z w : S1x96.Idx, (w 1).val = (z 1).val → xr z = B w)
    (y : S10000x96.Idx) (k : S50000x96.Idx) (hkr : (k 0).val = n * 10000 + (y 0).val) (hkc : (k 1).val = (y 1).val) :
    k5_pay1 xt xr y = G1 A B k :=
  tile1_eq A B xt xr n hA hB y k hkr hkc

variable (V : (c : Dev nD) → (b : Ref sig .tc) → Buf (Elt F) ((c : Thread nD τ).loc b))

theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem iblk5_0_apply (c : Dev nD) (t : Fin cfg5.N) (y : S10000x96.Idx) (k : S50000x96.Idx)
    (hkr : (k 0).val = t.val * 10000 + (y 0).val) (hkc : (k 1).val = (y 1).val) :
    (iblk5 V c 0 t : Vec F S10000x96 .f32) y = (V c (Pipeline.arrRef spec5 0) : Vec F S50000x96 .f32) k := by
  obtain ⟨ea, eb, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t 0 * 10000 + 1 * (y 0).val = (k 0).val; rw [ea, hkr]; omega
  | ⟨1, _⟩ => show win5_0.index t 1 * 96 + 1 * (y 1).val = (k 1).val; rw [eb, hkc]; omega

theorem iblk5_1_apply (c : Dev nD) (t : Fin cfg5.N) (z w : S1x96.Idx) (hw : (w 1).val = (z 1).val) :
    (iblk5 V c 1 t : Vec F S1x96 .f32) z = (V c (Pipeline.arrRef spec5 1) : Vec F S1x96 .f32) w := by
  obtain ⟨-, -, ec, ed, -⟩ := idx_facts5 t
  have hz0 : (z 0).val < 1 := idx2_lt0 z
  have hw0 : (w 0).val < 1 := idx2_lt0 w
  unfold iblk5
  rw [View.read_apply]
  show V c (Pipeline.arrRef spec5 1) _ = V c (Pipeline.arrRef spec5 1) _
  congr 1
  funext a
  apply Fin.ext
  match a with
  | ⟨0, _⟩ => show win5_1.index t 0 * 1 + 1 * (z 0).val = (w 0).val; rw [ec]; omega
  | ⟨1, _⟩ => show win5_1.index t 1 * 96 + 1 * (z 1).val = (w 1).val; rw [ed, hw]; omega

theorem flushed5_eq (c : Dev nD) (t : Fin cfg5.N) :
    (dat5 V c).flushed 2 t
      = ((cfg5.win 2).blk t).view.read (Elt F) (G1 (V c (Pipeline.arrRef spec5 0)) (V c (Pipeline.arrRef spec5 1))) := by
  show (cfg5.win 2).cut (grid5.coords t) ((dat5 V c).after 2 t) = _
  rw [after5_2]
  unfold out5_2
  rw [View.canon_unit_zero hz1]
  simp only [View.ld_unit_zero (S := S10000x96) hz1, View.ld_unit_zero (S := S1x96) hz1]
  obtain ⟨-, -, -, -, ee, ef⟩ := idx_facts5 t
  funext j
  show k5_pay1 (iblk5 V c 0 t) (iblk5 V c 1 t) j
    = G1 (V c (Pipeline.arrRef spec5 0)) (V c (Pipeline.arrRef spec5 1)) (((cfg5.win 2).blk t).view.emb j)
  refine tile5_eq (V c (Pipeline.arrRef spec5 0)) (V c (Pipeline.arrRef spec5 1)) (iblk5 V c 0 t) (iblk5 V c 1 t) t.val
    (fun y k hr hc => iblk5_0_apply V c t y k hr hc) (fun z w h => iblk5_1_apply V c t z w h)
    j (((cfg5.win 2).blk t).view.emb j) ?_ ?_
  · show win5_2.index t 0 * 10000 + 1 * (j 0).val = t.val * 10000 + (j 0).val
    rw [ee]; omega
  · show win5_2.index t 1 * 96 + 1 * (j 1).val = (j 1).val
    rw [ef]; omega

theorem mem_blk5 (t : Fin cfg5.N) (i : S50000x96.Idx) :
    i ∈ ((cfg5.win 2).blk t).view.set
      ↔ ∀ a : Fin 2, win5_2.index t a * S10000x96.size a ≤ (i a).val
          ∧ (i a).val < win5_2.index t a * S10000x96.size a + S10000x96.size a := by
  show i ∈ ((View.whole (Pipeline.arrRef spec5 2)).slice (win5_2.rect t)).set ↔ _
  rw [View.set_slice_whole, Rect.mem_set_unit]
  exact Iff.rfl

theorem cover5 (i : S50000x96.Idx) :
    ∃ t : Fin cfg5.N, (cfg5.win 2).flush t = true ∧ i ∈ ((cfg5.win 2).blk t).view.set := by
  have hir : (i 0).val < 50000 := idx2_lt0 i
  have hic : (i 1).val < 96 := idx2_lt1 i
  have hN : cfg5.N = 5 := N_5
  let t : Fin cfg5.N := ⟨(i 0).val / 10000, by rw [hN]; omega⟩
  obtain ⟨-, -, -, -, ee, ef⟩ := idx_facts5 t
  have ht : t.val = (i 0).val / 10000 := rfl
  refine ⟨t, flush5_2 t, ?_⟩
  rw [mem_blk5]
  intro a
  match a with
  | ⟨0, _⟩ =>
      show win5_2.index t 0 * 10000 ≤ (i 0).val ∧ (i 0).val < win5_2.index t 0 * 10000 + 10000
      rw [ee, ht]; omega
  | ⟨1, _⟩ =>
      show win5_2.index t 1 * 96 ≤ (i 1).val ∧ (i 1).val < win5_2.index t 1 * 96 + 96
      rw [ef]; omega

theorem final5_gen (c : Dev nD) :
    (dat5 V c).arrAt 2 cfg5.N = G1 (V c (Pipeline.arrRef spec5 0)) (V c (Pipeline.arrRef spec5 1)) :=
  (dat5 V c).arrAt_eq_of_cover 2 (G1 (V c (Pipeline.arrRef spec5 0)) (V c (Pipeline.arrRef spec5 1)))
    (fun t _ => flushed5_eq V c t) cover5

theorem final5 (V : (c : Dev nD) → (b : Ref sig .tc) → Buf (Elt Ideal) ((c : Thread nD τ).loc b)) (c : Dev nD) :
    (dat5 (F := Ideal) V c).arrAt 2 cfg5.N
      = maximumf (addf (V c (Pipeline.arrRef spec5 0)) (broadcastInDim Cert.ReferenceIdeal.S50000x96 ![0, 1] Cert.ReferenceIdeal.Facts₀.bcast_S1x96_S50000x96_0_1 (V c (Pipeline.arrRef spec5 1))))
          (broadcastInDim Cert.ReferenceIdeal.S50000x96 ![] Cert.ReferenceIdeal.Facts₀.bcast_S_S50000x96 (constant (F := Ideal) Cert.ReferenceIdeal.S_ .f32 0x00000000#32)) :=
  final5_gen V c

end Cert.KernelIdeal.Val

end
-- ==== Proof.KI.ValMat6.lean ====
import proofs.«400805_j35450660061449_1_alg».proof.Proof.KI.Region6
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx
import Idealize.ShloMosaic.PureOps.Ideal.Laws
import Mathlib.Algebra.BigOperators.Group.Finset.Basic

/-!
# Pallas call 6: the result array is the dense layer of the whole arrays

Call 6 writes its result one row tile at a time: grid point `t` multiplies rows `10000 t … 10000 t + 9999`
of the first operand by the whole weight matrix and writes the product back as the same rows of the result.
Over the extended reals the product of a tile at entry `(r, j)` is the plain sum `∑ k, x[r, k] · w[k, j]`
(rounding an operand to bf16 is the identity, the accumulator starts at zero), so entry `(r, j)` of the
result array, written by the point `r / 10000`, is `∑ k, x[r, k] · w[k, j]` of the WHOLE first operand: the
`dot_general` of the two arrays. The five tiles cover every row, hence the array after the call is that
`dot_general`, whatever the core's buffers held when the call was entered.
-/

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open scoped BigOperators

/-! ## A tile's product at an entry -/

/-- The tile product's first operand index keeps the row of the output index … -/
theorem lhs6_0 (i : S10000x64.Idx) (q : dot_S10000x96_S96x64_S10000x64_1_0_0_1_n_n.contr.Idx) :
    (dot_S10000x96_S96x64_S10000x64_1_0_0_1_n_n.lhsIdx i q 0).val = (i 0).val := by
  unfold DotDims.lhsIdx
  rw [dif_neg (show ¬(0 : Fin S10000x96.rank) ∈ dot_S10000x96_S96x64_S10000x64_1_0_0_1_n_n.lhsBatch by decide), dif_pos (show (0 : Fin S10000x96.rank) ∈ dot_S10000x96_S96x64_S10000x64_1_0_0_1_n_n.lhsNonContracting by decide)]
  rfl
/-- … and takes the contraction coordinate as its column; -/
theorem lhs6_1 (i : S10000x64.Idx) (q : dot_S10000x96_S96x64_S10000x64_1_0_0_1_n_n.contr.Idx) :
    (dot_S10000x96_S96x64_S10000x64_1_0_0_1_n_n.lhsIdx i q 1).val = (q ⟨0, by decide⟩).val :=
  dot_S10000x96_S96x64_S10000x64_1_0_0_1_n_n.lhsIdx_val_of_single rfl i q
/-- the second operand index takes the contraction coordinate as its row … -/
theorem rhs6_0 (i : S10000x64.Idx) (q : dot_S10000x96_S96x64_S10000x64_1_0_0_1_n_n.contr.Idx) :
    (dot_S10000x96_S96x64_S10000x64_1_0_0_1_n_n.rhsIdx i q 0).val = (q ⟨0, by decide⟩).val :=
  dot_S10000x96_S96x64_S10000x64_1_0_0_1_n_n.rhsIdx_val_of_single rfl i q
/-- … and keeps the column of the output index. -/
theorem rhs6_1 (i : S10000x64.Idx) (q : dot_S10000x96_S96x64_S10000x64_1_0_0_1_n_n.contr.Idx) :
    (dot_S10000x96_S96x64_S10000x64_1_0_0_1_n_n.rhsIdx i q 1).val = (i 1).val := by
  unfold DotDims.rhsIdx
  rw [dif_neg (show ¬(1 : Fin S96x64.rank) ∈ dot_S10000x96_S96x64_S10000x64_1_0_0_1_n_n.rhsBatch by decide), dif_pos (show (1 : Fin S96x64.rank) ∈ dot_S10000x96_S96x64_S10000x64_1_0_0_1_n_n.rhsNonContracting by decide)]
  rfl

/-- Entry `(r, k)` of the first operand's tile, for the output entry `y = (r, j)`. -/
abbrev lix6 (y : S10000x64.Idx) (k : Fin 96) : S10000x96.Idx := fun a => match a with
  | ⟨0, _⟩ => ⟨(y 0).val, (y 0).isLt⟩
  | ⟨1, _⟩ => ⟨k.val, k.isLt⟩
/-- Entry `(k, j)` of the weight matrix, for the output entry `y = (r, j)`. -/
abbrev rix6 (y : S10000x64.Idx) (k : Fin 96) : S96x64.Idx := fun a => match a with
  | ⟨0, _⟩ => ⟨k.val, k.isLt⟩
  | ⟨1, _⟩ => ⟨(y 1).val, (y 1).isLt⟩

/-- The tile's product at `y = (r, j)`: `∑ k, x[r, k] · w[k, j]`. The two roundings to bf16 are the identity on
    the extended reals and the accumulator is the zero splat. -/
theorem pay6_apply (x6 : Vec Ideal S10000x96 .f32) (x1 : Vec Ideal S96x64 .f32) (y : S10000x64.Idx) :
    k6_pay1 (F := Ideal) x6 x1 y = ∑ k : Fin 96, x6 (lix6 y k) * x1 (rix6 y k) := by
  unfold k6_pay1
  refine (Ideal.matmul_constant_zero_apply dot_S10000x96_S96x64_S10000x64_1_0_0_1_n_n none _ _ y).trans ?_
  rw [← Equiv.sum_comp (ValueIdx.contrEquiv1 dot_S10000x96_S96x64_S10000x64_1_0_0_1_n_n 96 rfl rfl).symm]
  refine Finset.sum_congr rfl fun k _ => ?_
  have hk := ValueIdx.contrEquiv1_symm_val dot_S10000x96_S96x64_S10000x64_1_0_0_1_n_n 96 rfl rfl k
  have el : dot_S10000x96_S96x64_S10000x64_1_0_0_1_n_n.lhsIdx y ((ValueIdx.contrEquiv1 dot_S10000x96_S96x64_S10000x64_1_0_0_1_n_n 96 rfl rfl).symm k) = lix6 y k := funext fun a => Fin.ext (by
    match a with
    | ⟨0, _⟩ => exact lhs6_0 _ _
    | ⟨1, _⟩ => exact (lhs6_1 _ _).trans hk)
  have er : dot_S10000x96_S96x64_S10000x64_1_0_0_1_n_n.rhsIdx y ((ValueIdx.contrEquiv1 dot_S10000x96_S96x64_S10000x64_1_0_0_1_n_n 96 rfl rfl).symm k) = rix6 y k := funext fun a => Fin.ext (by
    match a with
    | ⟨0, _⟩ => exact (rhs6_0 _ _).trans hk
    | ⟨1, _⟩ => exact rhs6_1 _ _)
  simp only [ValueIdx.truncf_apply, shapeCast_self, el, er]

/-! ## The whole arrays' `dot_general` at an entry -/

/-- The first operand index of the arrays' `dot_general` keeps the row of the output index … -/
theorem Lhs6_0 (i : S50000x64.Idx) (q : Cert.ReferenceIdeal.dot_S50000x96_S96x64_S50000x64_1_0_0_1_n_n.contr.Idx) :
    (Cert.ReferenceIdeal.dot_S50000x96_S96x64_S50000x64_1_0_0_1_n_n.lhsIdx i q 0).val = (i 0).val := by
  unfold DotDims.lhsIdx
  rw [dif_neg (show ¬(0 : Fin S50000x96.rank) ∈ Cert.ReferenceIdeal.dot_S50000x96_S96x64_S50000x64_1_0_0_1_n_n.lhsBatch by decide), dif_pos (show (0 : Fin S50000x96.rank) ∈ Cert.ReferenceIdeal.dot_S50000x96_S96x64_S50000x64_1_0_0_1_n_n.lhsNonContracting by decide)]
  rfl
/-- … and takes the contraction coordinate as its column; -/
theorem Lhs6_1 (i : S50000x64.Idx) (q : Cert.ReferenceIdeal.dot_S50000x96_S96x64_S50000x64_1_0_0_1_n_n.contr.Idx) :
    (Cert.ReferenceIdeal.dot_S50000x96_S96x64_S50000x64_1_0_0_1_n_n.lhsIdx i q 1).val = (q ⟨0, by decide⟩).val :=
  Cert.ReferenceIdeal.dot_S50000x96_S96x64_S50000x64_1_0_0_1_n_n.lhsIdx_val_of_single rfl i q
/-- the second operand index takes the contraction coordinate as its row … -/
theorem Rhs6_0 (i : S50000x64.Idx) (q : Cert.ReferenceIdeal.dot_S50000x96_S96x64_S50000x64_1_0_0_1_n_n.contr.Idx) :
    (Cert.ReferenceIdeal.dot_S50000x96_S96x64_S50000x64_1_0_0_1_n_n.rhsIdx i q 0).val = (q ⟨0, by decide⟩).val :=
  Cert.ReferenceIdeal.dot_S50000x96_S96x64_S50000x64_1_0_0_1_n_n.rhsIdx_val_of_single rfl i q
/-- … and keeps the column of the output index. -/
theorem Rhs6_1 (i : S50000x64.Idx) (q : Cert.ReferenceIdeal.dot_S50000x96_S96x64_S50000x64_1_0_0_1_n_n.contr.Idx) :
    (Cert.ReferenceIdeal.dot_S50000x96_S96x64_S50000x64_1_0_0_1_n_n.rhsIdx i q 1).val = (i 1).val := by
  unfold DotDims.rhsIdx
  rw [dif_neg (show ¬(1 : Fin S96x64.rank) ∈ Cert.ReferenceIdeal.dot_S50000x96_S96x64_S50000x64_1_0_0_1_n_n.rhsBatch by decide), dif_pos (show (1 : Fin S96x64.rank) ∈ Cert.ReferenceIdeal.dot_S50000x96_S96x64_S50000x64_1_0_0_1_n_n.rhsNonContracting by decide)]
  rfl

/-- Entry `(r, k)` of the first array, for the output entry `i = (r, j)`. -/
abbrev Lix6 (i : S50000x64.Idx) (k : Fin 96) : S50000x96.Idx := fun a => match a with
  | ⟨0, _⟩ => ⟨(i 0).val, (i 0).isLt⟩
  | ⟨1, _⟩ => ⟨k.val, k.isLt⟩
/-- Entry `(k, j)` of the weight matrix, for the output entry `i = (r, j)`. -/
abbrev Rix6 (i : S50000x64.Idx) (k : Fin 96) : S96x64.Idx := fun a => match a with
  | ⟨0, _⟩ => ⟨k.val, k.isLt⟩
  | ⟨1, _⟩ => ⟨(i 1).val, (i 1).isLt⟩

/-- The dense layer of the whole arrays: the `dot_general` of the first array and the weight matrix. -/
abbrev dense6 (a6 : S50000x96.Idx → EReal) (a1 : S96x64.Idx → EReal) : S50000x64.Idx → EReal :=
  Host.dotGeneral (F := Ideal) (φ₁ := .f32) (φ₂ := .f32) Cert.ReferenceIdeal.dot_S50000x96_S96x64_S50000x64_1_0_0_1_n_n none a6 a1

/-- At `i = (r, j)` it is `∑ k, a6[r, k] · a1[k, j]`. -/
theorem dense6_apply (a6 : S50000x96.Idx → EReal) (a1 : S96x64.Idx → EReal) (i : S50000x64.Idx) :
    dense6 a6 a1 i = ∑ k : Fin 96, a6 (Lix6 i k) * a1 (Rix6 i k) := by
  show FloatOps.dotGeneral (F := Ideal) (φ₁ := .f32) (φ₂ := .f32) Cert.ReferenceIdeal.dot_S50000x96_S96x64_S50000x64_1_0_0_1_n_n none .single a6 a1 i = _
  rw [Ideal.dotGeneral_apply, ← Equiv.sum_comp (ValueIdx.contrEquiv1 Cert.ReferenceIdeal.dot_S50000x96_S96x64_S50000x64_1_0_0_1_n_n 96 rfl rfl).symm]
  refine Finset.sum_congr rfl fun k _ => ?_
  have hk := ValueIdx.contrEquiv1_symm_val Cert.ReferenceIdeal.dot_S50000x96_S96x64_S50000x64_1_0_0_1_n_n 96 rfl rfl k
  have el : Cert.ReferenceIdeal.dot_S50000x96_S96x64_S50000x64_1_0_0_1_n_n.lhsIdx i ((ValueIdx.contrEquiv1 Cert.ReferenceIdeal.dot_S50000x96_S96x64_S50000x64_1_0_0_1_n_n 96 rfl rfl).symm k) = Lix6 i k := funext fun a => Fin.ext (by
    match a with
    | ⟨0, _⟩ => exact Lhs6_0 _ _
    | ⟨1, _⟩ => exact (Lhs6_1 _ _).trans hk)
  have er : Cert.ReferenceIdeal.dot_S50000x96_S96x64_S50000x64_1_0_0_1_n_n.rhsIdx i ((ValueIdx.contrEquiv1 Cert.ReferenceIdeal.dot_S50000x96_S96x64_S50000x64_1_0_0_1_n_n 96 rfl rfl).symm k) = Rix6 i k := funext fun a => Fin.ext (by
    match a with
    | ⟨0, _⟩ => exact (Rhs6_0 _ _).trans hk
    | ⟨1, _⟩ => exact Rhs6_1 _ _)
  rw [el, er]

/-- So a tile's product at `y` is the arrays' `dot_general` at `i` as soon as the tile's row `y 0` is the first array's
    row `i 0`, the second block is the whole weight matrix and the columns agree. -/
theorem pay6_eq_dense6 (a6 : S50000x96.Idx → EReal) (a1 : S96x64.Idx → EReal)
    (x6 : Vec Ideal S10000x96 .f32) (x1 : Vec Ideal S96x64 .f32) (y : S10000x64.Idx) (i : S50000x64.Idx)
    (h6 : ∀ k : Fin 96, x6 (lix6 y k) = a6 (Lix6 i k)) (h1 : ∀ k : Fin 96, x1 (rix6 y k) = a1 (Rix6 i k)) :
    k6_pay1 (F := Ideal) x6 x1 y = dense6 a6 a1 i := by
  rw [pay6_apply, dense6_apply]
  exact Finset.sum_congr rfl fun k _ => by rw [h6 k, h1 k]

/-! ## From the tiles to the array -/

variable (V : (c : Dev nD) → (b : Ref sig .tc) → Buf (Elt Ideal) ((c : Thread nD τ).loc b))

/-- The first array as the call finds it. -/
abbrev arr6_0 (c : Dev nD) : S50000x96.Idx → EReal := V c (Pipeline.arrRef spec6 0)
/-- The weight matrix as the call finds it. -/
abbrev arr6_1 (c : Dev nD) : S96x64.Idx → EReal := V c (Pipeline.arrRef spec6 1)

/-- The zero offsets of a whole-window rectangle, however they are spelt. -/
theorem hz6 : (![0, 0] : Fin 2 → Nat) = fun _ => 0 := funext fun a => by fin_cases a <;> rfl

/-- The index maps over the grid: at point `t` the first operand's window and the result window sit at block
    `(t, 0)`, the weight window at block `(0, 0)`. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row `x 0` of the first operand's tile at point `t` is row `10000 t + x 0` of the first array. -/
theorem iblk6_0_apply (c : Dev nD) (t : Fin cfg6.N) (x : S10000x96.Idx) (i : S50000x96.Idx)
    (h6 : (i 0).val = t.val * 10000 + (x 0).val) (h1 : (i 1).val = (x 1).val) :
    (iblk6 V c 0 t : Vec Ideal S10000x96 .f32) x = arr6_0 V c i := by
  obtain ⟨e6, e1, -⟩ := idx_facts6 t
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 10000 + 1 * (x 0).val = (i 0).val; omega
  | ⟨1, _⟩ => show win6_0.index t (1 : Fin 2) * S10000x96.size 1 + 1 * (x 1).val = (i 1).val; rw [e1]; omega

/-- The weight window holds the whole matrix at every point. -/
theorem iblk6_1_apply (c : Dev nD) (t : Fin cfg6.N) (x : S96x64.Idx) (i : S96x64.Idx)
    (h6 : (i 0).val = (x 0).val) (h1 : (i 1).val = (x 1).val) :
    (iblk6 V c 1 t : Vec Ideal S96x64 .f32) x = arr6_1 V c i := by
  obtain ⟨-, -, e6, e1, -⟩ := idx_facts6 t
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * S96x64.size 0 + 1 * (x 0).val = (i 0).val; rw [e6]; omega
  | ⟨1, _⟩ => show win6_1.index t (1 : Fin 2) * S96x64.size 1 + 1 * (x 1).val = (i 1).val; rw [e1]; omega

/-- The product of the two blocks of point `t` at `y` is the arrays' dense layer at row `10000 t + y 0`, column `y 1`. -/
theorem tile6_entry (c : Dev nD) (t : Fin cfg6.N) (y : S10000x64.Idx) (i : S50000x64.Idx)
    (h6 : (i 0).val = t.val * 10000 + (y 0).val) (h1 : (i 1).val = (y 1).val) :
    k6_pay1 (F := Ideal) (iblk6 V c 0 t) (iblk6 V c 1 t) y = dense6 (arr6_0 V c) (arr6_1 V c) i :=
  pay6_eq_dense6 (arr6_0 V c) (arr6_1 V c) (iblk6 V c 0 t) (iblk6 V c 1 t) y i
    (fun k => iblk6_0_apply V c t (lix6 y k) (Lix6 i k) h6 rfl)
    (fun k => iblk6_1_apply V c t (rix6 y k) (Rix6 i k) rfl h1)

/-- What point `t` writes back is block `t` of the arrays' dense layer. -/
theorem flushed6_eq (c : Dev nD) (t : Fin cfg6.N) :
    (dat6 (F := Ideal) V c).flushed 2 t
      = ((cfg6.win 2).blk t).view.read (Elt Ideal) (dense6 (arr6_0 V c) (arr6_1 V c)) := by
  show (cfg6.win 2).cut (grid6.coords t) ((dat6 (F := Ideal) V c).after 2 t) = _
  rw [after6_2]
  unfold out6_2
  rw [View.canon_unit_zero hz6]
  simp only [View.ld_unit_zero (S := S10000x96) hz6, View.ld_unit_zero (S := S96x64) hz6]
  obtain ⟨-, -, -, -, e6, e1⟩ := idx_facts6 t
  funext y
  show k6_pay1 (F := Ideal) (iblk6 V c 0 t) (iblk6 V c 1 t) y
    = dense6 (arr6_0 V c) (arr6_1 V c) (((cfg6.win 2).blk t).view.emb y)
  refine tile6_entry V c t y (((cfg6.win 2).blk t).view.emb y) ?_ ?_
  · show win6_2.index t (0 : Fin 2) * 10000 + 1 * (y 0).val = t.val * 10000 + (y 0).val; omega
  · show win6_2.index t (1 : Fin 2) * S10000x64.size 1 + 1 * (y 1).val = (y 1).val; rw [e1]; omega

/-- An index of the result array is in point `t`'s block iff each coordinate is in the block's range on its axis. -/
theorem mem_blk6 (t : Fin cfg6.N) (i : S50000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole (Pipeline.arrRef spec6 2)).slice (win6_2.rect t)).set ↔ _
  rw [View.set_slice_whole, Rect.mem_set_unit]
  exact Iff.rfl

/-- Every row of the result array lies in a tile: row `r` in the tile of point `r / 10000`. -/
theorem cover6 (i : S50000x64.Idx) :
    ∃ t : Fin cfg6.N, (cfg6.win 2).flush t = true ∧ i ∈ ((cfg6.win 2).blk t).view.set := by
  have hi6 : (i 0).val < 10000 * 5 := (i 0).isLt
  have hi1 : (i 1).val < S10000x64.size 1 := (i 1).isLt
  have hN : cfg6.N = 5 := rfl
  refine ⟨⟨(i 0).val / 10000, by rw [hN]; omega⟩, flush6_2 _, ?_⟩
  rw [mem_blk6]
  obtain ⟨-, -, -, -, e6, e1⟩ := idx_facts6 ⟨(i 0).val / 10000, by rw [hN]; omega⟩
  intro a
  match a with
  | ⟨0, _⟩ =>
    show win6_2.index _ (0 : Fin 2) * 10000 ≤ (i 0).val ∧ (i 0).val < win6_2.index _ (0 : Fin 2) * 10000 + 10000
    rw [e6]; show (i 0).val / 10000 * 10000 ≤ (i 0).val ∧ (i 0).val < (i 0).val / 10000 * 10000 + 10000; omega
  | ⟨1, _⟩ =>
    show win6_2.index _ (1 : Fin 2) * S10000x64.size 1 ≤ (i 1).val ∧ (i 1).val < win6_2.index _ (1 : Fin 2) * S10000x64.size 1 + S10000x64.size 1
    rw [e1]; omega

/-- THE ARRAY after call 6: the dense layer of the first array and the weight matrix as the call found them. -/
theorem final6 (c : Dev nD) :
    (dat6 (F := Ideal) V c).arrAt 2 cfg6.N
      = Host.dotGeneral (F := Ideal) (φ₁ := .f32) (φ₂ := .f32) Cert.ReferenceIdeal.dot_S50000x96_S96x64_S50000x64_1_0_0_1_n_n none
          (V c (Pipeline.arrRef spec6 0)) (V c (Pipeline.arrRef spec6 1)) :=
  (dat6 (F := Ideal) V c).arrAt_eq_of_cover 2 (dense6 (arr6_0 V c) (arr6_1 V c)) (fun t _ => flushed6_eq V c t) cover6

end Cert.KernelIdeal.Val

end
-- ==== Proof.KI.ValBias7.lean ====
import proofs.«400805_j35450660061449_1_alg».proof.Proof.KI.Region7
import proofs.«400805_j35450660061449_1_alg».proof.ReferenceIdeal
import proofs.«400805_j35450660061449_1_alg».proof.Proof.Gen.ReferenceIdeal
import Idealize.ShloMosaic.PureOps.Ideal
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

variable {F : FTy → Type} [FloatOps F]

theorem hz7 : (![0, 0] : Fin 2 → Nat) = fun _ => 0 :=
  funext fun a => match a with | ⟨0, _⟩ => rfl | ⟨1, _⟩ => rfl

theorem pay7_apply (xt : Vec F S10000x64 .f32) (xr : Vec F S1x64 .f32) (y : S10000x64.Idx) (z : S1x64.Idx)
    (hz : (z 1).val = (y 1).val) :
    k7_pay1 xt xr y = FloatOps.addf (xt y) (xr z) := by
  have ea : shapeCast S10000x64 xt Facts₀.shapeCasts_S10000x64_S10000x64 = xt := shapeCast_self xt _
  have eb : shapeCast S1x64 xr Facts₀.shapeCasts_S1x64_S1x64 = xr := shapeCast_self xr _
  have ec : broadcastTo S10000x64 xr Facts₀.broadcasts_S1x64_S10000x64 y = xr z :=
    broadcastTo_apply xr _ y z fun a => match a with
      | ⟨0, _⟩ => by
          show (z 0).val = if (1 : Nat) = 1 then 0 else _
          rw [if_pos rfl]; have := idx2_lt0 z; omega
      | ⟨1, _⟩ => by
          show (z 1).val = if (64 : Nat) = 1 then 0 else (y 1).val
          rw [if_neg (by decide)]; exact hz
  show FloatOps.addf (shapeCast S10000x64 xt Facts₀.shapeCasts_S10000x64_S10000x64 y)
      (broadcastTo S10000x64 (shapeCast S1x64 xr Facts₀.shapeCasts_S1x64_S1x64) Facts₀.broadcasts_S1x64_S10000x64 y) = _
  rw [ea, eb, ec]

abbrev G7 (A : Vec F S50000x64 .f32) (B : Vec F S1x64 .f32) : Vec F S50000x64 .f32 :=
  addf (F := F) A
    (broadcastInDim Cert.ReferenceIdeal.S50000x64 ![0, 1] Cert.ReferenceIdeal.Facts₀.bcast_S1x64_S50000x64_0_1 B)

theorem G7_apply (A : Vec F S50000x64 .f32) (B : Vec F S1x64 .f32)
    (k : S50000x64.Idx) (z : S1x64.Idx) (hz : (z 1).val = (k 1).val) :
    G7 A B k = FloatOps.addf (A k) (B z) := by
  have e : broadcastInDim Cert.ReferenceIdeal.S50000x64 ![0, 1] Cert.ReferenceIdeal.Facts₀.bcast_S1x64_S50000x64_0_1 B k = B z :=
    broadcastInDim_apply _ Cert.ReferenceIdeal.Facts₀.bcast_S1x64_S50000x64_0_1 B k z fun a => match a with
      | ⟨0, _⟩ => by
          show (z 0).val = if (1 : Nat) = 1 then 0 else (k 0).val
          rw [if_pos rfl]; have := idx2_lt0 z; omega
      | ⟨1, _⟩ => by
          show (z 1).val = if (64 : Nat) = 1 then 0 else (k 1).val
          rw [if_neg (by decide)]; exact hz
  show FloatOps.addf (A k)
      (broadcastInDim Cert.ReferenceIdeal.S50000x64 ![0, 1] Cert.ReferenceIdeal.Facts₀.bcast_S1x64_S50000x64_0_1 B k) = _
  rw [e]

theorem tile7_eq (A : Vec F S50000x64 .f32) (B : Vec F S1x64 .f32)
    (xt : Vec F S10000x64 .f32) (xr : Vec F S1x64 .f32) (n : Nat)
    (hA : ∀ (y : S10000x64.Idx) (k : S50000x64.Idx), (k 0).val = n * 10000 + (y 0).val → (k 1).val = (y 1).val → xt y = A k)
    (hB : ∀ z w : S1x64.Idx, (w 1).val = (z 1).val → xr z = B w)
    (y : S10000x64.Idx) (k : S50000x64.Idx) (hkr : (k 0).val = n * 10000 + (y 0).val) (hkc : (k 1).val = (y 1).val) :
    k7_pay1 xt xr y = G7 A B k := by
  have hq : (y 1).val < 64 := idx2_lt1 y
  rw [pay7_apply xt xr y (ix2 (0 : Fin 1) (⟨(y 1).val, hq⟩ : Fin 64)) rfl,
    G7_apply A B k (ix2 (0 : Fin 1) (⟨(y 1).val, hq⟩ : Fin 64)) hkc.symm,
    hA y k hkr hkc, hB _ _ rfl]

variable (V : (c : Dev nD) → (b : Ref sig .tc) → Buf (Elt F) ((c : Thread nD τ).loc b))

theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem iblk7_0_apply (c : Dev nD) (t : Fin cfg7.N) (y : S10000x64.Idx) (k : S50000x64.Idx)
    (hkr : (k 0).val = t.val * 10000 + (y 0).val) (hkc : (k 1).val = (y 1).val) :
    (iblk7 V c 0 t : Vec F S10000x64 .f32) y = (V c (Pipeline.arrRef spec7 0) : Vec F S50000x64 .f32) k := by
  obtain ⟨ea, eb, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t 0 * 10000 + 1 * (y 0).val = (k 0).val; rw [ea, hkr]; omega
  | ⟨1, _⟩ => show win7_0.index t 1 * 64 + 1 * (y 1).val = (k 1).val; rw [eb, hkc]; omega

theorem iblk7_1_apply (c : Dev nD) (t : Fin cfg7.N) (z w : S1x64.Idx) (hw : (w 1).val = (z 1).val) :
    (iblk7 V c 1 t : Vec F S1x64 .f32) z = (V c (Pipeline.arrRef spec7 1) : Vec F S1x64 .f32) w := by
  obtain ⟨-, -, ec, ed, -⟩ := idx_facts7 t
  have hz0 : (z 0).val < 1 := idx2_lt0 z
  have hw0 : (w 0).val < 1 := idx2_lt0 w
  unfold iblk7
  rw [View.read_apply]
  show V c (Pipeline.arrRef spec7 1) _ = V c (Pipeline.arrRef spec7 1) _
  congr 1
  funext a
  apply Fin.ext
  match a with
  | ⟨0, _⟩ => show win7_1.index t 0 * 1 + 1 * (z 0).val = (w 0).val; rw [ec]; omega
  | ⟨1, _⟩ => show win7_1.index t 1 * 64 + 1 * (z 1).val = (w 1).val; rw [ed, hw]; omega

theorem flushed7_eq (c : Dev nD) (t : Fin cfg7.N) :
    (dat7 V c).flushed 2 t
      = ((cfg7.win 2).blk t).view.read (Elt F) (G7 (V c (Pipeline.arrRef spec7 0)) (V c (Pipeline.arrRef spec7 1))) := by
  show (cfg7.win 2).cut (grid7.coords t) ((dat7 V c).after 2 t) = _
  rw [after7_2]
  unfold out7_2
  rw [View.canon_unit_zero hz7]
  simp only [View.ld_unit_zero (S := S10000x64) hz7, View.ld_unit_zero (S := S1x64) hz7]
  obtain ⟨-, -, -, -, ee, ef⟩ := idx_facts7 t
  funext j
  show k7_pay1 (iblk7 V c 0 t) (iblk7 V c 1 t) j
    = G7 (V c (Pipeline.arrRef spec7 0)) (V c (Pipeline.arrRef spec7 1)) (((cfg7.win 2).blk t).view.emb j)
  refine tile7_eq (V c (Pipeline.arrRef spec7 0)) (V c (Pipeline.arrRef spec7 1)) (iblk7 V c 0 t) (iblk7 V c 1 t) t.val
    (fun y k hr hc => iblk7_0_apply V c t y k hr hc) (fun z w h => iblk7_1_apply V c t z w h)
    j (((cfg7.win 2).blk t).view.emb j) ?_ ?_
  · show win7_2.index t 0 * 10000 + 1 * (j 0).val = t.val * 10000 + (j 0).val
    rw [ee]; omega
  · show win7_2.index t 1 * 64 + 1 * (j 1).val = (j 1).val
    rw [ef]; omega

theorem mem_blk7 (t : Fin cfg7.N) (i : S50000x64.Idx) :
    i ∈ ((cfg7.win 2).blk t).view.set
      ↔ ∀ a : Fin 2, win7_2.index t a * S10000x64.size a ≤ (i a).val
          ∧ (i a).val < win7_2.index t a * S10000x64.size a + S10000x64.size a := by
  show i ∈ ((View.whole (Pipeline.arrRef spec7 2)).slice (win7_2.rect t)).set ↔ _
  rw [View.set_slice_whole, Rect.mem_set_unit]
  exact Iff.rfl

theorem cover7 (i : S50000x64.Idx) :
    ∃ t : Fin cfg7.N, (cfg7.win 2).flush t = true ∧ i ∈ ((cfg7.win 2).blk t).view.set := by
  have hir : (i 0).val < 50000 := idx2_lt0 i
  have hic : (i 1).val < 64 := idx2_lt1 i
  have hN : cfg7.N = 5 := N_7
  let t : Fin cfg7.N := ⟨(i 0).val / 10000, by rw [hN]; omega⟩
  obtain ⟨-, -, -, -, ee, ef⟩ := idx_facts7 t
  have ht : t.val = (i 0).val / 10000 := rfl
  refine ⟨t, flush7_2 t, ?_⟩
  rw [mem_blk7]
  intro a
  match a with
  | ⟨0, _⟩ =>
      show win7_2.index t 0 * 10000 ≤ (i 0).val ∧ (i 0).val < win7_2.index t 0 * 10000 + 10000
      rw [ee, ht]; omega
  | ⟨1, _⟩ =>
      show win7_2.index t 1 * 64 ≤ (i 1).val ∧ (i 1).val < win7_2.index t 1 * 64 + 64
      rw [ef]; omega

theorem final7_gen (c : Dev nD) :
    (dat7 V c).arrAt 2 cfg7.N = G7 (V c (Pipeline.arrRef spec7 0)) (V c (Pipeline.arrRef spec7 1)) :=
  (dat7 V c).arrAt_eq_of_cover 2 (G7 (V c (Pipeline.arrRef spec7 0)) (V c (Pipeline.arrRef spec7 1)))
    (fun t _ => flushed7_eq V c t) cover7

theorem final7 (V : (c : Dev nD) → (b : Ref sig .tc) → Buf (Elt Ideal) ((c : Thread nD τ).loc b)) (c : Dev nD) :
    (dat7 (F := Ideal) V c).arrAt 2 cfg7.N
      = addf (F := Ideal) (φ := .f32) (V c (Pipeline.arrRef spec7 0)) (broadcastInDim Cert.ReferenceIdeal.S50000x64 ![0, 1] Cert.ReferenceIdeal.Facts₀.bcast_S1x64_S50000x64_0_1 (V c (Pipeline.arrRef spec7 1))) :=
  final7_gen V c

end Cert.KernelIdeal.Val

end
-- ==== Proof.KI.PoolLaw.lean ====
import proofs.«400805_j35450660061449_1_alg».proof.Proof.Gen.KernelIdeal.Skeleton
import proofs.«400805_j35450660061449_1_alg».proof.ReferenceIdeal
import proofs.«400805_j35450660061449_1_alg».proof.Proof.Gen.ReferenceIdeal
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueIdxRank1
import Mathlib.Algebra.BigOperators.Fin
import Mathlib.Algebra.BigOperators.Group.Finset.Piecewise
import Mathlib.Logic.Equiv.Fin.Basic

noncomputable section

namespace Cert.KernelIdeal.Val.Pool

open Cert.KernelIdeal Cert.KernelIdeal.Gen
open Idealize.ShloMosaic Idealize.ShloMosaic.ValueIdx
open scoped BigOperators

theorem word_match (w : BitVec 32) (k : ℕ) (hk : k < 64) : w.toInt = (k : ℤ) ↔ BitVec.ofNat 32 k = w := by
  rw [BitVec.toInt_eq_toNat_cond]
  have hw := w.isLt
  constructor
  · intro h
    apply BitVec.eq_of_toNat_eq
    rw [BitVec.toNat_ofNat, Nat.mod_eq_of_lt (by omega)]
    split at h <;> omega
  · intro h
    have e : w.toNat = k := by rw [← h, BitVec.toNat_ofNat, Nat.mod_eq_of_lt (by omega)]
    rw [e, if_pos (by omega)]

def hot (w : BitVec 32) (k : Fin 64) : EReal :=
  ((((IntOp.cmpi .eq (BitVec.ofNat 32 k.val) w).setWidth 32).toInt : ℝ) : EReal)

theorem hot_eq (w : BitVec 32) (k : Fin 64) : hot w k = if BitVec.ofNat 32 k.val = w then 1 else 0 := by
  unfold hot IntOp.cmpi
  by_cases h : BitVec.ofNat 32 k.val = w
  · rw [if_pos h, show (BitVec.ofNat 32 k.val == w) = true from by simpa using h]; simp
  · rw [if_neg h, show (BitVec.ofNat 32 k.val == w) = false from by simpa using h]; simp

theorem hot_mul (w : BitVec 32) (k : Fin 64) (x : EReal) : hot w k * x = if BitVec.ofNat 32 k.val = w then x else 0 := by
  rw [hot_eq]
  by_cases h : BitVec.ofNat 32 k.val = w
  · rw [if_pos h, if_pos h, one_mul]
  · rw [if_neg h, if_neg h, zero_mul]

theorem sum_rows_split {M : Type*} [AddCommMonoid M] (G : Fin 50000 → M) :
    ∑ r, G r = ∑ t : Fin 5, ∑ n : Fin 10000, G ⟨10000 * t.val + n.val, by omega⟩ := by
  rw [← Equiv.sum_comp (finProdFinEquiv (m := 5) (n := 10000)) G, Fintype.sum_prod_type]
  refine Finset.sum_congr rfl fun t _ => Finset.sum_congr rfl fun n _ => congrArg G (Fin.ext ?_)
  show n.val + 10000 * t.val = 10000 * t.val + n.val
  omega

abbrev row (t : Fin 5) (n : Fin 10000) : Fin 50000 := ⟨10000 * t.val + n.val, by omega⟩

def tileH (hh : (⟨2, ![50000, 64]⟩ : Shape).Idx → EReal) (t : Fin 5) : Vec Ideal S10000x64 .f32 :=
  fun y => hh (ix2 (row t (y 0)) (y 1))

def tileI (ids : (⟨2, ![50000, 1]⟩ : Shape).Idx → BitVec 32) (t : Fin 5) : Vec Ideal S10000x1 .i32 :=
  fun y => ids (ix2 (row t (y 0)) (y 1))

abbrev dot8 : DotDims S10000x64 S10000x65 S64x65 := dot_S10000x64_S10000x65_S64x65_0_0_1_1_n_n

theorem dot8_lhs0 (i : (⟨2, ![64, 65]⟩ : Shape).Idx) (q : dot8.contr.Idx) :
    (dot8.lhsIdx i q (0 : Fin 2)).val = (q ⟨0, by decide⟩).val :=
  dot8.lhsIdx_val_of_single rfl i q
theorem dot8_lhs1 (i : (⟨2, ![64, 65]⟩ : Shape).Idx) (q : dot8.contr.Idx) :
    (dot8.lhsIdx i q (1 : Fin 2)).val = (i 0).val := by
  unfold DotDims.lhsIdx
  rw [dif_neg (show ¬(1 : Fin 2) ∈ dot8.lhsBatch by decide), dif_pos (show (1 : Fin 2) ∈ dot8.lhsNonContracting by decide)]
  rfl
theorem dot8_rhs0 (i : (⟨2, ![64, 65]⟩ : Shape).Idx) (q : dot8.contr.Idx) :
    (dot8.rhsIdx i q (0 : Fin 2)).val = (q ⟨0, by decide⟩).val :=
  dot8.rhsIdx_val_of_single rfl i q
theorem dot8_rhs1 (i : (⟨2, ![64, 65]⟩ : Shape).Idx) (q : dot8.contr.Idx) :
    (dot8.rhsIdx i q (1 : Fin 2)).val = (i 1).val := by
  unfold DotDims.rhsIdx
  rw [dif_neg (show ¬(1 : Fin 2) ∈ dot8.rhsBatch by decide), dif_pos (show (1 : Fin 2) ∈ dot8.rhsNonContracting by decide)]
  rfl

theorem dot8_apply (A : FVec Ideal S10000x64 .bf16) (B : FVec Ideal S10000x65 .bf16) (k : Fin 64) (e : Fin 65) :
    matmul dot8 none A B (constant S64x65 .f32 0x00000000#32) (ix2 k e)
      = ∑ n : Fin 10000, A (ix2 n k) * B (ix2 n e) := by
  simp only [matmul]
  rw [Ideal.matmul_constant_zero_apply, ← Equiv.sum_comp (contrEquiv1 dot8 10000 rfl rfl).symm]
  refine Finset.sum_congr rfl fun n _ => ?_
  have hk := contrEquiv1_symm_val dot8 10000 rfl rfl n
  have el : dot8.lhsIdx (ix2 k e) ((contrEquiv1 dot8 10000 rfl rfl).symm n) = ix2 n k := funext fun a => Fin.ext (by
    match a with
    | ⟨0, _⟩ => exact (dot8_lhs0 _ _).trans hk
    | ⟨1, _⟩ => exact dot8_lhs1 _ _)
  have er : dot8.rhsIdx (ix2 k e) ((contrEquiv1 dot8 10000 rfl rfl).symm n) = ix2 n e := funext fun a => Fin.ext (by
    match a with
    | ⟨0, _⟩ => exact (dot8_rhs0 _ _).trans hk
    | ⟨1, _⟩ => exact dot8_rhs1 _ _)
  rw [el, er]

def hotTile (v4 : Vec Ideal S10000x1 .i32) : FVec Ideal S10000x64 .bf16 :=
  truncf .bf16 (sitofp .f32 (extui 32 (cmpi .eq (iota .tc S10000x64 32 [1] iota_S10000x64_d1_w32)
    (broadcastTo S10000x64 (shapeCast S10000x1 v4 shapeCasts_S10000x1_S10000x1) broadcasts_S10000x1_S10000x64)) natLt_1_32)) bitsLt_bf16_f32

theorem hotTile_apply (v4 : Vec Ideal S10000x1 .i32) (n : Fin 10000) (k : Fin 64) :
    hotTile v4 (ix2 n k) = hot (v4 (ix2 n (0 : Fin 1))) k := by
  unfold hotTile hot
  show (((((IntOp.cmpi .eq (iota .tc S10000x64 32 [1] iota_S10000x64_d1_w32 (ix2 n k))
    (broadcastTo S10000x64 (shapeCast S10000x1 v4 shapeCasts_S10000x1_S10000x1) broadcasts_S10000x1_S10000x64 (ix2 n k))).setWidth 32).toInt : ℝ) : EReal)) = _
  rw [iota_single_apply, shapeCast_self,
    broadcastTo_apply v4 broadcasts_S10000x1_S10000x64 (ix2 n k) (ix2 n (0 : Fin 1)) (fun a => match a with
      | ⟨0, _⟩ => by show n.val = if (10000 : Nat) = 1 then 0 else n.val; rw [if_neg (by decide)]
      | ⟨1, _⟩ => by show 0 = if (1 : Nat) = 1 then 0 else k.val; rw [if_pos rfl])]

def catTile (v12 : Vec Ideal S10000x64 .f32) : FVec Ideal S10000x65 .bf16 :=
  truncf .bf16 (concatenate S10000x65 1 [⟨S10000x64, shapeCast S10000x64 v12 shapeCasts_S10000x64_S10000x64⟩,
    ⟨S10000x1, (broadcast S10000x1 (Scalar.ofBits .f32 0x3F800000#32) : FVec Ideal S10000x1 .f32)⟩] concatenates_S10000x64_S10000x1_S10000x65_d1) bitsLt_bf16_f32

theorem catTile_apply_lt (v12 : Vec Ideal S10000x64 .f32) (n : Fin 10000) (e : Fin 65) (he : e.val < 64) :
    catTile v12 (ix2 n e) = v12 (ix2 n (⟨e.val, he⟩ : Fin 64)) := by
  unfold catTile
  rw [shapeCast_self]
  refine (truncf_apply (ψ := .bf16) _ bitsLt_bf16_f32 (ix2 n e)).trans ?_
  exact concatenate_pair_apply_left (α := Ideal .f32) (1 : Fin 2) v12 (broadcast S10000x1 (Scalar.ofBits .f32 0x3F800000#32)) concatenates_S10000x64_S10000x1_S10000x65_d1 (ix2 n e) rfl (ix2 n (⟨e.val, he⟩ : Fin 64))
    (fun b => match b with | ⟨0, _⟩ => rfl | ⟨1, _⟩ => rfl)

theorem catTile_apply_last (v12 : Vec Ideal S10000x64 .f32) (n : Fin 10000) :
    catTile v12 (ix2 n (⟨64, by decide⟩ : Fin 65)) = Ideal.ofBits .f32 0x3F800000#32 := by
  unfold catTile
  rw [shapeCast_self]
  refine (truncf_apply (ψ := .bf16) _ bitsLt_bf16_f32 (ix2 n (⟨64, by decide⟩ : Fin 65))).trans ?_
  exact concatenate_pair_apply_right (α := Ideal .f32) (1 : Fin 2) v12 (broadcast S10000x1 (Scalar.ofBits .f32 0x3F800000#32)) concatenates_S10000x64_S10000x1_S10000x65_d1 (ix2 n (⟨64, by decide⟩ : Fin 65)) rfl rfl (ix2 n (0 : Fin 1))
    (fun b => match b with | ⟨0, _⟩ => fun _ => rfl | ⟨1, _⟩ => fun h => absurd rfl h) rfl

theorem pay2_eq (v4 : Vec Ideal S10000x1 .i32) (v12 : Vec Ideal S10000x64 .f32) (v17 : Vec Ideal S64x65 .f32) :
    k8_pay2 (F := Ideal) v4 v12 v17
      = addf v17 (matmul dot8 none (hotTile v4) (catTile v12) (constant S64x65 .f32 0x00000000#32)) := by
  unfold k8_pay2 hotTile catTile
  exact shapeCast_self _ _

theorem pay1_apply (j : (⟨2, ![64, 65]⟩ : Shape).Idx) : k8_pay1 (F := Ideal) j = 0 := by
  unfold k8_pay1
  rw [shapeCast_self]
  exact Ideal.ofBits_zero_f32

def colX (hh : (⟨2, ![50000, 64]⟩ : Shape).Idx → EReal) (e : Fin 65) (r : Fin 50000) : EReal :=
  if he : e.val < 64 then hh (ix2 r (⟨e.val, he⟩ : Fin 64)) else Ideal.ofBits .f32 0x3F800000#32

theorem pay2_tile_apply (hh : (⟨2, ![50000, 64]⟩ : Shape).Idx → EReal) (ids : (⟨2, ![50000, 1]⟩ : Shape).Idx → BitVec 32)
    (t : Fin 5) (a : Vec Ideal S64x65 .f32) (k : Fin 64) (e : Fin 65) :
    k8_pay2 (F := Ideal) (tileI ids t) (tileH hh t) a (ix2 k e)
      = a (ix2 k e) + ∑ n : Fin 10000, hot (ids (ix2 (row t n) (0 : Fin 1))) k * colX hh e (row t n) := by
  rw [pay2_eq]
  show a (ix2 k e) + matmul dot8 none (hotTile (tileI ids t)) (catTile (tileH hh t)) (constant S64x65 .f32 0x00000000#32) (ix2 k e) = _
  rw [dot8_apply]
  refine congrArg (a (ix2 k e) + ·) (Finset.sum_congr rfl fun n _ => ?_)
  rw [hotTile_apply]
  refine congrArg (hot (ids (ix2 (row t n) (0 : Fin 1))) k * ·) ?_
  unfold colX
  by_cases he : e.val < 64
  · rw [dif_pos he, catTile_apply_lt _ _ _ he]; rfl
  · rw [dif_neg he]
    obtain rfl : e = (⟨64, by decide⟩ : Fin 65) := Fin.ext (by show e.val = 64; have := e.isLt; omega)
    exact catTile_apply_last _ _

theorem acc_apply (hh : (⟨2, ![50000, 64]⟩ : Shape).Idx → EReal) (ids : (⟨2, ![50000, 1]⟩ : Shape).Idx → BitVec 32)
    (a0 a1 a2 a3 a4 : Vec Ideal S64x65 .f32)
    (e0 : a0 = k8_pay2 (F := Ideal) (tileI ids 0) (tileH hh 0) (k8_pay1 (F := Ideal)))
    (e1 : a1 = k8_pay2 (F := Ideal) (tileI ids 1) (tileH hh 1) a0)
    (e2 : a2 = k8_pay2 (F := Ideal) (tileI ids 2) (tileH hh 2) a1)
    (e3 : a3 = k8_pay2 (F := Ideal) (tileI ids 3) (tileH hh 3) a2)
    (e4 : a4 = k8_pay2 (F := Ideal) (tileI ids 4) (tileH hh 4) a3)
    (k : Fin 64) (e : Fin 65) :
    a4 (ix2 k e) = ∑ r : Fin 50000, if BitVec.ofNat 32 k.val = ids (ix2 r (0 : Fin 1)) then colX hh e r else 0 := by
  have key : (∑ r : Fin 50000, if BitVec.ofNat 32 k.val = ids (ix2 r (0 : Fin 1)) then colX hh e r else 0)
      = ∑ r : Fin 50000, hot (ids (ix2 r (0 : Fin 1))) k * colX hh e r :=
    Finset.sum_congr rfl fun r _ => (hot_mul _ _ _).symm
  rw [key, sum_rows_split, Fin.sum_univ_five, e4, pay2_tile_apply, e3, pay2_tile_apply, e2, pay2_tile_apply, e1, pay2_tile_apply,
    e0, pay2_tile_apply, pay1_apply, zero_add]

abbrev scat2 : ScatterDims Cert.ReferenceIdeal.S64x64 Cert.ReferenceIdeal.S50000x1 Cert.ReferenceIdeal.S50000x64 :=
  Cert.ReferenceIdeal.scatter_S64x64_S50000x1_S50000x64_1_0_0_1

theorem scat2_start0 (j : (⟨2, ![50000, 64]⟩ : Shape).Idx) (idx : IVec (⟨2, ![50000, 1]⟩ : Shape) 32) :
    scat2.start j idx (0 : Fin 2) = (idx (ix2 (j 0) (0 : Fin 1))).toInt := by
  unfold ScatterDims.start
  rw [dif_pos (show (0 : Fin 2) ∈ scat2.scatterDimsToOperandDims from List.mem_singleton.mpr rfl)]
  refine congrArg (fun z => (idx z).toInt) ?_
  funext b; refine Fin.ext ?_
  match b with
  | ⟨0, _⟩ => rfl
  | ⟨1, _⟩ => rfl

theorem scat2_start1 (j : (⟨2, ![50000, 64]⟩ : Shape).Idx) (idx : IVec (⟨2, ![50000, 1]⟩ : Shape) 32) :
    scat2.start j idx (1 : Fin 2) = 0 := by
  unfold ScatterDims.start
  rw [dif_neg (show ¬ (1 : Fin 2) ∈ scat2.scatterDimsToOperandDims from (by decide : ¬ (1 : Fin 2) ∈ ([0] : List (Fin 2))))]

theorem scat2_window0 (j : (⟨2, ![50000, 64]⟩ : Shape).Idx) : scat2.window j (0 : Fin 2) = 0 := by
  unfold ScatterDims.window
  rw [dif_neg (show ¬ (0 : Fin 2) ∈ scat2.sKept from (by decide : ¬ (0 : Fin 2) ∈ (⟨2, ![64, 64]⟩ : Shape).kept [0]))]

theorem scat2_window1 (j : (⟨2, ![50000, 64]⟩ : Shape).Idx) : scat2.window j (1 : Fin 2) = (j 1).val := by
  unfold ScatterDims.window
  rw [dif_pos (show (1 : Fin 2) ∈ scat2.sKept from (by decide : (1 : Fin 2) ∈ (⟨2, ![64, 64]⟩ : Shape).kept [0]))]
  rfl

theorem scat2_resultIdx_iff (j : (⟨2, ![50000, 64]⟩ : Shape).Idx) (idx : IVec (⟨2, ![50000, 1]⟩ : Shape) 32)
    (i : (⟨2, ![64, 64]⟩ : Shape).Idx) :
    scat2.resultIdx? j idx = some i ↔ ((idx (ix2 (j 0) (0 : Fin 1))).toInt = ((i 0).val : ℤ) ∧ (j 1).val = (i 1).val) := by
  unfold ScatterDims.resultIdx?
  have h0 : (i 0).val < 64 := (i 0).isLt
  have h1 : (i 1).val < 64 := (i 1).isLt
  have g1 : (j 1).val < 64 := (j 1).isLt
  split
  · next h =>
    rw [Option.some.injEq]
    constructor
    · intro e
      have e0 := congrArg (fun f => ((f 0 : Fin 64) : ℕ)) e
      have e1 := congrArg (fun f => ((f 1 : Fin 64) : ℕ)) e
      simp only [scat2_start0, scat2_start1, scat2_window0, scat2_window1] at e0 e1
      have := h 0
      simp only [scat2_start0, scat2_window0] at this
      constructor
      · omega
      · omega
    · rintro ⟨a0, a1⟩
      funext a; refine Fin.ext ?_
      match a with
      | ⟨0, _⟩ => show (scat2.start j idx 0 + scat2.window j 0).toNat = (i 0).val; rw [scat2_start0, scat2_window0, a0]; omega
      | ⟨1, _⟩ => show (scat2.start j idx 1 + scat2.window j 1).toNat = (i 1).val; rw [scat2_start1, scat2_window1]; omega
  · next h =>
    constructor
    · intro e; exact absurd e (by simp)
    · rintro ⟨a0, a1⟩
      exfalso; apply h
      intro a
      match a with
      | ⟨0, _⟩ => show 0 ≤ scat2.start j idx 0 + scat2.window j 0 ∧ scat2.start j idx 0 + scat2.window j 0 < 64; rw [scat2_start0, scat2_window0, a0]; omega
      | ⟨1, _⟩ => show 0 ≤ scat2.start j idx 1 + scat2.window j 1 ∧ scat2.start j idx 1 + scat2.window j 1 < 64; rw [scat2_start1, scat2_window1]; omega

theorem scat2_apply (x : (⟨2, ![64, 64]⟩ : Shape).Idx → EReal) (ids : IVec (⟨2, ![50000, 1]⟩ : Shape) 32)
    (hh : (⟨2, ![50000, 64]⟩ : Shape).Idx → EReal) (k d : Fin 64) :
    Ideal.hostScatterAdd scat2 x ids hh (ix2 k d)
      = x (ix2 k d) + ∑ r : Fin 50000, if BitVec.ofNat 32 k.val = ids (ix2 r (0 : Fin 1)) then hh (ix2 r d) else 0 := by
  unfold Ideal.hostScatterAdd
  refine congrArg (x (ix2 k d) + ·) ?_
  rw [Finset.sum_filter, sum_idx2]
  refine Finset.sum_congr rfl fun r _ => ?_
  have key : ∀ c : Fin 64, (scat2.resultIdx? (ix2 r c) ids = some (ix2 k d)) ↔ (BitVec.ofNat 32 k.val = ids (ix2 r (0 : Fin 1)) ∧ c = d) :=
    fun c => (scat2_resultIdx_iff (ix2 r c) ids (ix2 k d)).trans (and_congr (word_match _ _ k.isLt) Fin.val_inj)
  simp only [key]
  by_cases hA : BitVec.ofNat 32 k.val = ids (ix2 r (0 : Fin 1))
  · simp only [hA, true_and, if_true]
    rw [Finset.sum_ite_eq' Finset.univ d (fun c => hh (ix2 r c)), if_pos (Finset.mem_univ d)]
  · simp only [hA, false_and, if_false, Finset.sum_const_zero]

abbrev scat1 : ScatterDims Cert.ReferenceIdeal.S64 Cert.ReferenceIdeal.S50000x1 Cert.ReferenceIdeal.S50000 :=
  Cert.ReferenceIdeal.scatter_S64_S50000x1_S50000_n_0_0_1

theorem scat1_start0 (j : (⟨1, ![50000]⟩ : Shape).Idx) (idx : IVec (⟨2, ![50000, 1]⟩ : Shape) 32) :
    scat1.start j idx (0 : Fin 1) = (idx (ix2 (j 0) (0 : Fin 1))).toInt := by
  unfold ScatterDims.start
  rw [dif_pos (show (0 : Fin 1) ∈ scat1.scatterDimsToOperandDims from List.mem_singleton.mpr rfl)]
  refine congrArg (fun z => (idx z).toInt) ?_
  funext b; refine Fin.ext ?_
  match b with
  | ⟨0, _⟩ => rfl
  | ⟨1, _⟩ => rfl

theorem scat1_window0 (j : (⟨1, ![50000]⟩ : Shape).Idx) : scat1.window j (0 : Fin 1) = 0 := by
  unfold ScatterDims.window
  rw [dif_neg (show ¬ (0 : Fin 1) ∈ scat1.sKept from (by decide : ¬ (0 : Fin 1) ∈ (⟨1, ![64]⟩ : Shape).kept [0]))]

theorem scat1_resultIdx_iff (j : (⟨1, ![50000]⟩ : Shape).Idx) (idx : IVec (⟨2, ![50000, 1]⟩ : Shape) 32)
    (i : (⟨1, ![64]⟩ : Shape).Idx) :
    scat1.resultIdx? j idx = some i ↔ (idx (ix2 (j 0) (0 : Fin 1))).toInt = ((i 0).val : ℤ) := by
  unfold ScatterDims.resultIdx?
  have h0 : (i 0).val < 64 := (i 0).isLt
  split
  · next h =>
    rw [Option.some.injEq]
    constructor
    · intro e
      have e0 := congrArg (fun f => ((f 0 : Fin 64) : ℕ)) e
      simp only [scat1_start0, scat1_window0] at e0
      have := h 0
      simp only [scat1_start0, scat1_window0] at this
      omega
    · intro a0
      funext a; refine Fin.ext ?_
      match a with
      | ⟨0, _⟩ => show (scat1.start j idx 0 + scat1.window j 0).toNat = (i 0).val; rw [scat1_start0, scat1_window0, a0]; omega
  · next h =>
    constructor
    · intro e; exact absurd e (by simp)
    · intro a0
      exfalso; apply h
      intro a
      match a with
      | ⟨0, _⟩ => show 0 ≤ scat1.start j idx 0 + scat1.window j 0 ∧ scat1.start j idx 0 + scat1.window j 0 < 64; rw [scat1_start0, scat1_window0, a0]; omega

theorem scat1_apply (x : (⟨1, ![64]⟩ : Shape).Idx → EReal) (ids : IVec (⟨2, ![50000, 1]⟩ : Shape) 32)
    (u : (⟨1, ![50000]⟩ : Shape).Idx → EReal) (k : Fin 64) :
    Ideal.hostScatterAdd scat1 x ids u (ix1 k)
      = x (ix1 k) + ∑ r : Fin 50000, if BitVec.ofNat 32 k.val = ids (ix2 r (0 : Fin 1)) then u (ix1 r) else 0 := by
  unfold Ideal.hostScatterAdd
  refine congrArg (x (ix1 k) + ·) ?_
  rw [Finset.sum_filter, ← Equiv.sum_comp (idxEquiv1 (n := 50000)).symm]
  refine Finset.sum_congr rfl fun r _ => ?_
  have key : (scat1.resultIdx? (ix1 r) ids = some (ix1 k)) ↔ BitVec.ofNat 32 k.val = ids (ix2 r (0 : Fin 1)) :=
    (scat1_resultIdx_iff (ix1 r) ids (ix1 k)).trans (word_match _ _ k.isLt)
  show (if scat1.resultIdx? (ix1 r) ids = some (ix1 k) then u (ix1 r) else 0) = _
  simp only [key]

def refPool (hh : Vec Ideal Cert.ReferenceIdeal.S50000x64 .f32) (ids : Vec Ideal Cert.ReferenceIdeal.S50000x1 .i32) :
    FVec Ideal Cert.ReferenceIdeal.S64x64 .f32 :=
  Host.divf (Host.scatterAdd Cert.ReferenceIdeal.scatter_S64x64_S50000x1_S50000x64_1_0_0_1 (broadcastInDim Cert.ReferenceIdeal.S64x64 ![] Cert.ReferenceIdeal.Facts₀.bcast_S_S64x64 (constant (F := Ideal) Cert.ReferenceIdeal.S_ .f32 0x00000000#32)) ids hh)
    (broadcastInDim Cert.ReferenceIdeal.S64x64 ![0, 1] Cert.ReferenceIdeal.Facts₀.bcast_S64x1_S64x64_0_1 (broadcastInDim Cert.ReferenceIdeal.S64x1 ![0] Cert.ReferenceIdeal.Facts₀.bcast_S64_S64x1_0
      (maximumf (Host.scatterAdd Cert.ReferenceIdeal.scatter_S64_S50000x1_S50000_n_0_0_1 (broadcastInDim Cert.ReferenceIdeal.S64 ![] Cert.ReferenceIdeal.Facts₀.bcast_S_S64 (constant (F := Ideal) Cert.ReferenceIdeal.S_ .f32 0x00000000#32)) ids (broadcastInDim Cert.ReferenceIdeal.S50000 ![] Cert.ReferenceIdeal.Facts₀.bcast_S_S50000 (constant (F := Ideal) Cert.ReferenceIdeal.S_ .f32 0x3F800000#32)))
        (broadcastInDim Cert.ReferenceIdeal.S64 ![] Cert.ReferenceIdeal.Facts₀.bcast_S_S64 (constant (F := Ideal) Cert.ReferenceIdeal.S_ .f32 0x3F800000#32)))))

theorem splat_apply {t : Shape} (dims : Fin 0 → Fin t.rank) (h : (⟨0, ![]⟩ : Shape).BroadcastsInDim t dims) (b : BitVec 32) (j : t.Idx) :
    broadcastInDim t dims h (constant (F := Ideal) (⟨0, ![]⟩ : Shape) .f32 b) j = Ideal.ofBits .f32 b :=
  broadcastInDim_apply dims h (constant (F := Ideal) (⟨0, ![]⟩ : Shape) .f32 b) j ix0 (fun a => a.elim0)

theorem refPool_apply (hh : Vec Ideal Cert.ReferenceIdeal.S50000x64 .f32) (ids : Vec Ideal Cert.ReferenceIdeal.S50000x1 .i32) (k d : Fin 64) :
    refPool hh ids (ix2 k d)
      = Ideal.div (∑ r : Fin 50000, if BitVec.ofNat 32 k.val = ids (ix2 r (0 : Fin 1)) then hh (ix2 r d) else 0)
          (max (∑ r : Fin 50000, if BitVec.ofNat 32 k.val = ids (ix2 r (0 : Fin 1)) then Ideal.ofBits .f32 0x3F800000#32 else 0)
            (Ideal.ofBits .f32 0x3F800000#32)) := by
  unfold refPool Host.divf Host.scatterAdd
  simp only [Ideal.hostDivf_def, Ideal.hostScatterAdd_def]
  rw [scat2_apply, splat_apply, Ideal.ofBits_zero_f32, zero_add]
  refine congrArg (Ideal.div _) ?_
  refine (broadcastInDim_apply _ Cert.ReferenceIdeal.Facts₀.bcast_S64x1_S64x64_0_1 _ (ix2 k d) (ix2 k (0 : Fin 1)) (fun a => match a with
    | ⟨0, _⟩ => by show k.val = if (64 : Nat) = 1 then 0 else k.val; rw [if_neg (by decide)]
    | ⟨1, _⟩ => by show 0 = if (1 : Nat) = 1 then 0 else d.val; rw [if_pos rfl])).trans ?_
  refine (broadcastInDim_apply _ Cert.ReferenceIdeal.Facts₀.bcast_S64_S64x1_0 _ (ix2 k (0 : Fin 1)) (ix1 k) (fun a => match a with
    | ⟨0, _⟩ => by show k.val = if (64 : Nat) = 1 then 0 else k.val; rw [if_neg (by decide)])).trans ?_
  refine (maximumf_apply _ _ (ix1 k)).trans ?_
  rw [scat1_apply, splat_apply, splat_apply, Ideal.ofBits_zero_f32, zero_add]
  simp only [splat_apply]

theorem pool_pay3_apply (v25 : Vec Ideal S64x64 .f32) (v26 : Vec Ideal S64x1 .f32) (k d : Fin 64) :
    k8_pay3 (F := Ideal) v25 v26 (ix2 k d)
      = Ideal.div (v25 (ix2 k d)) (max (v26 (ix2 k (0 : Fin 1))) (Ideal.ofBits .f32 0x3F800000#32)) := by
  unfold k8_pay3
  refine (divf_apply _ _ (ix2 k d)).trans ?_
  refine congrArg (Ideal.div _) ?_
  exact broadcastTo_apply (maximumf (F := Ideal) v26 (broadcast S64x1 (Scalar.ofBits (F := Ideal) .f32 0x3F800000#32))) broadcasts_S64x1_S64x64 (ix2 k d) (ix2 k (0 : Fin 1)) (fun a => match a with
    | ⟨0, _⟩ => by show k.val = if (64 : Nat) = 1 then 0 else k.val; rw [if_neg (by decide)]
    | ⟨1, _⟩ => by show 0 = if (1 : Nat) = 1 then 0 else d.val; rw [if_pos rfl])

theorem pool_law (hh : (⟨2, ![50000, 64]⟩ : Shape).Idx → EReal) (ids : (⟨2, ![50000, 1]⟩ : Shape).Idx → BitVec 32)
    (a0 a1 a2 a3 a4 : Vec Ideal S64x65 .f32)
    (e0 : a0 = k8_pay2 (F := Ideal) (tileI ids 0) (tileH hh 0) (k8_pay1 (F := Ideal)))
    (e1 : a1 = k8_pay2 (F := Ideal) (tileI ids 1) (tileH hh 1) a0)
    (e2 : a2 = k8_pay2 (F := Ideal) (tileI ids 2) (tileH hh 2) a1)
    (e3 : a3 = k8_pay2 (F := Ideal) (tileI ids 3) (tileH hh 3) a2)
    (e4 : a4 = k8_pay2 (F := Ideal) (tileI ids 4) (tileH hh 4) a3)
    (v25 : Vec Ideal S64x64 .f32) (v26 : Vec Ideal S64x1 .f32)
    (h25 : ∀ k d : Fin 64, v25 (ix2 k d) = a4 (ix2 k (⟨d.val, by omega⟩ : Fin 65)))
    (h26 : ∀ k : Fin 64, v26 (ix2 k (0 : Fin 1)) = a4 (ix2 k (⟨64, by decide⟩ : Fin 65))) :
    k8_pay3 (F := Ideal) v25 v26 = refPool hh ids := by
  funext j
  obtain ⟨k, d, rfl⟩ : ∃ (k d : Fin 64), j = ix2 k d := ⟨j 0, j 1, eq_ix2 j⟩
  rw [pool_pay3_apply, refPool_apply, h25, h26, acc_apply hh ids a0 a1 a2 a3 a4 e0 e1 e2 e3 e4, acc_apply hh ids a0 a1 a2 a3 a4 e0 e1 e2 e3 e4]
  have c1 : ∀ r : Fin 50000, colX hh (⟨d.val, by omega⟩ : Fin 65) r = hh (ix2 r d) := fun r => by
    unfold colX; rw [dif_pos (show ((⟨d.val, by omega⟩ : Fin 65) : ℕ) < 64 from d.isLt)]
  have c2 : ∀ r : Fin 50000, colX hh (⟨64, by decide⟩ : Fin 65) r = Ideal.ofBits .f32 0x3F800000#32 := fun r => by
    unfold colX; rw [dif_neg (show ¬ ((⟨64, by decide⟩ : Fin 65) : ℕ) < 64 from by decide)]
  simp only [c1, c2]

end Cert.KernelIdeal.Val.Pool

end
-- ==== Proof.KI.ValPool8.lean ====
import proofs.«400805_j35450660061449_1_alg».proof.Proof.Gen.KernelIdeal.Skeleton
import proofs.«400805_j35450660061449_1_alg».proof.ReferenceIdeal
import proofs.«400805_j35450660061449_1_alg».proof.Proof.Gen.ReferenceIdeal
import proofs.«400805_j35450660061449_1_alg».proof.Proof.KI.Region8
import proofs.«400805_j35450660061449_1_alg».proof.Proof.KI.PoolLaw
import Idealize.ShloMosaic.PureOps.Ideal
import Idealize.ShloMosaic.Lib.Pipeline.Value
import Idealize.ShloMosaic.Lib.ValueIdx

set_option maxRecDepth 16384

noncomputable section

namespace Cert.KernelIdeal.Val.Pool

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0 :=
  (by decide +kernel : ∀ t : Fin grid8.N, _)

abbrev harr8 (c : Dev nD) : Vec Ideal S50000x64 .f32 := V c (Pipeline.arrRef spec8 0)

abbrev garr8 (c : Dev nD) : Vec Ideal S50000x1 .i32 := V c (Pipeline.arrRef spec8 1)

theorem hblk8_eq (c : Dev nD) (t : Fin cfg8.N) (t' : Fin 5) (ht : t'.val = t.val) :
    hblk8 V c t = tileH (harr8 V c) t' := by
  funext y
  show harr8 V c (((cfg8.win 0).blk t).view.emb y) = harr8 V c (ix2 (row t' (y 0)) (y 1))
  refine congrArg (harr8 V c) (funext fun a => Fin.ext ?_)
  obtain ⟨e0, e1, -⟩ := idx_facts8 t
  match a with
  | ⟨0, _⟩ => show win8_0.index t (0 : Fin 2) * 10000 + 1 * (y 0).val = 10000 * t'.val + (y 0).val; omega
  | ⟨1, _⟩ => show win8_0.index t (1 : Fin 2) * 64 + 1 * (y 1).val = (y 1).val; omega

theorem gblk8_eq (c : Dev nD) (t : Fin cfg8.N) (t' : Fin 5) (ht : t'.val = t.val) :
    gblk8 V c t = tileI (garr8 V c) t' := by
  funext y
  show garr8 V c (((cfg8.win 1).blk t).view.emb y) = garr8 V c (ix2 (row t' (y 0)) (y 1))
  refine congrArg (garr8 V c) (funext fun a => Fin.ext ?_)
  obtain ⟨-, -, e0, e1, -⟩ := idx_facts8 t
  match a with
  | ⟨0, _⟩ => show win8_1.index t (0 : Fin 2) * 10000 + 1 * (y 0).val = 10000 * t'.val + (y 0).val; omega
  | ⟨1, _⟩ => show win8_1.index t (1 : Fin 2) * 1 + 1 * (y 1).val = (y 1).val; omega

theorem ld_sl (a : Vec Ideal S64x65 .f32) (k d : Fin 64) :
    View.ld a r8_sl (ix2 k d) = a (ix2 k (⟨d.val, by omega⟩ : Fin 65)) := by
  show a (r8_sl.idx (ix2 k d)) = _
  refine congrArg a (funext fun b => Fin.ext ?_)
  match b with
  | ⟨0, _⟩ => show 0 + 1 * k.val = k.val; omega
  | ⟨1, _⟩ => show 0 + 1 * d.val = d.val; omega

theorem ld_sc (a : Vec Ideal S64x65 .f32) (k : Fin 64) :
    View.ld a r8_sc (ix2 k (0 : Fin 1)) = a (ix2 k (⟨64, by decide⟩ : Fin 65)) := by
  show a (r8_sc.idx (ix2 k (0 : Fin 1))) = _
  refine congrArg a (funext fun b => Fin.ext ?_)
  match b with
  | ⟨0, _⟩ => show 0 + 1 * k.val = k.val; omega
  | ⟨1, _⟩ => show 64 + 1 * 0 = 64; rfl

theorem out8_last (c : Dev nD) :
    k8_pay3 (F := Ideal) (View.ld (acc8 V c 4 lt8_4) r8_sl) (View.ld (acc8 V c 4 lt8_4) r8_sc)
      = refPool (harr8 V c) (garr8 V c) := by
  have hN : cfg8.N = 5 := N_8
  have h0 : 0 < cfg8.N := by omega
  have h1 : 1 < cfg8.N := by omega
  have h2 : 2 < cfg8.N := by omega
  have h3 : 3 < cfg8.N := by omega
  refine pool_law (harr8 V c) (garr8 V c) (acc8 V c 0 h0) (acc8 V c 1 h1) (acc8 V c 2 h2) (acc8 V c 3 h3) (acc8 V c 4 lt8_4)
    ?_ ?_ ?_ ?_ ?_ _ _ (fun k d => ld_sl _ k d) (fun k => ld_sc _ k)
  · rw [acc8_zero V c h0, hblk8_eq V c ⟨0, h0⟩ 0 rfl, gblk8_eq V c ⟨0, h0⟩ 0 rfl]
  · refine (acc8_succ V c 0 h1).trans ?_
    rw [hblk8_eq V c ⟨0 + 1, h1⟩ 1 rfl, gblk8_eq V c ⟨0 + 1, h1⟩ 1 rfl]
  · refine (acc8_succ V c 1 h2).trans ?_
    rw [hblk8_eq V c ⟨1 + 1, h2⟩ 2 rfl, gblk8_eq V c ⟨1 + 1, h2⟩ 2 rfl]
  · refine (acc8_succ V c 2 h3).trans ?_
    rw [hblk8_eq V c ⟨2 + 1, h3⟩ 3 rfl, gblk8_eq V c ⟨2 + 1, h3⟩ 3 rfl]
  · refine (acc8_succ V c 3 lt8_4).trans ?_
    rw [hblk8_eq V c ⟨3 + 1, lt8_4⟩ 4 rfl, gblk8_eq V c ⟨3 + 1, lt8_4⟩ 4 rfl]

theorem mem_blk8 (t : Fin cfg8.N) (i : S64x64.Idx) :
    i ∈ ((cfg8.win 2).blk t).view.set ↔ ∀ a : Fin 2, win8_2.index t a * S64x64.size a ≤ (i a).val ∧ (i a).val < win8_2.index t a * S64x64.size a + S64x64.size a := by
  show i ∈ ((View.whole main_v142).slice (win8_2.rect t)).set ↔ _
  rw [View.set_slice_whole, Rect.mem_set_unit]
  exact Iff.rfl

theorem flush8_last (t : Fin cfg8.N) (hf : (cfg8.win 2).flush t = true) : t.val = 4 := by
  have h := (flush8_2 t).mp hf
  have hN : cfg8.N = 5 := N_8
  have := t.isLt
  omega

theorem flushed8_eq (c : Dev nD) (t : Fin cfg8.N) (hf : (cfg8.win 2).flush t = true) :
    (dat8 (F := Ideal) V c).flushed 2 t = ((cfg8.win 2).blk t).view.read (Elt Ideal) (refPool (harr8 V c) (garr8 V c)) := by
  show (cfg8.win 2).cut (grid8.coords t) ((dat8 (F := Ideal) V c).after 2 t) = _
  rw [after8_2 V c t (flush8_last t hf), out8_last]
  obtain ⟨-, -, -, -, e0, e1⟩ := idx_facts8 t
  funext y
  show refPool (harr8 V c) (garr8 V c) ((cfg8.win 2).xinj (grid8.coords t) y) = refPool (harr8 V c) (garr8 V c) (((cfg8.win 2).blk t).view.emb y)
  refine congrArg (refPool (harr8 V c) (garr8 V c)) (funext fun a => Fin.ext ?_)
  match a with
  | ⟨0, _⟩ => show (y 0).val = win8_2.index t (0 : Fin 2) * 64 + 1 * (y 0).val; omega
  | ⟨1, _⟩ => show (y 1).val = win8_2.index t (1 : Fin 2) * 64 + 1 * (y 1).val; omega

theorem final8_pool (c : Dev nD) : (dat8 (F := Ideal) V c).arrAt 2 cfg8.N = refPool (harr8 V c) (garr8 V c) := by
  refine (dat8 (F := Ideal) V c).arrAt_eq_of_cover 2 (refPool (harr8 V c) (garr8 V c)) (fun t hf => flushed8_eq V c t hf) (fun i => ?_)
  refine ⟨t8_4, (flush8_2 t8_4).mpr rfl, ?_⟩
  obtain ⟨-, -, -, -, e0, e1⟩ := idx_facts8 t8_4
  rw [mem_blk8]
  intro a
  match a with
  | ⟨0, _⟩ => show win8_2.index t8_4 (0 : Fin 2) * 64 ≤ (i 0).val ∧ (i 0).val < win8_2.index t8_4 (0 : Fin 2) * 64 + 64; have h0 : (i 0).val < 64 := (i 0).isLt; omega
  | ⟨1, _⟩ => show win8_2.index t8_4 (1 : Fin 2) * 64 ≤ (i 1).val ∧ (i 1).val < win8_2.index t8_4 (1 : Fin 2) * 64 + 64; have h1 : (i 1).val < 64 := (i 1).isLt; omega

theorem final8 (V : (c : Dev nD) → (b : Ref sig .tc) → Buf (Elt Ideal) ((c : Thread nD τ).loc b)) (c : Dev nD) :
    (dat8 (F := Ideal) V c).arrAt 2 cfg8.N
      = Host.divf (Host.scatterAdd Cert.ReferenceIdeal.scatter_S64x64_S50000x1_S50000x64_1_0_0_1 (broadcastInDim Cert.ReferenceIdeal.S64x64 ![] Cert.ReferenceIdeal.Facts₀.bcast_S_S64x64 (constant (F := Ideal) Cert.ReferenceIdeal.S_ .f32 0x00000000#32)) (V c (Pipeline.arrRef spec8 1)) (V c (Pipeline.arrRef spec8 0)))
          (broadcastInDim Cert.ReferenceIdeal.S64x64 ![0, 1] Cert.ReferenceIdeal.Facts₀.bcast_S64x1_S64x64_0_1 (broadcastInDim Cert.ReferenceIdeal.S64x1 ![0] Cert.ReferenceIdeal.Facts₀.bcast_S64_S64x1_0
            (maximumf (Host.scatterAdd Cert.ReferenceIdeal.scatter_S64_S50000x1_S50000_n_0_0_1 (broadcastInDim Cert.ReferenceIdeal.S64 ![] Cert.ReferenceIdeal.Facts₀.bcast_S_S64 (constant (F := Ideal) Cert.ReferenceIdeal.S_ .f32 0x00000000#32)) (V c (Pipeline.arrRef spec8 1)) (broadcastInDim Cert.ReferenceIdeal.S50000 ![] Cert.ReferenceIdeal.Facts₀.bcast_S_S50000 (constant (F := Ideal) Cert.ReferenceIdeal.S_ .f32 0x3F800000#32)))
              (broadcastInDim Cert.ReferenceIdeal.S64 ![] Cert.ReferenceIdeal.Facts₀.bcast_S_S64 (constant (F := Ideal) Cert.ReferenceIdeal.S_ .f32 0x3F800000#32))))) :=
  final8_pool V c

end Cert.KernelIdeal.Val.Pool

end
-- ==== Proof.KI.Chain.lean ====
import proofs.«400805_j35450660061449_1_alg».proof.Proof.KI.Vals
import proofs.«400805_j35450660061449_1_alg».proof.Proof.KI.ValMat0
import proofs.«400805_j35450660061449_1_alg».proof.Proof.KI.ValBias1
import proofs.«400805_j35450660061449_1_alg».proof.Proof.KI.ValMat2
import proofs.«400805_j35450660061449_1_alg».proof.Proof.KI.ValBias3
import proofs.«400805_j35450660061449_1_alg».proof.Proof.KI.ValMat4
import proofs.«400805_j35450660061449_1_alg».proof.Proof.KI.ValBias5
import proofs.«400805_j35450660061449_1_alg».proof.Proof.KI.ValMat6
import proofs.«400805_j35450660061449_1_alg».proof.Proof.KI.ValBias7
import proofs.«400805_j35450660061449_1_alg».proof.Proof.KI.ValPool8
import proofs.«400805_j35450660061449_1_alg».proof.Proof.Gen.KernelIdeal.Regions
import proofs.«400805_j35450660061449_1_alg».proof.Proof.Gen.ReferenceIdeal
import proofs.«400805_j35450660061449_1_alg».proof.Proof.RefRead
import Idealize.ShloMosaic.PureOps.Ideal
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Cert.ReferenceIdeal.Read
open Cert.KernelIdeal.Val.Pool (final8)
open Idealize.ShloMosaic Idealize.ShloMosaic.TcCoe Idealize.SL.Sem
open Idealize.ShloMosaic.StableHlo Idealize.ShloMosaic.ValueIdx
open Idealize.ShloMosaic.Pipeline (Dat)

theorem cast_row_eq_bcast {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) (ha : a ≠ 1) :
    shapeCast ⟨2, ![1, a]⟩ x h = broadcastInDim ⟨2, ![1, a]⟩ ![1] hb x := by
  funext j
  have hu : (j 0).val = 0 := by have := idx2_lt0 j; omega
  have e1 := shapeCast_apply x h j (ix1 (⟨(j 1).val, idx2_lt1 j⟩ : Fin a)) (by
    rw [Shape.rowMajor_val_two, Shape.rowMajor_val_one]
    show (j 1).val = (j 0).val * a + (j 1).val
    rw [hu, Nat.zero_mul, Nat.zero_add])
  have e2 := broadcastInDim_apply (s := ⟨1, ![a]⟩) (t := ⟨2, ![1, a]⟩) ![1] hb x j (ix1 (⟨(j 1).val, idx2_lt1 j⟩ : Fin a))
    (fun b => match b with
      | ⟨0, _⟩ => by
        show (j 1).val = if a = 1 then 0 else (j 1).val
        rw [if_neg ha])
  exact e1.trans e2.symm

theorem cast_col_eq_bcast {α : Type} {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) (ha : a ≠ 1) :
    shapeCast ⟨2, ![a, 1]⟩ x h = broadcastInDim ⟨2, ![a, 1]⟩ ![0] hb x := by
  funext j
  have hu : (j 1).val = 0 := by have := idx2_lt1 j; omega
  have e1 := shapeCast_apply x h j (ix1 (⟨(j 0).val, idx2_lt0 j⟩ : Fin a)) (by
    rw [Shape.rowMajor_val_two, Shape.rowMajor_val_one]
    show (j 0).val = (j 0).val * 1 + (j 1).val
    rw [hu, Nat.mul_one, Nat.add_zero])
  have e2 := broadcastInDim_apply (s := ⟨1, ![a]⟩) (t := ⟨2, ![a, 1]⟩) ![0] hb x j (ix1 (⟨(j 0).val, idx2_lt0 j⟩ : Fin a))
    (fun b => match b with
      | ⟨0, _⟩ => by
        show (j 0).val = if a = 1 then 0 else (j 0).val
        rw [if_neg ha])
  exact e1.trans e2.symm

section Keep

variable {F : FTy → Type} [FloatOps F]
variable (m : (ℓ : Loc nD τ sig) → Buf (Elt F) ℓ) (ρ : Dev nD → PrngReg) (c : Dev nD)

abbrev argL : List (Ref sig .tc) :=
  [main_arg0, main_arg1, main_arg2, main_arg3, main_arg4, main_arg5, main_arg6, main_arg7, main_arg8, main_arg9, main_arg10]

abbrev keepL0 : List (Ref sig .tc) :=
  [main_arg2, main_arg4, main_arg5, main_arg6, main_arg7, main_arg8, main_arg9, main_arg10, main_v5, main_v6, main_v16]

abbrev keepL2 : List (Ref sig .tc) :=
  [main_arg2, main_arg6, main_arg7, main_arg8, main_arg9, main_arg10, main_v5, main_v6, main_v16]

abbrev keepL4 : List (Ref sig .tc) :=
  [main_arg2, main_arg8, main_arg9, main_arg10, main_v5, main_v6, main_v16]

abbrev keepL6 : List (Ref sig .tc) :=
  [main_arg2, main_arg10, main_v5, main_v6, main_v16]

theorem We0_arg (b : Ref sig .tc) (hb : b ∈ argL) : We0 m ρ c (Proc.devRef .tc b) = W0 m ρ c (Proc.devRef .tc b) :=
  (StableHlo.after_of_writes_sub hostOps0_1 _ hostOps0_1_writes ((by decide : ∀ b ∈ argL, b ∉ hostOps0_1_W) b hb)).trans
    (StableHlo.after_of_writes_sub hostOps0 _ hostOps0_writes ((by decide : ∀ b ∈ argL, b ∉ hostOps0_W) b hb))

theorem keep0 (b : Ref sig .tc) (hb : b ∈ keepL0) : Wx0 m ρ c (Proc.devRef .tc b) = We0 m ρ c (Proc.devRef .tc b) :=
  Wx0_of_ne m ρ c b ((by decide : ∀ b ∈ keepL0, ∀ w, Pipeline.arrRef spec0 w ≠ b) b hb)
theorem keep1 (b : Ref sig .tc) (hb : b ∈ keepL0) : Wx1 m ρ c (Proc.devRef .tc b) = We0 m ρ c (Proc.devRef .tc b) :=
  (Wx1_of_ne m ρ c b ((by decide : ∀ b ∈ keepL0, ∀ w, Pipeline.arrRef spec1 w ≠ b) b hb)).trans
    ((StableHlo.after_of_writes_sub hostOps1 _ hostOps1_writes ((by decide : ∀ b ∈ keepL0, b ∉ hostOps1_W) b hb)).trans
      (keep0 m ρ c b hb))
theorem keep2 (b : Ref sig .tc) (hb : b ∈ keepL2) : Wx2 m ρ c (Proc.devRef .tc b) = We0 m ρ c (Proc.devRef .tc b) :=
  (Wx2_of_ne m ρ c b ((by decide : ∀ b ∈ keepL2, ∀ w, Pipeline.arrRef spec2 w ≠ b) b hb)).trans
    (keep1 m ρ c b ((by decide : ∀ b ∈ keepL2, b ∈ keepL0) b hb))
theorem keep3 (b : Ref sig .tc) (hb : b ∈ keepL2) : Wx3 m ρ c (Proc.devRef .tc b) = We0 m ρ c (Proc.devRef .tc b) :=
  (Wx3_of_ne m ρ c b ((by decide : ∀ b ∈ keepL2, ∀ w, Pipeline.arrRef spec3 w ≠ b) b hb)).trans
    ((StableHlo.after_of_writes_sub hostOps3 _ hostOps3_writes ((by decide : ∀ b ∈ keepL2, b ∉ hostOps3_W) b hb)).trans
      (keep2 m ρ c b hb))
theorem keep4 (b : Ref sig .tc) (hb : b ∈ keepL4) : Wx4 m ρ c (Proc.devRef .tc b) = We0 m ρ c (Proc.devRef .tc b) :=
  (Wx4_of_ne m ρ c b ((by decide : ∀ b ∈ keepL4, ∀ w, Pipeline.arrRef spec4 w ≠ b) b hb)).trans
    (keep3 m ρ c b ((by decide : ∀ b ∈ keepL4, b ∈ keepL2) b hb))
theorem keep5 (b : Ref sig .tc) (hb : b ∈ keepL4) : Wx5 m ρ c (Proc.devRef .tc b) = We0 m ρ c (Proc.devRef .tc b) :=
  (Wx5_of_ne m ρ c b ((by decide : ∀ b ∈ keepL4, ∀ w, Pipeline.arrRef spec5 w ≠ b) b hb)).trans
    ((StableHlo.after_of_writes_sub hostOps5 _ hostOps5_writes ((by decide : ∀ b ∈ keepL4, b ∉ hostOps5_W) b hb)).trans
      (keep4 m ρ c b hb))
theorem keep6 (b : Ref sig .tc) (hb : b ∈ keepL6) : Wx6 m ρ c (Proc.devRef .tc b) = We0 m ρ c (Proc.devRef .tc b) :=
  (Wx6_of_ne m ρ c b ((by decide : ∀ b ∈ keepL6, ∀ w, Pipeline.arrRef spec6 w ≠ b) b hb)).trans
    (keep5 m ρ c b ((by decide : ∀ b ∈ keepL6, b ∈ keepL4) b hb))
theorem keep7 (b : Ref sig .tc) (hb : b ∈ keepL6) : Wx7 m ρ c (Proc.devRef .tc b) = We0 m ρ c (Proc.devRef .tc b) :=
  (Wx7_of_ne m ρ c b ((by decide : ∀ b ∈ keepL6, ∀ w, Pipeline.arrRef spec7 w ≠ b) b hb)).trans
    ((StableHlo.after_of_writes_sub hostOps7 _ hostOps7_writes ((by decide : ∀ b ∈ keepL6, b ∉ hostOps7_W) b hb)).trans
      (keep6 m ρ c b hb))

end Keep

section Host

variable {F : FTy → Type} [FloatOps F]

set_option maxHeartbeats 2000000 in

theorem h0_v5 (V : Valuation τ sig (Elt F)) :
    StableHlo.after hostOps0 V (Proc.devRef .tc main_v5) = val_main_v3 (F := F) (V (Proc.devRef .tc main_arg1)) := by
  after_results; rfl
set_option maxHeartbeats 2000000 in

theorem h0_v6 (V : Valuation τ sig (Elt F)) :
    StableHlo.after hostOps0 V (Proc.devRef .tc main_v6) = val_main_v6 (F := F) (V (Proc.devRef .tc main_arg1)) := by
  after_results; rfl
set_option maxHeartbeats 2000000 in

theorem h0_v12 (V : Valuation τ sig (Elt F)) :
    StableHlo.after hostOps0 V (Proc.devRef .tc main_v12) = val_main_v12 (F := F) (V (Proc.devRef .tc main_arg1)) := by
  after_results; rfl
set_option maxHeartbeats 2000000 in

theorem h0_v15 (V : Valuation τ sig (Elt F)) :
    StableHlo.after hostOps0 V (Proc.devRef .tc main_v15) = val_main_v15 (F := F) (V (Proc.devRef .tc main_arg1)) := by
  after_results; rfl

theorem h0_cst3 (V : Valuation τ sig (Elt F)) :
    StableHlo.after hostOps0 V (Proc.devRef .tc main_cst_3) = val_main_cst_3 (F := F) := by
  after_results; rfl

theorem h01_v16 (W : Valuation τ sig (Elt F)) (x1 : (⟨Cert.ReferenceIdeal.S2x800000, .i32⟩ : BufTy).Contents (Elt F))
    (e12 : W (Proc.devRef .tc main_v12) = val_main_v12 (F := F) x1)
    (e15 : W (Proc.devRef .tc main_v15) = val_main_v15 (F := F) x1)
    (e3 : W (Proc.devRef .tc main_cst_3) = val_main_cst_3 (F := F)) :
    StableHlo.after hostOps0_1 W (Proc.devRef .tc main_v16) = val_main_v16 (F := F) x1 := by
  after_results_simp
  rw [e12, e15, e3]
  rfl

set_option maxHeartbeats 1000000 in

theorem h1_v45 (V : Valuation τ sig (Elt F))
    (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x96, .f32⟩ : BufTy).Contents (Elt F))
    (eh : V (Proc.devRef .tc main_v17) = val_main_v17 (F := F) x0 x3)
    (e16 : V (Proc.devRef .tc main_v16) = val_main_v16 (F := F) x1)
    (e5 : V (Proc.devRef .tc main_v5) = val_main_v3 (F := F) x1)
    (e6 : V (Proc.devRef .tc main_v6) = val_main_v6 (F := F) x1) :
    StableHlo.after hostOps1 V (Proc.devRef .tc main_v45) = val_main_v45 (F := F) x0 x1 x3 := by
  after_results_simp
  rw [eh, e16, e5, e6]
  rfl

theorem h1_v46 (V : Valuation τ sig (Elt F)) (x4 : (⟨Cert.ReferenceIdeal.S96, .f32⟩ : BufTy).Contents (Elt F))
    (e : V (Proc.devRef .tc main_arg4) = x4) :
    StableHlo.after hostOps1 V (Proc.devRef .tc main_v46) = val_main_v46 (F := F) x4 := by
  after_results_simp
  rw [e]
  unfold val_main_v46
  exact cast_row_eq_bcast x4 _ _ (by decide)

set_option maxHeartbeats 1000000 in

theorem h3_v76 (V : Valuation τ sig (Elt F))
    (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x96, .f32⟩ : BufTy).Contents (Elt F))
    (x4 : (⟨Cert.ReferenceIdeal.S96, .f32⟩ : BufTy).Contents (Elt F))
    (x5 : (⟨Cert.ReferenceIdeal.S96x96, .f32⟩ : BufTy).Contents (Elt F))
    (eh : V (Proc.devRef .tc main_v48) = val_main_v50 (F := F) x0 x1 x3 x4 x5)
    (e16 : V (Proc.devRef .tc main_v16) = val_main_v16 (F := F) x1)
    (e5 : V (Proc.devRef .tc main_v5) = val_main_v3 (F := F) x1)
    (e6 : V (Proc.devRef .tc main_v6) = val_main_v6 (F := F) x1) :
    StableHlo.after hostOps3 V (Proc.devRef .tc main_v76) = val_main_v78 (F := F) x0 x1 x3 x4 x5 := by
  after_results_simp
  rw [eh, e16, e5, e6]
  rfl

theorem h3_v77 (V : Valuation τ sig (Elt F)) (x6 : (⟨Cert.ReferenceIdeal.S96, .f32⟩ : BufTy).Contents (Elt F))
    (e : V (Proc.devRef .tc main_arg6) = x6) :
    StableHlo.after hostOps3 V (Proc.devRef .tc main_v77) = val_main_v79 (F := F) x6 := by
  after_results_simp
  rw [e]
  unfold val_main_v79
  exact cast_row_eq_bcast x6 _ _ (by decide)

set_option maxHeartbeats 1000000 in

theorem h5_v107 (V : Valuation τ sig (Elt F))
    (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x96, .f32⟩ : BufTy).Contents (Elt F))
    (x4 : (⟨Cert.ReferenceIdeal.S96, .f32⟩ : BufTy).Contents (Elt F))
    (x5 : (⟨Cert.ReferenceIdeal.S96x96, .f32⟩ : BufTy).Contents (Elt F))
    (x6 : (⟨Cert.ReferenceIdeal.S96, .f32⟩ : BufTy).Contents (Elt F))
    (x7 : (⟨Cert.ReferenceIdeal.S96x96, .f32⟩ : BufTy).Contents (Elt F))
    (eh : V (Proc.devRef .tc main_v79) = val_main_v83 (F := F) x0 x1 x3 x4 x5 x6 x7)
    (e16 : V (Proc.devRef .tc main_v16) = val_main_v16 (F := F) x1)
    (e5 : V (Proc.devRef .tc main_v5) = val_main_v3 (F := F) x1)
    (e6 : V (Proc.devRef .tc main_v6) = val_main_v6 (F := F) x1) :
    StableHlo.after hostOps5 V (Proc.devRef .tc main_v107) = val_main_v111 (F := F) x0 x1 x3 x4 x5 x6 x7 := by
  after_results_simp
  rw [eh, e16, e5, e6]
  rfl

theorem h5_v108 (V : Valuation τ sig (Elt F)) (x8 : (⟨Cert.ReferenceIdeal.S96, .f32⟩ : BufTy).Contents (Elt F))
    (e : V (Proc.devRef .tc main_arg8) = x8) :
    StableHlo.after hostOps5 V (Proc.devRef .tc main_v108) = val_main_v112 (F := F) x8 := by
  after_results_simp
  rw [e]
  unfold val_main_v112
  exact cast_row_eq_bcast x8 _ _ (by decide)

set_option maxHeartbeats 1000000 in

theorem h7_v138 (V : Valuation τ sig (Elt F))
    (x0 : (⟨Cert.ReferenceIdeal.S50000x128, .f32⟩ : BufTy).Contents (Elt F))
    (x1 : (⟨Cert.ReferenceIdeal.S2x800000, .i32⟩ : BufTy).Contents (Elt F))
    (x3 : (⟨Cert.ReferenceIdeal.S128x96, .f32⟩ : BufTy).Contents (Elt F))
    (x4 : (⟨Cert.ReferenceIdeal.S96, .f32⟩ : BufTy).Contents (Elt F))
    (x5 : (⟨Cert.ReferenceIdeal.S96x96, .f32⟩ : BufTy).Contents (Elt F))
    (x6 : (⟨Cert.ReferenceIdeal.S96, .f32⟩ : BufTy).Contents (Elt F))
    (x7 : (⟨Cert.ReferenceIdeal.S96x96, .f32⟩ : BufTy).Contents (Elt F))
    (x8 : (⟨Cert.ReferenceIdeal.S96, .f32⟩ : BufTy).Contents (Elt F))
    (x9 : (⟨Cert.ReferenceIdeal.S96x64, .f32⟩ : BufTy).Contents (Elt F))
    (eh : V (Proc.devRef .tc main_v110) = val_main_v116 (F := F) x0 x1 x3 x4 x5 x6 x7 x8 x9)
    (e16 : V (Proc.devRef .tc main_v16) = val_main_v16 (F := F) x1)
    (e5 : V (Proc.devRef .tc main_v5) = val_main_v3 (F := F) x1)
    (e6 : V (Proc.devRef .tc main_v6) = val_main_v6 (F := F) x1) :
    StableHlo.after hostOps7 V (Proc.devRef .tc main_v138) = val_main_v144 (F := F) x0 x1 x3 x4 x5 x6 x7 x8 x9 := by
  after_results_simp
  rw [eh, e16, e5, e6]
  rfl

theorem h7_v139 (V : Valuation τ sig (Elt F)) (x10 : (⟨Cert.ReferenceIdeal.S64, .f32⟩ : BufTy).Contents (Elt F))
    (e : V (Proc.devRef .tc main_arg10) = x10) :
    StableHlo.after hostOps7 V (Proc.devRef .tc main_v139) = val_main_v145 (F := F) x10 := by
  after_results_simp
  rw [e]
  unfold val_main_v145
  exact cast_row_eq_bcast x10 _ _ (by decide)

theorem h8_v141 (V : Valuation τ sig (Elt F)) (x2 : (⟨Cert.ReferenceIdeal.S50000, .i32⟩ : BufTy).Contents (Elt F))
    (e : V (Proc.devRef .tc main_arg2) = x2) :
    StableHlo.after hostOps8 V (Proc.devRef .tc main_v141) = val_main_v150 (F := F) x2 := by
  after_results_simp
  rw [e]
  unfold val_main_v150
  exact cast_col_eq_bcast x2 _ _ (by decide)

end Host

section Chain

variable (m : (ℓ : Loc nD τ sig) → Buf (Elt Ideal) ℓ) (ρ : Dev nD → PrngReg) (c : Dev nD)

theorem We0_at_arg (b : Ref sig .tc) (hb : b ∈ argL) :
    We0 m ρ c (Proc.devRef .tc b) = m ((c : Thread nD τ).loc b) := We0_arg m ρ c b hb

theorem We0_v5 : We0 m ρ c (Proc.devRef .tc main_v5) = val_main_v3 (F := Ideal) (m ((c : Thread nD τ).loc main_arg1)) :=
  (StableHlo.after_of_writes_sub hostOps0_1 _ hostOps0_1_writes (by decide)).trans (h0_v5 (W0 m ρ c))

theorem We0_v6 : We0 m ρ c (Proc.devRef .tc main_v6) = val_main_v6 (F := Ideal) (m ((c : Thread nD τ).loc main_arg1)) :=
  (StableHlo.after_of_writes_sub hostOps0_1 _ hostOps0_1_writes (by decide)).trans (h0_v6 (W0 m ρ c))

theorem We0_v16 : We0 m ρ c (Proc.devRef .tc main_v16) = val_main_v16 (F := Ideal) (m ((c : Thread nD τ).loc main_arg1)) :=
  h01_v16 (StableHlo.after hostOps0 (W0 m ρ c)) (m ((c : Thread nD τ).loc main_arg1)) (h0_v12 (W0 m ρ c)) (h0_v15 (W0 m ρ c)) (h0_cst3 (W0 m ρ c))

theorem Wx0_v17 : Wx0 m ρ c (Proc.devRef .tc main_v17) = val_main_v17 (F := Ideal) (m ((c : Thread nD τ).loc main_arg0)) (m ((c : Thread nD τ).loc main_arg3)) := by
  unfold val_main_v17
  rw [← We0_at_arg m ρ c main_arg0 (by decide), ← We0_at_arg m ρ c main_arg3 (by decide)]
  exact (Wx0_arr m ρ c 2).trans (final0 (Ve0 m ρ) c)

theorem We1_v45 : We1 m ρ c (Proc.devRef .tc main_v45) = val_main_v45 (F := Ideal)
        (m ((c : Thread nD τ).loc main_arg0)) (m ((c : Thread nD τ).loc main_arg1)) (m ((c : Thread nD τ).loc main_arg3)) :=
  h1_v45 (Wx0 m ρ c) _ _ _ (Wx0_v17 m ρ c)
    ((keep0 m ρ c main_v16 (by decide)).trans (We0_v16 m ρ c))
    ((keep0 m ρ c main_v5 (by decide)).trans (We0_v5 m ρ c))
    ((keep0 m ρ c main_v6 (by decide)).trans (We0_v6 m ρ c))

theorem We1_v46 : We1 m ρ c (Proc.devRef .tc main_v46) = val_main_v46 (F := Ideal) (m ((c : Thread nD τ).loc main_arg4)) :=
  h1_v46 (Wx0 m ρ c) _ ((keep0 m ρ c main_arg4 (by decide)).trans (We0_at_arg m ρ c main_arg4 (by decide)))

theorem Wx1_v47 : Wx1 m ρ c (Proc.devRef .tc main_v47) = val_main_v49 (F := Ideal)
        (m ((c : Thread nD τ).loc main_arg0)) (m ((c : Thread nD τ).loc main_arg1)) (m ((c : Thread nD τ).loc main_arg3)) (m ((c : Thread nD τ).loc main_arg4)) := by
  unfold val_main_v49 val_main_v48 val_main_v47 val_main_call1_v0 val_main_call1_cst
  rw [← We1_v45 m ρ c, ← We1_v46 m ρ c]
  exact (Wx1_arr m ρ c 2).trans (final1 (Ve1 m ρ) c)

theorem Wx2_v48 : Wx2 m ρ c (Proc.devRef .tc main_v48) = val_main_v50 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) := by
  unfold val_main_v50
  rw [← Wx1_v47 m ρ c, ← We0_at_arg m ρ c main_arg5 (by decide), ← keep1 m ρ c main_arg5 (by decide)]
  exact (Wx2_arr m ρ c 2).trans (final2 (Ve2 m ρ) c)

theorem We3_v76 : We3 m ρ c (Proc.devRef .tc main_v76) = val_main_v78 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) :=
  h3_v76 (Wx2 m ρ c) _ _ _ _ _ (Wx2_v48 m ρ c)
    ((keep2 m ρ c main_v16 (by decide)).trans (We0_v16 m ρ c))
    ((keep2 m ρ c main_v5 (by decide)).trans (We0_v5 m ρ c))
    ((keep2 m ρ c main_v6 (by decide)).trans (We0_v6 m ρ c))

theorem We3_v77 : We3 m ρ c (Proc.devRef .tc main_v77) = val_main_v79 (F := Ideal) (m ((c : Thread nD τ).loc main_arg6)) :=
  h3_v77 (Wx2 m ρ c) _ ((keep2 m ρ c main_arg6 (by decide)).trans (We0_at_arg m ρ c main_arg6 (by decide)))

theorem Wx3_v78 : Wx3 m ρ c (Proc.devRef .tc main_v78) = val_main_v82 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) := by
  unfold val_main_v82 val_main_v81 val_main_v80 val_main_call2_v0 val_main_call2_cst
  rw [← We3_v76 m ρ c, ← We3_v77 m ρ c]
  exact (Wx3_arr m ρ c 2).trans (final3 (Ve3 m ρ) c)

theorem Wx4_v79 : Wx4 m ρ c (Proc.devRef .tc main_v79) = val_main_v83 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) := by
  unfold val_main_v83
  rw [← Wx3_v78 m ρ c, ← We0_at_arg m ρ c main_arg7 (by decide), ← keep3 m ρ c main_arg7 (by decide)]
  exact (Wx4_arr m ρ c 2).trans (final4 (Ve4 m ρ) c)

theorem We5_v107 : We5 m ρ c (Proc.devRef .tc main_v107) = val_main_v111 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) :=
  h5_v107 (Wx4 m ρ c) _ _ _ _ _ _ _ (Wx4_v79 m ρ c)
    ((keep4 m ρ c main_v16 (by decide)).trans (We0_v16 m ρ c))
    ((keep4 m ρ c main_v5 (by decide)).trans (We0_v5 m ρ c))
    ((keep4 m ρ c main_v6 (by decide)).trans (We0_v6 m ρ c))

theorem We5_v108 : We5 m ρ c (Proc.devRef .tc main_v108) = val_main_v112 (F := Ideal) (m ((c : Thread nD τ).loc main_arg8)) :=
  h5_v108 (Wx4 m ρ c) _ ((keep4 m ρ c main_arg8 (by decide)).trans (We0_at_arg m ρ c main_arg8 (by decide)))

theorem Wx5_v109 : Wx5 m ρ c (Proc.devRef .tc main_v109) = val_main_v115 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  unfold val_main_v115 val_main_v114 val_main_v113 val_main_call3_v0 val_main_call3_cst
  rw [← We5_v107 m ρ c, ← We5_v108 m ρ c]
  exact (Wx5_arr m ρ c 2).trans (final5 (Ve5 m ρ) c)

theorem Wx6_v110 : Wx6 m ρ c (Proc.devRef .tc main_v110) = val_main_v116 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) := by
  unfold val_main_v116
  rw [← Wx5_v109 m ρ c, ← We0_at_arg m ρ c main_arg9 (by decide), ← keep5 m ρ c main_arg9 (by decide)]
  exact (Wx6_arr m ρ c 2).trans (final6 (Ve6 m ρ) c)

theorem We7_v138 : We7 m ρ c (Proc.devRef .tc main_v138) = val_main_v144 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) :=
  h7_v138 (Wx6 m ρ c) _ _ _ _ _ _ _ _ _ (Wx6_v110 m ρ c)
    ((keep6 m ρ c main_v16 (by decide)).trans (We0_v16 m ρ c))
    ((keep6 m ρ c main_v5 (by decide)).trans (We0_v5 m ρ c))
    ((keep6 m ρ c main_v6 (by decide)).trans (We0_v6 m ρ c))

theorem We7_v139 : We7 m ρ c (Proc.devRef .tc main_v139) = val_main_v145 (F := Ideal) (m ((c : Thread nD τ).loc main_arg10)) :=
  h7_v139 (Wx6 m ρ c) _ ((keep6 m ρ c main_arg10 (by decide)).trans (We0_at_arg m ρ c main_arg10 (by decide)))

theorem Wx7_v140 : Wx7 m ρ c (Proc.devRef .tc main_v140) = val_main_v147 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) := by
  unfold val_main_v147 val_main_v146
  rw [← We7_v138 m ρ c, ← We7_v139 m ρ c]
  exact (Wx7_arr m ρ c 2).trans (final7 (Ve7 m ρ) c)

theorem We8_v141 : We8 m ρ c (Proc.devRef .tc main_v141) = val_main_v150 (F := Ideal) (m ((c : Thread nD τ).loc main_arg2)) :=
  h8_v141 (Wx7 m ρ c) _ ((keep7 m ρ c main_arg2 (by decide)).trans (We0_at_arg m ρ c main_arg2 (by decide)))

theorem We8_v140 : We8 m ρ c (Proc.devRef .tc main_v140) = val_main_v147 (F := Ideal)
        (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) :=
  (StableHlo.after_of_writes_sub hostOps8 _ hostOps8_writes (by decide)).trans (Wx7_v140 m ρ c)

theorem kernel_value (m : (ℓ : Loc nD τ sig) → Buf (Elt Ideal) ℓ) (ρ : Dev nD → PrngReg) (c : Dev nD) :
    Wx8 (F := Ideal) m ρ c (Proc.devRef .tc main_v142)
      = Cert.ReferenceIdeal.Read.val_main_v159 (F := Ideal)
        (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  unfold val_main_v159 val_main_v154 val_main_v152 val_main_cst_33 val_main_v158 val_main_v157 val_main_v156 val_main_v151
    val_main_v149 val_main_cst_32 val_main_v148 val_main_cst_31 val_main_v155 val_main_cst_34
  rw [show val_main_v153 (F := Ideal) (m ((c : Thread nD τ).loc main_arg2)) = val_main_v150 (F := Ideal) (m ((c : Thread nD τ).loc main_arg2)) from rfl]
  rw [← We8_v140 m ρ c, ← We8_v141 m ρ c]
  exact (Wx8_arr m ρ c 2).trans (final8 (Ve8 m ρ) c)

end Chain

end Cert.KernelIdeal.Val

end
-- ==== Proof.lean ====
/-
  A four-layer graph convolution with a mean pool over graphs, computed in row tiles, against the same network on
  whole arrays.  Over the extended reals a row tile of a matrix product is that product's rows, bias and rectifier
  are pointwise, and the one-hot product summed over the tiles is the scatter-add over each graph's rows; no law
  used needs finite inputs.
-/
import proofs.«400805_j35450660061449_1_alg».proof.Defs
import proofs.«400805_j35450660061449_1_alg».proof.Proof.Gen.Kernel
import proofs.«400805_j35450660061449_1_alg».proof.Proof.Gen.KernelIdeal
import proofs.«400805_j35450660061449_1_alg».proof.Proof.Gen.ReferenceIdeal
import proofs.«400805_j35450660061449_1_alg».proof.Proof.Gen.Pre_finite_inputs
import proofs.«400805_j35450660061449_1_alg».proof.Proof.RefRun
import proofs.«400805_j35450660061449_1_alg».proof.Proof.RefRead
import proofs.«400805_j35450660061449_1_alg».proof.Proof.KB.Run
import proofs.«400805_j35450660061449_1_alg».proof.Proof.KI.Run
import proofs.«400805_j35450660061449_1_alg».proof.Proof.KI.Chain

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.ReferenceIdeal.Read.val_main_v159 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.Val.kernel_value m ρ c), (h c).2⟩)
      (Cert.KernelIdeal.Fr.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v159_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
